-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S2048x512 : Shape := ⟨2, ![2048, 512]⟩
abbrev S512x512 : Shape := ⟨2, ![512, 512]⟩
abbrev S4 : Shape := ⟨1, ![4]⟩
abbrev S_ : Shape := ⟨0, ![]⟩
abbrev S64x512 : Shape := ⟨2, ![64, 512]⟩
abbrev S1 : Shape := ⟨1, ![1]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S2048x512, .bf16⟩
  | .local _ .vmem, ⟨0, _⟩ => ⟨S1024x1024, .f32⟩
  | .local _ .vmem, ⟨1, _⟩ => ⟨S2048x512, .bf16⟩
  | .local _ .vmem, ⟨2, _⟩ => ⟨S512x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_21 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_20 : BitVec 32 := 16#32
  let v39 : BitVec 32 := Scalar.muli v9 c16_i32_20
  let v40 : BitVec 32 := Scalar.addi c0_i32_21 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v41 : BitVec 32 := Scalar.muli v5 c4_i32_22
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.muli v8 c1_i32_23
  let v44 : BitVec 32 := Scalar.addi v42 v43
  v44.toNat
def k0_dev2 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v45 : BitVec 32 := Scalar.muli v2 c16_i32_25
  let v46 : BitVec 32 := Scalar.addi c0_i32_26 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v32 : BitVec 32 := Scalar.addi v5 c1_i32_15
  let c2_i32_16 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v33 : BitVec 32 := Scalar.muli c2_i32_16 v19
  let v34 : BitVec 32 := Scalar.subi v32 v33
  let c4_i32_27 : BitVec 32 := 4#32
  let v47 : BitVec 32 := Scalar.muli v34 c4_i32_27
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v49 : BitVec 32 := Scalar.muli v8 c1_i32_28
  let v50 : BitVec 32 := Scalar.addi v48 v49
  v50.toNat
def k0_dev3 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v51 : BitVec 32 := Scalar.muli v2 c16_i32_30
  let v52 : BitVec 32 := Scalar.addi c0_i32_31 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v53 : BitVec 32 := Scalar.muli v5 c4_i32_32
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c2_i32_18 : BitVec 32 := 2#32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.muli c2_i32_18 v29
  let v37 : BitVec 32 := Scalar.subi v35 v36
  let c1_i32_33 : BitVec 32 := 1#32
  let v55 : BitVec 32 := Scalar.muli v37 c1_i32_33
  let v56 : BitVec 32 := Scalar.addi v54 v55
  v56.toNat
def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_34 : BitVec 32 := 0#32
  let v57 : BitVec 1 := Scalar.cmpi .eq v2 c0_i32_34
  let v58 : BitVec 32 := Scalar.extui v57
  let c0_i32_35 : BitVec 32 := 0#32
  let v59 : BitVec 1 := Scalar.cmpi .ne v58 c0_i32_35
  v59

def k0_off1 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c0_i32_463 : BitVec 32 := 0#32
  let v580 : BitVec 32 := Scalar.addi v579 c0_i32_463
  let v581 : Index := Scalar.indexCast v580
  let c512 : Index := 512#32
  ![v581.toNat, 512]
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_36 : BitVec 32 := 1#32
  let v60 : BitVec 1 := Scalar.cmpi .eq v2 c1_i32_36
  let v61 : BitVec 32 := Scalar.extui v60
  let c0_i32_37 : BitVec 32 := 0#32
  let v62 : BitVec 1 := Scalar.cmpi .ne v61 c0_i32_37
  v62

def k0_off2 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c0_i32_463 : BitVec 32 := 0#32
  let v580 : BitVec 32 := Scalar.addi v579 c0_i32_463
  let v581 : Index := Scalar.indexCast v580
  let c0 : Index := 0#32
  ![v581.toNat, 0]
def k0_off3 (d0 : Dev nD) (c0_i32_38 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v63 : BitVec 32 := Scalar.muli v2 c1024_i32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32 : BitVec 32 := 256#32
  let v64 : BitVec 32 := Scalar.muli v31 c256_i32
  let v65 : BitVec 32 := Scalar.addi v63 v64
  let v66 : BitVec 32 := Scalar.addi v65 c0_i32_38
  let c0_i32_45 : BitVec 32 := 0#32
  ![v66.toNat, 0]
def k0_dev4 (d0 : Dev nD) : Nat :=
  let c0_i32_42 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_41 : BitVec 32 := 16#32
  let v67 : BitVec 32 := Scalar.muli v9 c16_i32_41
  let v68 : BitVec 32 := Scalar.addi c0_i32_42 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v69 : BitVec 32 := Scalar.muli v5 c4_i32_43
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v71 : BitVec 32 := Scalar.muli v8 c1_i32_44
  let v72 : BitVec 32 := Scalar.addi v70 v71
  v72.toNat
def k0_cond3 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_48 : BitVec 32 := 0#32
  let v79 : BitVec 1 := Scalar.cmpi .eq v2 c0_i32_48
  let v80 : BitVec 32 := Scalar.extui v79
  let c0_i32_49 : BitVec 32 := 0#32
  let v81 : BitVec 1 := Scalar.cmpi .ne v80 c0_i32_49
  v81

def k0_off4 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c64_i32_463 : BitVec 32 := 64#32
  let v580 : BitVec 32 := Scalar.addi v579 c64_i32_463
  let v581 : Index := Scalar.indexCast v580
  let c512 : Index := 512#32
  ![v581.toNat, 512]
def k0_cond4 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_50 : BitVec 32 := 1#32
  let v82 : BitVec 1 := Scalar.cmpi .eq v2 c1_i32_50
  let v83 : BitVec 32 := Scalar.extui v82
  let c0_i32_51 : BitVec 32 := 0#32
  let v84 : BitVec 1 := Scalar.cmpi .ne v83 c0_i32_51
  v84

def k0_off5 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c64_i32_463 : BitVec 32 := 64#32
  let v580 : BitVec 32 := Scalar.addi v579 c64_i32_463
  let v581 : Index := Scalar.indexCast v580
  let c0 : Index := 0#32
  ![v581.toNat, 0]
def k0_dev5 (d0 : Dev nD) : Nat :=
  let c0_i32_57 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_56 : BitVec 32 := 16#32
  let v89 : BitVec 32 := Scalar.muli v9 c16_i32_56
  let v90 : BitVec 32 := Scalar.addi c0_i32_57 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v91 : BitVec 32 := Scalar.muli v5 c4_i32_58
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v93 : BitVec 32 := Scalar.muli v8 c1_i32_59
  let v94 : BitVec 32 := Scalar.addi v92 v93
  v94.toNat
def k0_cond5 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_63 : BitVec 32 := 0#32
  let v101 : BitVec 1 := Scalar.cmpi .eq v2 c0_i32_63
  let v102 : BitVec 32 := Scalar.extui v101
  let c0_i32_64 : BitVec 32 := 0#32
  let v103 : BitVec 1 := Scalar.cmpi .ne v102 c0_i32_64
  v103

def k0_off6 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c128_i32_463 : BitVec 32 := 128#32
  let v580 : BitVec 32 := Scalar.addi v579 c128_i32_463
  let v581 : Index := Scalar.indexCast v580
  let c512 : Index := 512#32
  ![v581.toNat, 512]
def k0_cond6 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_65 : BitVec 32 := 1#32
  let v104 : BitVec 1 := Scalar.cmpi .eq v2 c1_i32_65
  let v105 : BitVec 32 := Scalar.extui v104
  let c0_i32_66 : BitVec 32 := 0#32
  let v106 : BitVec 1 := Scalar.cmpi .ne v105 c0_i32_66
  v106

def k0_off7 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c128_i32_463 : BitVec 32 := 128#32
  let v580 : BitVec 32 := Scalar.addi v579 c128_i32_463
  let v581 : Index := Scalar.indexCast v580
  let c0 : Index := 0#32
  ![v581.toNat, 0]
def k0_dev6 (d0 : Dev nD) : Nat :=
  let c0_i32_72 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_71 : BitVec 32 := 16#32
  let v111 : BitVec 32 := Scalar.muli v9 c16_i32_71
  let v112 : BitVec 32 := Scalar.addi c0_i32_72 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v113 : BitVec 32 := Scalar.muli v5 c4_i32_73
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v115 : BitVec 32 := Scalar.muli v8 c1_i32_74
  let v116 : BitVec 32 := Scalar.addi v114 v115
  v116.toNat
def k0_cond7 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_78 : BitVec 32 := 0#32
  let v123 : BitVec 1 := Scalar.cmpi .eq v2 c0_i32_78
  let v124 : BitVec 32 := Scalar.extui v123
  let c0_i32_79 : BitVec 32 := 0#32
  let v125 : BitVec 1 := Scalar.cmpi .ne v124 c0_i32_79
  v125

def k0_off8 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c192_i32_463 : BitVec 32 := 192#32
  let v580 : BitVec 32 := Scalar.addi v579 c192_i32_463
  let v581 : Index := Scalar.indexCast v580
  let c512 : Index := 512#32
  ![v581.toNat, 512]
def k0_cond8 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_80 : BitVec 32 := 1#32
  let v126 : BitVec 1 := Scalar.cmpi .eq v2 c1_i32_80
  let v127 : BitVec 32 := Scalar.extui v126
  let c0_i32_81 : BitVec 32 := 0#32
  let v128 : BitVec 1 := Scalar.cmpi .ne v127 c0_i32_81
  v128

def k0_off9 (d0 : Dev nD) : Fin 2 → Nat :=
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_462 : BitVec 32 := 256#32
  let v579 : BitVec 32 := Scalar.muli v31 c256_i32_462
  let c192_i32_463 : BitVec 32 := 192#32
  let v580 : BitVec 32 := Scalar.addi v579 c192_i32_463
  let v581 : Index := Scalar.indexCast v580
  let c0 : Index := 0#32
  ![v581.toNat, 0]
def k0_dev7 (d0 : Dev nD) : Nat :=
  let c0_i32_87 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_86 : BitVec 32 := 16#32
  let v133 : BitVec 32 := Scalar.muli v9 c16_i32_86
  let v134 : BitVec 32 := Scalar.addi c0_i32_87 v133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v135 : BitVec 32 := Scalar.muli v5 c4_i32_88
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v137 : BitVec 32 := Scalar.muli v8 c1_i32_89
  let v138 : BitVec 32 := Scalar.addi v136 v137
  v138.toNat
def k0_cond9 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_93 : BitVec 32 := 0#32
  let v145 : BitVec 1 := Scalar.cmpi .eq v2 c0_i32_93
  let v146 : BitVec 32 := Scalar.extui v145
  let c0_i32_94 : BitVec 32 := 0#32
  let v147 : BitVec 1 := Scalar.cmpi .ne v146 c0_i32_94
  v147

def k0_off10 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c0_i32_464 : BitVec 32 := 0#32
  let v581 : BitVec 32 := Scalar.addi v580 c0_i32_464
  let v582 : Index := Scalar.indexCast v581
  let c512 : Index := 512#32
  ![v582.toNat, 512]
def k0_cond10 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_95 : BitVec 32 := 1#32
  let v148 : BitVec 1 := Scalar.cmpi .eq v2 c1_i32_95
  let v149 : BitVec 32 := Scalar.extui v148
  let c0_i32_96 : BitVec 32 := 0#32
  let v150 : BitVec 1 := Scalar.cmpi .ne v149 c0_i32_96
  v150

def k0_off11 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c0_i32_464 : BitVec 32 := 0#32
  let v581 : BitVec 32 := Scalar.addi v580 c0_i32_464
  let v582 : Index := Scalar.indexCast v581
  let c0 : Index := 0#32
  ![v582.toNat, 0]
def k0_off12 (d0 : Dev nD) (c0_i32_100 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_97 : BitVec 32 := 1024#32
  let v151 : BitVec 32 := Scalar.muli v2 c1024_i32_97
  let c3_i32_98 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v152 : BitVec 32 := Scalar.subi c3_i32_98 v31
  let c256_i32_99 : BitVec 32 := 256#32
  let v153 : BitVec 32 := Scalar.muli v152 c256_i32_99
  let v154 : BitVec 32 := Scalar.addi v151 v153
  let v155 : BitVec 32 := Scalar.addi v154 c0_i32_100
  let c0_i32_107 : BitVec 32 := 0#32
  ![v155.toNat, 0]
def k0_dev8 (d0 : Dev nD) : Nat :=
  let c0_i32_104 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_103 : BitVec 32 := 16#32
  let v156 : BitVec 32 := Scalar.muli v9 c16_i32_103
  let v157 : BitVec 32 := Scalar.addi c0_i32_104 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v158 : BitVec 32 := Scalar.muli v5 c4_i32_105
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v160 : BitVec 32 := Scalar.muli v8 c1_i32_106
  let v161 : BitVec 32 := Scalar.addi v159 v160
  v161.toNat
def k0_cond11 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_110 : BitVec 32 := 0#32
  let v168 : BitVec 1 := Scalar.cmpi .eq v2 c0_i32_110
  let v169 : BitVec 32 := Scalar.extui v168
  let c0_i32_111 : BitVec 32 := 0#32
  let v170 : BitVec 1 := Scalar.cmpi .ne v169 c0_i32_111
  v170

def k0_off13 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c64_i32_464 : BitVec 32 := 64#32
  let v581 : BitVec 32 := Scalar.addi v580 c64_i32_464
  let v582 : Index := Scalar.indexCast v581
  let c512 : Index := 512#32
  ![v582.toNat, 512]
def k0_cond12 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_112 : BitVec 32 := 1#32
  let v171 : BitVec 1 := Scalar.cmpi .eq v2 c1_i32_112
  let v172 : BitVec 32 := Scalar.extui v171
  let c0_i32_113 : BitVec 32 := 0#32
  let v173 : BitVec 1 := Scalar.cmpi .ne v172 c0_i32_113
  v173

def k0_off14 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c64_i32_464 : BitVec 32 := 64#32
  let v581 : BitVec 32 := Scalar.addi v580 c64_i32_464
  let v582 : Index := Scalar.indexCast v581
  let c0 : Index := 0#32
  ![v582.toNat, 0]
def k0_dev9 (d0 : Dev nD) : Nat :=
  let c0_i32_121 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_120 : BitVec 32 := 16#32
  let v179 : BitVec 32 := Scalar.muli v9 c16_i32_120
  let v180 : BitVec 32 := Scalar.addi c0_i32_121 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_122 : BitVec 32 := 4#32
  let v181 : BitVec 32 := Scalar.muli v5 c4_i32_122
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v183 : BitVec 32 := Scalar.muli v8 c1_i32_123
  let v184 : BitVec 32 := Scalar.addi v182 v183
  v184.toNat
def k0_cond13 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_126 : BitVec 32 := 0#32
  let v191 : BitVec 1 := Scalar.cmpi .eq v2 c0_i32_126
  let v192 : BitVec 32 := Scalar.extui v191
  let c0_i32_127 : BitVec 32 := 0#32
  let v193 : BitVec 1 := Scalar.cmpi .ne v192 c0_i32_127
  v193

def k0_off15 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c128_i32_464 : BitVec 32 := 128#32
  let v581 : BitVec 32 := Scalar.addi v580 c128_i32_464
  let v582 : Index := Scalar.indexCast v581
  let c512 : Index := 512#32
  ![v582.toNat, 512]
def k0_cond14 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_128 : BitVec 32 := 1#32
  let v194 : BitVec 1 := Scalar.cmpi .eq v2 c1_i32_128
  let v195 : BitVec 32 := Scalar.extui v194
  let c0_i32_129 : BitVec 32 := 0#32
  let v196 : BitVec 1 := Scalar.cmpi .ne v195 c0_i32_129
  v196

def k0_off16 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c128_i32_464 : BitVec 32 := 128#32
  let v581 : BitVec 32 := Scalar.addi v580 c128_i32_464
  let v582 : Index := Scalar.indexCast v581
  let c0 : Index := 0#32
  ![v582.toNat, 0]
def k0_dev10 (d0 : Dev nD) : Nat :=
  let c0_i32_137 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_136 : BitVec 32 := 16#32
  let v202 : BitVec 32 := Scalar.muli v9 c16_i32_136
  let v203 : BitVec 32 := Scalar.addi c0_i32_137 v202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_138 : BitVec 32 := 4#32
  let v204 : BitVec 32 := Scalar.muli v5 c4_i32_138
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v206 : BitVec 32 := Scalar.muli v8 c1_i32_139
  let v207 : BitVec 32 := Scalar.addi v205 v206
  v207.toNat
def k0_cond15 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_142 : BitVec 32 := 0#32
  let v214 : BitVec 1 := Scalar.cmpi .eq v2 c0_i32_142
  let v215 : BitVec 32 := Scalar.extui v214
  let c0_i32_143 : BitVec 32 := 0#32
  let v216 : BitVec 1 := Scalar.cmpi .ne v215 c0_i32_143
  v216

def k0_off17 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c192_i32_464 : BitVec 32 := 192#32
  let v581 : BitVec 32 := Scalar.addi v580 c192_i32_464
  let v582 : Index := Scalar.indexCast v581
  let c512 : Index := 512#32
  ![v582.toNat, 512]
def k0_cond16 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_144 : BitVec 32 := 1#32
  let v217 : BitVec 1 := Scalar.cmpi .eq v2 c1_i32_144
  let v218 : BitVec 32 := Scalar.extui v217
  let c0_i32_145 : BitVec 32 := 0#32
  let v219 : BitVec 1 := Scalar.cmpi .ne v218 c0_i32_145
  v219

def k0_off18 (d0 : Dev nD) : Fin 2 → Nat :=
  let c3_i32_462 : BitVec 32 := 3#32
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let v579 : BitVec 32 := Scalar.subi c3_i32_462 v31
  let c256_i32_463 : BitVec 32 := 256#32
  let v580 : BitVec 32 := Scalar.muli v579 c256_i32_463
  let c192_i32_464 : BitVec 32 := 192#32
  let v581 : BitVec 32 := Scalar.addi v580 c192_i32_464
  let v582 : Index := Scalar.indexCast v581
  let c0 : Index := 0#32
  ![v582.toNat, 0]
def k0_dev11 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v225 : BitVec 32 := Scalar.muli v9 c16_i32_152
  let v226 : BitVec 32 := Scalar.addi c0_i32_153 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v227 : BitVec 32 := Scalar.muli v5 c4_i32_154
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v229 : BitVec 32 := Scalar.muli v8 c1_i32_155
  let v230 : BitVec 32 := Scalar.addi v228 v229
  v230.toNat
def k0_off19 (d0 : Dev nD) (c0_i32_164 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_162 : BitVec 32 := 1024#32
  let v243 : BitVec 32 := Scalar.muli v9 c1024_i32_162
  let c2_i32_14 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v30 : BitVec 32 := Scalar.muli c2_i32_14 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : BitVec 32 := Scalar.addi v30 v29
  let c256_i32_163 : BitVec 32 := 256#32
  let v244 : BitVec 32 := Scalar.muli v31 c256_i32_163
  let v245 : BitVec 32 := Scalar.addi v243 v244
  let v246 : BitVec 32 := Scalar.addi v245 c0_i32_164
  let c0_i32_180 : BitVec 32 := 0#32
  ![v246.toNat, 0]
def k0_dev12 (d0 : Dev nD) : Nat :=
  let c0_i32_177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_176 : BitVec 32 := 16#32
  let v257 : BitVec 32 := Scalar.muli v2 c16_i32_176
  let v258 : BitVec 32 := Scalar.addi c0_i32_177 v257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v32 : BitVec 32 := Scalar.addi v5 c1_i32_15
  let c2_i32_16 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v33 : BitVec 32 := Scalar.muli c2_i32_16 v19
  let v34 : BitVec 32 := Scalar.subi v32 v33
  let c4_i32_178 : BitVec 32 := 4#32
  let v259 : BitVec 32 := Scalar.muli v34 c4_i32_178
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v261 : BitVec 32 := Scalar.muli v8 c1_i32_179
  let v262 : BitVec 32 := Scalar.addi v260 v261
  v262.toNat
def k0_dev13 (d0 : Dev nD) : Nat :=
  let c0_i32_185 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_184 : BitVec 32 := 16#32
  let v269 : BitVec 32 := Scalar.muli v2 c16_i32_184
  let v270 : BitVec 32 := Scalar.addi c0_i32_185 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_186 : BitVec 32 := 4#32
  let v271 : BitVec 32 := Scalar.muli v5 c4_i32_186
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c2_i32_18 : BitVec 32 := 2#32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.muli c2_i32_18 v29
  let v37 : BitVec 32 := Scalar.subi v35 v36
  let c1_i32_187 : BitVec 32 := 1#32
  let v273 : BitVec 32 := Scalar.muli v37 c1_i32_187
  let v274 : BitVec 32 := Scalar.addi v272 v273
  v274.toNat
def k0_dev14 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_204 : BitVec 32 := 16#32
  let v295 : BitVec 32 := Scalar.muli v2 c16_i32_204
  let v296 : BitVec 32 := Scalar.addi c0_i32_205 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v32 : BitVec 32 := Scalar.addi v5 c1_i32_15
  let c2_i32_16 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v33 : BitVec 32 := Scalar.muli c2_i32_16 v19
  let v34 : BitVec 32 := Scalar.subi v32 v33
  let c4_i32_206 : BitVec 32 := 4#32
  let v297 : BitVec 32 := Scalar.muli v34 c4_i32_206
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v299 : BitVec 32 := Scalar.muli v8 c1_i32_207
  let v300 : BitVec 32 := Scalar.addi v298 v299
  v300.toNat
def k0_dev15 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v307 : BitVec 32 := Scalar.muli v2 c16_i32_212
  let v308 : BitVec 32 := Scalar.addi c0_i32_213 v307
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_214 : BitVec 32 := 4#32
  let v309 : BitVec 32 := Scalar.muli v5 c4_i32_214
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c2_i32_18 : BitVec 32 := 2#32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.muli c2_i32_18 v29
  let v37 : BitVec 32 := Scalar.subi v35 v36
  let c1_i32_215 : BitVec 32 := 1#32
  let v311 : BitVec 32 := Scalar.muli v37 c1_i32_215
  let v312 : BitVec 32 := Scalar.addi v310 v311
  v312.toNat
def k0_dev16 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v333 : BitVec 32 := Scalar.muli v2 c16_i32_232
  let v334 : BitVec 32 := Scalar.addi c0_i32_233 v333
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v32 : BitVec 32 := Scalar.addi v5 c1_i32_15
  let c2_i32_16 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v33 : BitVec 32 := Scalar.muli c2_i32_16 v19
  let v34 : BitVec 32 := Scalar.subi v32 v33
  let c4_i32_234 : BitVec 32 := 4#32
  let v335 : BitVec 32 := Scalar.muli v34 c4_i32_234
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v337 : BitVec 32 := Scalar.muli v8 c1_i32_235
  let v338 : BitVec 32 := Scalar.addi v336 v337
  v338.toNat
def k0_dev17 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_240 : BitVec 32 := 16#32
  let v345 : BitVec 32 := Scalar.muli v2 c16_i32_240
  let v346 : BitVec 32 := Scalar.addi c0_i32_241 v345
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v347 : BitVec 32 := Scalar.muli v5 c4_i32_242
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c2_i32_18 : BitVec 32 := 2#32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.muli c2_i32_18 v29
  let v37 : BitVec 32 := Scalar.subi v35 v36
  let c1_i32_243 : BitVec 32 := 1#32
  let v349 : BitVec 32 := Scalar.muli v37 c1_i32_243
  let v350 : BitVec 32 := Scalar.addi v348 v349
  v350.toNat
def k0_dev18 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_260 : BitVec 32 := 16#32
  let v371 : BitVec 32 := Scalar.muli v2 c16_i32_260
  let v372 : BitVec 32 := Scalar.addi c0_i32_261 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v32 : BitVec 32 := Scalar.addi v5 c1_i32_15
  let c2_i32_16 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v33 : BitVec 32 := Scalar.muli c2_i32_16 v19
  let v34 : BitVec 32 := Scalar.subi v32 v33
  let c4_i32_262 : BitVec 32 := 4#32
  let v373 : BitVec 32 := Scalar.muli v34 c4_i32_262
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_263 : BitVec 32 := 1#32
  let v375 : BitVec 32 := Scalar.muli v8 c1_i32_263
  let v376 : BitVec 32 := Scalar.addi v374 v375
  v376.toNat
def k0_dev19 (d0 : Dev nD) : Nat :=
  let c0_i32_269 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_268 : BitVec 32 := 16#32
  let v383 : BitVec 32 := Scalar.muli v2 c16_i32_268
  let v384 : BitVec 32 := Scalar.addi c0_i32_269 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_270 : BitVec 32 := 4#32
  let v385 : BitVec 32 := Scalar.muli v5 c4_i32_270
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c2_i32_18 : BitVec 32 := 2#32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi v8 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v36 : BitVec 32 := Scalar.muli c2_i32_18 v29
  let v37 : BitVec 32 := Scalar.subi v35 v36
  let c1_i32_271 : BitVec 32 := 1#32
  let v387 : BitVec 32 := Scalar.muli v37 c1_i32_271
  let v388 : BitVec 32 := Scalar.addi v386 v387
  v388.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S64x512 : 0 < S64x512.numel
  shapeCasts_S64x512_S64x512 : S64x512.ShapeCasts S64x512
  bitsLt_bf16_f32 : FTy.bits .bf16 < FTy.bits .f32
  inb_S512x512_S64x512_0_0 : ∀ a, (![0, 0] : Fin 2 → Nat) a + S64x512.size a ≤ S512x512.size a
  packedbf16_S512x512_S64x512_0_0 : (Rect.unit (s := S512x512) ![0, 0] S64x512.size inb_S512x512_S64x512_0_0).PackedRows (EltTy.packing .bf16)
  inb_S4_S1_0 : ∀ a, (![0] : Fin 1 → Nat) a + S1.size a ≤ S4.size a
  squeezes_S1_S_ : S1.Squeezes S_
  wordsbf16_S512x512_S64x512_0_0 : (Rect.unit (s := S512x512) ![0, 0] S64x512.size inb_S512x512_S64x512_0_0).WholeWords (EltTy.packing .bf16)
  inb_S512x512_S64x512_64_0 : ∀ a, (![64, 0] : Fin 2 → Nat) a + S64x512.size a ≤ S512x512.size a
  packedbf16_S512x512_S64x512_64_0 : (Rect.unit (s := S512x512) ![64, 0] S64x512.size inb_S512x512_S64x512_64_0).PackedRows (EltTy.packing .bf16)
  inb_S4_S1_1 : ∀ a, (![1] : Fin 1 → Nat) a + S1.size a ≤ S4.size a
  wordsbf16_S512x512_S64x512_64_0 : (Rect.unit (s := S512x512) ![64, 0] S64x512.size inb_S512x512_S64x512_64_0).WholeWords (EltTy.packing .bf16)
  inb_S512x512_S64x512_128_0 : ∀ a, (![128, 0] : Fin 2 → Nat) a + S64x512.size a ≤ S512x512.size a
  packedbf16_S512x512_S64x512_128_0 : (Rect.unit (s := S512x512) ![128, 0] S64x512.size inb_S512x512_S64x512_128_0).PackedRows (EltTy.packing .bf16)
  inb_S4_S1_2 : ∀ a, (![2] : Fin 1 → Nat) a + S1.size a ≤ S4.size a
  wordsbf16_S512x512_S64x512_128_0 : (Rect.unit (s := S512x512) ![128, 0] S64x512.size inb_S512x512_S64x512_128_0).WholeWords (EltTy.packing .bf16)
  inb_S512x512_S64x512_192_0 : ∀ a, (![192, 0] : Fin 2 → Nat) a + S64x512.size a ≤ S512x512.size a
  packedbf16_S512x512_S64x512_192_0 : (Rect.unit (s := S512x512) ![192, 0] S64x512.size inb_S512x512_S64x512_192_0).PackedRows (EltTy.packing .bf16)
  inb_S4_S1_3 : ∀ a, (![3] : Fin 1 → Nat) a + S1.size a ≤ S4.size a
  wordsbf16_S512x512_S64x512_192_0 : (Rect.unit (s := S512x512) ![192, 0] S64x512.size inb_S512x512_S64x512_192_0).WholeWords (EltTy.packing .bf16)
  inb_S512x512_S64x512_256_0 : ∀ a, (![256, 0] : Fin 2 → Nat) a + S64x512.size a ≤ S512x512.size a
  packedbf16_S512x512_S64x512_256_0 : (Rect.unit (s := S512x512) ![256, 0] S64x512.size inb_S512x512_S64x512_256_0).PackedRows (EltTy.packing .bf16)
  wordsbf16_S512x512_S64x512_256_0 : (Rect.unit (s := S512x512) ![256, 0] S64x512.size inb_S512x512_S64x512_256_0).WholeWords (EltTy.packing .bf16)
  inb_S512x512_S64x512_320_0 : ∀ a, (![320, 0] : Fin 2 → Nat) a + S64x512.size a ≤ S512x512.size a
  packedbf16_S512x512_S64x512_320_0 : (Rect.unit (s := S512x512) ![320, 0] S64x512.size inb_S512x512_S64x512_320_0).PackedRows (EltTy.packing .bf16)
  wordsbf16_S512x512_S64x512_320_0 : (Rect.unit (s := S512x512) ![320, 0] S64x512.size inb_S512x512_S64x512_320_0).WholeWords (EltTy.packing .bf16)
  inb_S512x512_S64x512_384_0 : ∀ a, (![384, 0] : Fin 2 → Nat) a + S64x512.size a ≤ S512x512.size a
  packedbf16_S512x512_S64x512_384_0 : (Rect.unit (s := S512x512) ![384, 0] S64x512.size inb_S512x512_S64x512_384_0).PackedRows (EltTy.packing .bf16)
  wordsbf16_S512x512_S64x512_384_0 : (Rect.unit (s := S512x512) ![384, 0] S64x512.size inb_S512x512_S64x512_384_0).WholeWords (EltTy.packing .bf16)
  inb_S512x512_S64x512_448_0 : ∀ a, (![448, 0] : Fin 2 → Nat) a + S64x512.size a ≤ S512x512.size a
  packedbf16_S512x512_S64x512_448_0 : (Rect.unit (s := S512x512) ![448, 0] S64x512.size inb_S512x512_S64x512_448_0).PackedRows (EltTy.packing .bf16)
  wordsbf16_S512x512_S64x512_448_0 : (Rect.unit (s := S512x512) ![448, 0] S64x512.size inb_S512x512_S64x512_448_0).WholeWords (EltTy.packing .bf16)
  inb_S1024x1024_S1024x512_0_0 : ∀ a, (![0, 0] : Fin 2 → Nat) a + S1024x512.size a ≤ S1024x1024.size a
  h_S1024x512 : 0 < S1024x512.numel
  shapeCasts_S1024x512_S1024x512 : S1024x512.ShapeCasts S1024x512
  inb_S2048x512_S1024x512_0_0 : ∀ a, (![0, 0] : Fin 2 → Nat) a + S1024x512.size a ≤ S2048x512.size a
  packedbf16_S2048x512_S1024x512_0_0 : (Rect.unit (s := S2048x512) ![0, 0] S1024x512.size inb_S2048x512_S1024x512_0_0).PackedRows (EltTy.packing .bf16)
  inb_S1024x1024_S1024x512_0_512 : ∀ a, (![0, 512] : Fin 2 → Nat) a + S1024x512.size a ≤ S1024x1024.size a
  inb_S2048x512_S1024x512_1024_0 : ∀ a, (![1024, 0] : Fin 2 → Nat) a + S1024x512.size a ≤ S2048x512.size a
  packedbf16_S2048x512_S1024x512_1024_0 : (Rect.unit (s := S2048x512) ![1024, 0] S1024x512.size inb_S2048x512_S1024x512_1024_0).PackedRows (EltTy.packing .bf16)
  hcc0_scratch1 : 2 + S4.numel ≤ 34
  hcc0_scratch2 : 6 + S4.numel ≤ 34
  hcc0_scratch3 : 10 + S4.numel ≤ 34
  hcc0_scratch4 : 14 + S4.numel ≤ 34
  hcc0_scratch5 : 18 + S4.numel ≤ 34
  hcc0_scratch6 : 22 + S4.numel ≤ 34
  hcc0_scratch7 : 26 + S4.numel ≤ 34
  hcc0_scratch8 : 30 + S4.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (k0_h1 : k0_cond1 d0 = 1#1), ∀ a, (k0_off1 d0) a + S64x512.size a ≤ S1024x1024.size a
  k0_off2_inb : ∀ d0 : Dev nD, ∀ (k0_h2 : k0_cond2 d0 = 1#1), ∀ a, (k0_off2 d0) a + S64x512.size a ≤ S1024x1024.size a
  k0_off3_inb : ∀ d0 : Dev nD, ∀ (r : Fin 4), ∀ a, (k0_off3 d0 (BitVec.ofNat 32 (64 * r.val))) a + S64x512.size a ≤ S2048x512.size a
  k0_off3_wordsbf16 : ∀ d0 : Dev nD, ∀ (r : Fin 4), (Rect.unit (s := S2048x512) (k0_off3 d0 (BitVec.ofNat 32 (64 * r.val))) S64x512.size (k0_off3_inb d0 r)).WholeWords (EltTy.packing .bf16)
  k0_dev4_lt : ∀ d0 : Dev nD, (k0_dev4 d0) < nD
  k0_off4_inb : ∀ d0 : Dev nD, ∀ (k0_h3 : k0_cond3 d0 = 1#1), ∀ a, (k0_off4 d0) a + S64x512.size a ≤ S1024x1024.size a
  k0_off5_inb : ∀ d0 : Dev nD, ∀ (k0_h4 : k0_cond4 d0 = 1#1), ∀ a, (k0_off5 d0) a + S64x512.size a ≤ S1024x1024.size a
  k0_dev5_lt : ∀ d0 : Dev nD, (k0_dev5 d0) < nD
  k0_off6_inb : ∀ d0 : Dev nD, ∀ (k0_h5 : k0_cond5 d0 = 1#1), ∀ a, (k0_off6 d0) a + S64x512.size a ≤ S1024x1024.size a
  k0_off7_inb : ∀ d0 : Dev nD, ∀ (k0_h6 : k0_cond6 d0 = 1#1), ∀ a, (k0_off7 d0) a + S64x512.size a ≤ S1024x1024.size a
  k0_dev6_lt : ∀ d0 : Dev nD, (k0_dev6 d0) < nD
  k0_off8_inb : ∀ d0 : Dev nD, ∀ (k0_h7 : k0_cond7 d0 = 1#1), ∀ a, (k0_off8 d0) a + S64x512.size a ≤ S1024x1024.size a
  k0_off9_inb : ∀ d0 : Dev nD, ∀ (k0_h8 : k0_cond8 d0 = 1#1), ∀ a, (k0_off9 d0) a + S64x512.size a ≤ S1024x1024.size a
  k0_dev7_lt : ∀ d0 : Dev nD, (k0_dev7 d0) < nD
  k0_off10_inb : ∀ d0 : Dev nD, ∀ (k0_h9 : k0_cond9 d0 = 1#1), ∀ a, (k0_off10 d0) a + S64x512.size a ≤ S1024x1024.size a
  k0_off11_inb : ∀ d0 : Dev nD, ∀ (k0_h10 : k0_cond10 d0 = 1#1), ∀ a, (k0_off11 d0) a + S64x512.size a ≤ S1024x1024.size a
  k0_off12_inb : ∀ d0 : Dev nD, ∀ (r : Fin 4), ∀ a, (k0_off12 d0 (BitVec.ofNat 32 (64 * r.val))) a + S64x512.size a ≤ S2048x512.size a
  k0_off12_wordsbf16 : ∀ d0 : Dev nD, ∀ (r : Fin 4), (Rect.unit (s := S2048x512) (k0_off12 d0 (BitVec.ofNat 32 (64 * r.val))) S64x512.size (k0_off12_inb d0 r)).WholeWords (EltTy.packing .bf16)
  k0_dev8_lt : ∀ d0 : Dev nD, (k0_dev8 d0) < nD
  k0_off13_inb : ∀ d0 : Dev nD, ∀ (k0_h11 : k0_cond11 d0 = 1#1), ∀ a, (k0_off13 d0) a + S64x512.size a ≤ S1024x1024.size a
  k0_off14_inb : ∀ d0 : Dev nD, ∀ (k0_h12 : k0_cond12 d0 = 1#1), ∀ a, (k0_off14 d0) a + S64x512.size a ≤ S1024x1024.size a
  k0_dev9_lt : ∀ d0 : Dev nD, (k0_dev9 d0) < nD
  k0_off15_inb : ∀ d0 : Dev nD, ∀ (k0_h13 : k0_cond13 d0 = 1#1), ∀ a, (k0_off15 d0) a + S64x512.size a ≤ S1024x1024.size a
  k0_off16_inb : ∀ d0 : Dev nD, ∀ (k0_h14 : k0_cond14 d0 = 1#1), ∀ a, (k0_off16 d0) a + S64x512.size a ≤ S1024x1024.size a
  k0_dev10_lt : ∀ d0 : Dev nD, (k0_dev10 d0) < nD
  k0_off17_inb : ∀ d0 : Dev nD, ∀ (k0_h15 : k0_cond15 d0 = 1#1), ∀ a, (k0_off17 d0) a + S64x512.size a ≤ S1024x1024.size a
  k0_off18_inb : ∀ d0 : Dev nD, ∀ (k0_h16 : k0_cond16 d0 = 1#1), ∀ a, (k0_off18 d0) a + S64x512.size a ≤ S1024x1024.size a
  k0_dev11_lt : ∀ d0 : Dev nD, (k0_dev11 d0) < nD
  k0_off19_inb : ∀ d0 : Dev nD, ∀ (r : Fin 4), ∀ a, (k0_off19 d0 (BitVec.ofNat 32 (64 * r.val))) a + S64x512.size a ≤ S2048x512.size a
  k0_off19_wordsbf16 : ∀ d0 : Dev nD, ∀ (r : Fin 4), (Rect.unit (s := S2048x512) (k0_off19 d0 (BitVec.ofNat 32 (64 * r.val))) S64x512.size (k0_off19_inb d0 r)).WholeWords (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  hstage0_0 : ∀ j, (stage0_0 j).IsWhole
  hstage0_1 : ∀ j, (stage0_1 j).IsWhole

variable [Facts₀]

abbrev cc0_scratch1 : DmaSems sig S4 := SemArray.consecutive 2 S4 hcc0_scratch1
abbrev cc0_scratch2 : DmaSems sig S4 := SemArray.consecutive 6 S4 hcc0_scratch2
abbrev cc0_scratch3 : DmaSems sig S4 := SemArray.consecutive 10 S4 hcc0_scratch3
abbrev cc0_scratch4 : DmaSems sig S4 := SemArray.consecutive 14 S4 hcc0_scratch4
abbrev cc0_scratch5 : DmaSems sig S4 := SemArray.consecutive 18 S4 hcc0_scratch5
abbrev cc0_scratch6 : DmaSems sig S4 := SemArray.consecutive 22 S4 hcc0_scratch6
abbrev cc0_scratch7 : DmaSems sig S4 := SemArray.consecutive 26 S4 hcc0_scratch7
abbrev cc0_scratch8 : DmaSems sig S4 := SemArray.consecutive 30 S4 hcc0_scratch8

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelMesh.lean ====
/-
The 2 × 4 × 4 mesh: device d sits at (p, y, z) = (d / 16, (d / 4) % 4, d % 4).
-/
import proofs.«900647_g7700000000000648_dist_a2a_v7x_xyz2x4x4_x_m1024_n512_bf16_1_alg».proof.Proof.Gen.Kernel

set_option Elab.async false

namespace Cert.KernelProof

open Cert.Kernel Cert.Kernel.Gen
open Idealize.ShloMosaic Idealize.SL.Sem

def pc (c : Dev nD) : Nat := c.val / 16
def qc (c : Dev nD) : Nat := 1 - c.val / 16
/-- The quarter 2 (y % 2) + z % 2 a device sends first. -/
def gq (c : Dev nD) : Nat := 2 * ((c.val / 4) % 2) + c.val % 2

/-- The three partners: p flipped, the parity of y flipped, the parity of z flipped. -/
def pX (c : Dev nD) : Dev nD := ⟨(c.val + 16) % 32, Nat.mod_lt _ (by decide)⟩
def pY (c : Dev nD) : Dev nD := ⟨if (c.val / 4) % 2 = 0 then c.val + 4 else c.val - 4, by have : c.val < 32 := c.isLt; show _ < 32; split <;> omega⟩
def pZ (c : Dev nD) : Dev nD := ⟨if c.val % 2 = 0 then c.val + 1 else c.val - 1, by have : c.val < 32 := c.isLt; show _ < 32; split <;> omega⟩

theorem pX_pX : ∀ c : Dev nD, pX (pX c) = c := by decide
theorem pY_pY : ∀ c : Dev nD, pY (pY c) = c := by decide
theorem pZ_pZ : ∀ c : Dev nD, pZ (pZ c) = c := by decide

theorem pc_lt (c : Dev nD) : pc c < 2 := by unfold pc; have : c.val < 32 := c.isLt; omega
theorem gq_lt (c : Dev nD) : gq c < 4 := by unfold gq; omega
theorem qc_eq (c : Dev nD) : qc c = 1 - pc c := rfl

theorem pc_pX : ∀ c : Dev nD, pc (pX c) = 1 - pc c := by decide
theorem pc_pY : ∀ c : Dev nD, pc (pY c) = pc c := by decide
theorem pc_pZ : ∀ c : Dev nD, pc (pZ c) = pc c := by decide
theorem gq_pX : ∀ c : Dev nD, gq (pX c) = gq c := by decide
theorem gq_pY : ∀ c : Dev nD, gq (pY c) = (gq c + 2) % 4 := by decide
theorem gq_pZ : ∀ c : Dev nD, gq (pZ c) = gq c + 1 - 2 * (gq c % 2) := by decide

theorem dev1_eq : ∀ c : Dev nD, (⟨k0_dev1 c, k0_dev1_lt c⟩ : Dev nD) = pX c := by decide +kernel
theorem dev2_eq : ∀ c : Dev nD, (⟨k0_dev2 c, k0_dev2_lt c⟩ : Dev nD) = pY c := by decide +kernel
theorem dev3_eq : ∀ c : Dev nD, (⟨k0_dev3 c, k0_dev3_lt c⟩ : Dev nD) = pZ c := by decide +kernel
theorem dev4_eq : ∀ c : Dev nD, (⟨k0_dev4 c, k0_dev4_lt c⟩ : Dev nD) = pX c := by decide +kernel
theorem dev5_eq : ∀ c : Dev nD, (⟨k0_dev5 c, k0_dev5_lt c⟩ : Dev nD) = pX c := by decide +kernel
theorem dev6_eq : ∀ c : Dev nD, (⟨k0_dev6 c, k0_dev6_lt c⟩ : Dev nD) = pX c := by decide +kernel
theorem dev7_eq : ∀ c : Dev nD, (⟨k0_dev7 c, k0_dev7_lt c⟩ : Dev nD) = pX c := by decide +kernel
theorem dev8_eq : ∀ c : Dev nD, (⟨k0_dev8 c, k0_dev8_lt c⟩ : Dev nD) = pX c := by decide +kernel
theorem dev9_eq : ∀ c : Dev nD, (⟨k0_dev9 c, k0_dev9_lt c⟩ : Dev nD) = pX c := by decide +kernel
theorem dev10_eq : ∀ c : Dev nD, (⟨k0_dev10 c, k0_dev10_lt c⟩ : Dev nD) = pX c := by decide +kernel
theorem dev11_eq : ∀ c : Dev nD, (⟨k0_dev11 c, k0_dev11_lt c⟩ : Dev nD) = pX c := by decide +kernel
theorem dev12_eq : ∀ c : Dev nD, (⟨k0_dev12 c, k0_dev12_lt c⟩ : Dev nD) = pY c := by decide +kernel
theorem dev13_eq : ∀ c : Dev nD, (⟨k0_dev13 c, k0_dev13_lt c⟩ : Dev nD) = pZ c := by decide +kernel
theorem dev14_eq : ∀ c : Dev nD, (⟨k0_dev14 c, k0_dev14_lt c⟩ : Dev nD) = pY c := by decide +kernel
theorem dev15_eq : ∀ c : Dev nD, (⟨k0_dev15 c, k0_dev15_lt c⟩ : Dev nD) = pZ c := by decide +kernel
theorem dev16_eq : ∀ c : Dev nD, (⟨k0_dev16 c, k0_dev16_lt c⟩ : Dev nD) = pY c := by decide +kernel
theorem dev17_eq : ∀ c : Dev nD, (⟨k0_dev17 c, k0_dev17_lt c⟩ : Dev nD) = pZ c := by decide +kernel
theorem dev18_eq : ∀ c : Dev nD, (⟨k0_dev18 c, k0_dev18_lt c⟩ : Dev nD) = pY c := by decide +kernel
theorem dev19_eq : ∀ c : Dev nD, (⟨k0_dev19 c, k0_dev19_lt c⟩ : Dev nD) = pZ c := by decide +kernel

def condP0 (c : Dev nD) : BitVec 1 := if c.val < 16 then 1#1 else 0#1
def condP1 (c : Dev nD) : BitVec 1 := if ¬ c.val < 16 then 1#1 else 0#1

theorem cond1_eq : ∀ c : Dev nD, k0_cond1 c = condP0 c := by decide +kernel
theorem cond2_eq : ∀ c : Dev nD, k0_cond2 c = condP1 c := by decide +kernel
theorem cond3_eq : ∀ c : Dev nD, k0_cond3 c = condP0 c := by decide +kernel
theorem cond4_eq : ∀ c : Dev nD, k0_cond4 c = condP1 c := by decide +kernel
theorem cond5_eq : ∀ c : Dev nD, k0_cond5 c = condP0 c := by decide +kernel
theorem cond6_eq : ∀ c : Dev nD, k0_cond6 c = condP1 c := by decide +kernel
theorem cond7_eq : ∀ c : Dev nD, k0_cond7 c = condP0 c := by decide +kernel
theorem cond8_eq : ∀ c : Dev nD, k0_cond8 c = condP1 c := by decide +kernel
theorem cond9_eq : ∀ c : Dev nD, k0_cond9 c = condP0 c := by decide +kernel
theorem cond10_eq : ∀ c : Dev nD, k0_cond10 c = condP1 c := by decide +kernel
theorem cond11_eq : ∀ c : Dev nD, k0_cond11 c = condP0 c := by decide +kernel
theorem cond12_eq : ∀ c : Dev nD, k0_cond12 c = condP1 c := by decide +kernel
theorem cond13_eq : ∀ c : Dev nD, k0_cond13 c = condP0 c := by decide +kernel
theorem cond14_eq : ∀ c : Dev nD, k0_cond14 c = condP1 c := by decide +kernel
theorem cond15_eq : ∀ c : Dev nD, k0_cond15 c = condP0 c := by decide +kernel
theorem cond16_eq : ∀ c : Dev nD, k0_cond16 c = condP1 c := by decide +kernel

/-- First row, in a device's block of x, of chunk i of the quarter it sends first, and of the other quarter it sends. -/
def rowA (c : Dev nD) (i : Fin 4) : Nat := 256 * gq c + 64 * i.val
def rowB (c : Dev nD) (i : Fin 4) : Nat := 256 * (3 - gq c) + 64 * i.val

theorem off3_eq : ∀ (c : Dev nD) (i : Fin 4), k0_off3 c (BitVec.ofNat 32 (64 * i.val)) = ![1024 * pc c + rowA c i, 0] := by decide +kernel
theorem off12_eq : ∀ (c : Dev nD) (i : Fin 4), k0_off12 c (BitVec.ofNat 32 (64 * i.val)) = ![1024 * pc c + rowB c i, 0] := by decide +kernel
theorem off19_eq : ∀ (c : Dev nD) (i : Fin 4), k0_off19 c (BitVec.ofNat 32 (64 * i.val)) = ![1024 * qc c + rowA c i, 0] := by decide +kernel

end Cert.KernelProof
-- ==== Proof.KernelRegions.lean ====
import proofs.«900647_g7700000000000648_dist_a2a_v7x_xyz2x4x4_x_m1024_n512_bf16_1_alg».proof.Proof.KernelMesh
import Idealize.ShloMosaic.Lib.Pipeline.Launch
import Idealize.ShloMosaic.Lib.Pipeline.Kit

noncomputable section

namespace Cert.KernelProof

open Cert.Kernel Cert.Kernel.Gen
open Idealize.ShloMosaic Idealize.ShloMosaic.TcCoe
open Idealize.SL Idealize.SL.Sem

variable {F : FTy → Type} [FloatOps F]

abbrev xM : Memref sig .tc .vmem S1024x1024 .f32 := Memref.whole cc0_stg0_0
abbrev oM : Memref sig .tc .vmem S2048x512 .bf16 := Memref.whole cc0_stg1_0
abbrev bM : Memref sig .tc .vmem S512x512 .bf16 := Memref.whole cc0_scratch0

theorem bS_inb (j : Fin 8) : ∀ a, (![64 * j.val, 0] : Fin 2 → Nat) a + S64x512.size a ≤ S512x512.size a := by
  revert j; decide

/-- Chunk j of the scratch: its rows 64 j … 64 j + 63. -/
abbrev bS (j : Fin 8) : Memref sig .tc .vmem S64x512 .bf16 :=
  bM.slice (Rect.unit (s := S512x512) ![64 * j.val, 0] S64x512.size (bS_inb j)) (fun _ => rfl)

abbrev oX (c : Dev nD) (i : Fin 4) : Memref sig .tc .vmem S64x512 .bf16 :=
  oM.slice (Rect.unit (s := S2048x512) (k0_off3 c (BitVec.ofNat 32 (64 * i.val))) S64x512.size (k0_off3_inb c i)) (fun _ => rfl)
abbrev oXb (c : Dev nD) (i : Fin 4) : Memref sig .tc .vmem S64x512 .bf16 :=
  oM.slice (Rect.unit (s := S2048x512) (k0_off12 c (BitVec.ofNat 32 (64 * i.val))) S64x512.size (k0_off12_inb c i)) (fun _ => rfl)
abbrev oFw (c : Dev nD) (i : Fin 4) : Memref sig .tc .vmem S64x512 .bf16 :=
  oM.slice (Rect.unit (s := S2048x512) (k0_off19 c (BitVec.ofNat 32 (64 * i.val))) S64x512.size (k0_off19_inb c i)) (fun _ => rfl)

/-- The elements of the result in rows lo … lo + len - 1. -/
def rows (lo len : Nat) : Finset S2048x512.Idx := Finset.univ.filter fun j => lo ≤ (j 0).val ∧ (j 0).val < lo + len
def brows (lo len : Nat) : Finset S512x512.Idx := Finset.univ.filter fun j => lo ≤ (j 0).val ∧ (j 0).val < lo + len

theorem mem_rows {lo len : Nat} {j : S2048x512.Idx} : j ∈ rows lo len ↔ lo ≤ (j 0).val ∧ (j 0).val < lo + len := by
  unfold rows; rw [Finset.mem_filter]; exact ⟨fun h => h.2, fun h => ⟨Finset.mem_univ _, h⟩⟩
theorem mem_brows {lo len : Nat} {j : S512x512.Idx} : j ∈ brows lo len ↔ lo ≤ (j 0).val ∧ (j 0).val < lo + len := by
  unfold brows; rw [Finset.mem_filter]; exact ⟨fun h => h.2, fun h => ⟨Finset.mem_univ _, h⟩⟩

theorem rows_disjoint {lo len lo' len' : Nat} (h : lo + len ≤ lo' ∨ lo' + len' ≤ lo) : Disjoint (rows lo len) (rows lo' len') := by
  rw [Finset.disjoint_left]; intro j h1 h2; rw [mem_rows] at h1 h2; omega
theorem brows_disjoint {lo len lo' len' : Nat} (h : lo + len ≤ lo' ∨ lo' + len' ≤ lo) : Disjoint (brows lo len) (brows lo' len') := by
  rw [Finset.disjoint_left]; intro j h1 h2; rw [mem_brows] at h1 h2; omega
theorem rows_union {lo a b : Nat} : rows lo a ∪ rows (lo + a) b = rows lo (a + b) := by
  ext j; rw [Finset.mem_union, mem_rows, mem_rows, mem_rows]; omega
theorem brows_union {lo a b : Nat} : brows lo a ∪ brows (lo + a) b = brows lo (a + b) := by
  ext j; rw [Finset.mem_union, mem_brows, mem_brows, mem_brows]; omega
theorem rows_all : rows 0 2048 = Finset.univ := by
  ext j; rw [mem_rows]; exact ⟨fun _ => Finset.mem_univ _, fun _ => ⟨Nat.zero_le _, by have h : (j 0).val < 2048 := (j 0).isLt; omega⟩⟩
theorem brows_all : brows 0 512 = Finset.univ := by
  ext j; rw [mem_brows]; exact ⟨fun _ => Finset.mem_univ _, fun _ => ⟨Nat.zero_le _, by have h : (j 0).val < 512 := (j 0).isLt; omega⟩⟩

theorem set_oslice {off : Fin 2 → Nat} {inb} (r : Nat) (h : off = ![r, 0]) :
    ((oM.slice (Rect.unit (s := S2048x512) off S64x512.size inb) (fun _ => rfl)).view.set : Finset S2048x512.Idx) = rows r 64 := by
  subst h
  refine (View.set_slice_whole (cc0_stg1_0 : Ref sig .tc) _).trans ?_
  ext j
  rw [Rect.mem_set_unit, mem_rows]
  have h1 : (j 1).val < 512 := (j 1).isLt
  exact ⟨fun h => h (0 : Fin 2), fun h0 => (Fin.forall_fin_two (p := fun a : Fin 2 => (![r, 0] : Fin 2 → Nat) a ≤ (j a).val ∧ (j a).val < (![r, 0] : Fin 2 → Nat) a + S64x512.size a)).mpr ⟨h0, Nat.zero_le _, h1⟩⟩

theorem set_bS (j : Fin 8) : ((bS j).view.set : Finset S512x512.Idx) = brows (64 * j.val) 64 := by
  refine (View.set_slice_whole (cc0_scratch0 : Ref sig .tc) _).trans ?_
  ext k
  rw [Rect.mem_set_unit, mem_brows]
  have h1 : (k 1).val < 512 := (k 1).isLt
  exact ⟨fun h => h (0 : Fin 2), fun h0 => (Fin.forall_fin_two (p := fun a : Fin 2 => (![64 * j.val, 0] : Fin 2 → Nat) a ≤ (k a).val ∧ (k a).val < (![64 * j.val, 0] : Fin 2 → Nat) a + S64x512.size a)).mpr ⟨h0, Nat.zero_le _, h1⟩⟩

theorem set_oX (c : Dev nD) (i : Fin 4) : ((oX c i).view.set : Finset S2048x512.Idx) = rows (1024 * pc c + rowA c i) 64 := set_oslice _ (off3_eq c i)
theorem set_oXb (c : Dev nD) (i : Fin 4) : ((oXb c i).view.set : Finset S2048x512.Idx) = rows (1024 * pc c + rowB c i) 64 := set_oslice _ (off12_eq c i)
theorem set_oFw (c : Dev nD) (i : Fin 4) : ((oFw c i).view.set : Finset S2048x512.Idx) = rows (1024 * qc c + rowA c i) 64 := set_oslice _ (off19_eq c i)

variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))

def cvt (v : Elt F .f32) : Elt F .bf16 := (FloatOps.truncf (F := F) .bf16 (by decide) (v : F .f32) : F .bf16)

def xAt (c : Dev nD) (r col : Nat) : Elt F .f32 :=
  xstg m c (Shape.pair (⟨r % 1024, Nat.mod_lt _ (by decide)⟩ : Fin 1024) (⟨col % 1024, Nat.mod_lt _ (by decide)⟩ : Fin 1024))

/-- The row of its block of x a device puts in row r of the scratch: quarter g first, then quarter 3 - g. -/
def srow (c : Dev nD) (r : Nat) : Nat := if r < 256 then 256 * gq c + r else 256 * (3 - gq c) + (r - 256)

/-- The scratch once filled: the column half of x the partner across the first axis keeps. -/
def sendF (c : Dev nD) : (cc0_scratch0 : Ref sig .tc).ty.Contents (Elt F) :=
  fun j => cvt (xAt m c (srow c (j 0).val) (512 * qc c + (j 1).val))

/-- Whose block of x quarter k of the far half comes from. -/
def srcDev (c : Dev nD) (k : Nat) : Dev nD :=
  if k = gq c ∨ k = 3 - gq c then pX c else if k = gq (pY c) then pX (pY c) else pX (pZ c)

/-- The result at the end: row R is row R % 1024 of the block of x of the device at first-axis position R / 1024, the device's own column half. -/
def outF (c : Dev nD) : (cc0_stg1_0 : Ref sig .tc).ty.Contents (Elt F) :=
  fun j => if (j 0).val / 1024 = pc c then cvt (xAt m c ((j 0).val % 1024) (512 * pc c + (j 1).val))
    else cvt (xAt m (srcDev c (((j 0).val % 1024) / 256)) ((j 0).val % 1024) (512 * pc c + (j 1).val))

end Cert.KernelProof

end
-- ==== Proof.KernelProto.lean ====
import proofs.«900647_g7700000000000648_dist_a2a_v7x_xyz2x4x4_x_m1024_n512_bf16_1_alg».proof.Proof.KernelRegions
import proofs.«900647_g7700000000000648_dist_a2a_v7x_xyz2x4x4_x_m1024_n512_bf16_1_alg».proof.Proof.Gen.Kernel.Skeleton
import proofs.«900647_g7700000000000648_dist_a2a_v7x_xyz2x4x4_x_m1024_n512_bf16_1_alg».proof.Proof.Gen.Kernel.Launch
import proofs.«900647_g7700000000000648_dist_a2a_v7x_xyz2x4x4_x_m1024_n512_bf16_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

def dsem (a : Fin 8) (i : Fin 4) : DmaSem sig := ⟨2 + 4 * a.val + i.val, by show _ < 34; omega⟩

abbrev barCell (c : Dev nD) : GSem nD τ sig := ((c : Thread nD τ), .reg barS)
abbrev dCell (c : Dev nD) (a : Fin 8) (i : Fin 4) : GSem nD τ sig := ((c : Thread nD τ), .dma (dsem a i))

abbrev osem : Fin 32 → SemLoc sig := fun k => .dma ⟨2 + k.val, by show _ < 34; omega⟩
abbrev csem : Fin 33 → SemLoc sig := fun k => if h : k.val = 0 then .reg barS else .dma ⟨1 + k.val, by show _ < 34; omega⟩
abbrev kcell (ck : Dev nD × Fin 33) : GSem nD τ sig := ((ck.1 : Thread nD τ), csem ck.2)

abbrev N : ℕ := (bS 0).view.dmaCredit
theorem N_pos : 0 < N := View.dmaCredit_pos _ (by decide)

def oPts (c : Dev nD) (S : Finset S2048x512.Idx) (q : PosShare TreeShare) (f : (cc0_stg1_0 : Ref sig .tc).ty.Contents (Elt F)) : sProp 𝕄 :=
  ((c : Thread nD τ).loc cc0_stg1_0) ↦[S]{q} f
def bPts (c : Dev nD) (S : Finset S512x512.Idx) (f : (cc0_scratch0 : Ref sig .tc).ty.Contents (Elt F)) : sProp 𝕄 :=
  ((c : Thread nD τ).loc cc0_scratch0) ↦[S]{fullShare} f

omit [FloatOps F] in
instance oPts_storable (c : Dev nD) (S q f) : BI.Storable (upEmb : UEmb _ 𝕄) (oPts (F := F) c S q f) := by unfold oPts; infer_instance
omit [FloatOps F] in
instance bPts_storable (c : Dev nD) (S f) : BI.Storable (upEmb : UEmb _ 𝕄) (bPts (F := F) c S f) := by unfold bPts; infer_instance

/-- What the one unit of transfer cell (a, i) hands its owner: a send cell the source rows back, a receive cell the landed rows at their final contents. -/
def pay (c : Dev nD) (a : Fin 8) (i : Fin 4) : sProp 𝕄 :=
  match a with
  | 0 => bPts c (brows (64 * i.val) 64) (sendF m c)
  | 1 => oPts c (rows (1024 * qc c + rowA c i) 64) fullShare (outF m c)
  | 2 => bPts c (brows (256 + 64 * i.val) 64) (sendF m c)
  | 3 => oPts c (rows (1024 * qc c + rowB c i) 64) fullShare (outF m c)
  | 4 => oPts c (rows (1024 * qc c + rowA c i) 64) fullShare.left (outF m c)
  | 5 => oPts c (rows (1024 * qc c + rowA (pY c) i) 64) fullShare (outF m c)
  | 6 => oPts c (rows (1024 * qc c + rowA c i) 64) fullShare.right (outF m c)
  | 7 => oPts c (rows (1024 * qc c + rowA (pZ c) i) 64) fullShare (outF m c)

/-- What partner d's unit on c's barrier cell hands c: the rows of the partner's result that c will write. -/
def barPay (c : Dev nD) (d : Fin 3) : sProp 𝕄 :=
  match d with
  | 0 => iprop((∃ f, oPts (pX c) (rows (1024 * pc c + 256 * gq c) 256) fullShare f) ∗ (∃ f, oPts (pX c) (rows (1024 * pc c + 256 * (3 - gq c)) 256) fullShare f))
  | 1 => iprop(∃ f, oPts (pY c) (rows (1024 * qc c + 256 * gq c) 256) fullShare f)
  | 2 => iprop(∃ f, oPts (pZ c) (rows (1024 * qc c + 256 * gq c) 256) fullShare f)

def decode (s : DmaSem sig) : Option (Fin 8 × Fin 4) :=
  if h : 2 ≤ s.val then some (⟨(s.val - 2) / 4, by have : s.val < 34 := s.isLt; omega⟩, ⟨(s.val - 2) % 4, Nat.mod_lt _ (by decide)⟩) else none

theorem decode_dsem (a : Fin 8) (i : Fin 4) : decode (dsem a i) = some (a, i) := by
  unfold decode dsem
  rw [dif_pos (by show 2 ≤ 2 + 4 * a.val + i.val; omega)]
  refine congrArg some (Prod.ext (Fin.ext ?_) (Fin.ext ?_))
  · show (2 + 4 * a.val + i.val - 2) / 4 = a.val; omega
  · show (2 + 4 * a.val + i.val - 2) % 4 = i.val; omega

def Rd : Rounds.Schedule (GSem nD τ sig) (Fin 3) 𝕄 where
  duties g r := if r = 0 ∧ g.1.2 = .tc then
      (match g.2 with
        | .reg s => if s = barS then Finset.univ else ∅
        | .dma s => if 2 ≤ s.val then {0} else ∅)
    else ∅
  amount g _ _ := match g.2 with | .reg _ => 1 | .dma _ => N
  payload g _ d := match g.2 with
    | .reg _ => barPay g.1.1 d
    | .dma s => match decode s with
      | some (a, i) => pay m g.1.1 a i
      | none => iprop(emp)
  amount_pos g _ _ _ := by
    rcases g with ⟨t, s⟩
    cases s with
    | reg s => exact Nat.one_pos
    | dma s => exact N_pos

def payee (c : Dev nD) (a : Fin 8) : Dev nD :=
  match a with
  | 1 => pX c | 3 => pX c | 5 => pY c | 7 => pZ c
  | _ => c

/-- What a device owes, in the order it pays. -/
def dueL (c : Dev nD) : List (CellTallies nD τ sig Unit) :=
  [ tallyAt (barCell (pX c)) () 1, tallyAt (barCell (pY c)) () 1, tallyAt (barCell (pZ c)) () 1,
    tallyAt (dCell (pX c) 1 0) () N, tallyAt (dCell (pX c) 1 1) () N, tallyAt (dCell (pX c) 1 2) () N, tallyAt (dCell (pX c) 1 3) () N,
    tallyAt (dCell (pX c) 3 0) () N, tallyAt (dCell (pX c) 3 1) () N, tallyAt (dCell (pX c) 3 2) () N, tallyAt (dCell (pX c) 3 3) () N,
    tallyAt (dCell (pY c) 5 0) () N, tallyAt (dCell (pZ c) 7 0) () N,
    tallyAt (dCell (pY c) 5 1) () N, tallyAt (dCell (pZ c) 7 1) () N,
    tallyAt (dCell (pY c) 5 2) () N, tallyAt (dCell (pZ c) 7 2) () N,
    tallyAt (dCell (pY c) 5 3) () N, tallyAt (dCell (pZ c) 7 3) () N ]

def Orem (c : Dev nD) (k : ℕ) : CellTallies nD τ sig Unit := ((dueL c).drop k).foldr (fun d acc => acc + d) 0

def O₀ (c : Dev nD) : CellTallies nD τ sig Unit := Orem c 0

def L (g : GSem nD τ sig) : Finset Unit := if g.1.2 = .tc then {()} else ∅

/-- The levels: scratch cells 0, barrier cells 1, receive cells from the first-axis partner 2, forward receive cells 3. -/
def lv (g : GSem nD τ sig) (_ : Unit) : ℕ :=
  match g.2 with
  | .reg _ => 1
  | .dma s => match decode s with
    | some (a, _) => if a = 1 ∨ a = 3 then 2 else if a = 5 ∨ a = 7 then 3 else 0
    | none => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def cidx (a : Fin 8) (i : Fin 4) : Fin 33 := ⟨1 + 4 * a.val + i.val, by omega⟩

def records (K : Dev nD × Fin 33 → ℕ) : sProp 𝕄 :=
  iprop((bigSep Finset.univ fun ck : Dev nD × Fin 33 => cellInv ER (Rd m) (K ck) (kcell ck))
    ∗ bigSep Finset.univ fun ck : Dev nD × Fin 33 => reached ER (kcell ck) 0)

instance records_persistent (K : Dev nD × Fin 33 → ℕ) : BI.Persistent (records m K) := by unfold records; infer_instance

def payToks (c : Dev nD) : sProp 𝕄 :=
  iprop(dutyTok ER (barCell (pX c)) 0 (0 : Fin 3) ∗ dutyTok ER (barCell (pY c)) 0 (1 : Fin 3) ∗ dutyTok ER (barCell (pZ c)) 0 (2 : Fin 3)
    ∗ bigSep Finset.univ fun ai : Fin 8 × Fin 4 => dutyTok ER (dCell (payee c ai.1) ai.1 ai.2) 0 (0 : Fin 3))

def posns (c : Dev nD) : sProp 𝕄 :=
  iprop(atPos ER (barCell c) 0 ∅ 0 ∗ bigSep Finset.univ fun ai : Fin 8 × Fin 4 => atPos ER (dCell c ai.1 ai.2) 0 ∅ 0)

def ghost (K : Dev nD × Fin 33 → ℕ) (c : Dev nD) : sProp 𝕄 := iprop(records m K ∗ posns c ∗ payToks c)

def creds (c : Dev nD) : sProp 𝕄 :=
  iprop(cred (tallyAt (barCell c) () 3)
    ∗ bigSep Finset.univ fun bi : Fin 4 × Fin 4 => cred (tallyAt (dCell c ⟨2 * bi.1.val + 1, by omega⟩ bi.2) () N))

def start (c : Dev nD) : sProp 𝕄 := iprop((∃ K, ghost m K c) ∗ creds c ∗ levAts L lv)

def Φ₀ (c : Dev nD) : sProp 𝕄 := iprop(start m c ∗ ∃ f, bPts c Finset.univ f)
def Φ₁ (c : Dev nD) : sProp 𝕄 := iprop((∃ f, bPts c Finset.univ f) ∗ bigSep Finset.univ fun ai : Fin 8 × Fin 4 => semVal (dCell c ai.1 ai.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelProof

end
-- ==== Proof.KernelTables.lean ====
import proofs.«900647_g7700000000000648_dist_a2a_v7x_xyz2x4x4_x_m1024_n512_bf16_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD) (a : Fin 8) (i : Fin 4)

theorem duties_bar : (Rd (F := F) m).duties (barCell c) 0 = Finset.univ := by
  dsimp only [Rd]
  show (if (0 : ℕ) = 0 ∧ _ then (if barS = barS then Finset.univ else ∅) else ∅) = _
  rw [if_pos ⟨rfl, rfl⟩, if_pos rfl]
theorem duties_d : (Rd (F := F) m).duties (dCell c a i) 0 = {0} := by
  dsimp only [Rd]
  show (if (0 : ℕ) = 0 ∧ _ then (if 2 ≤ (dsem a i).val then {0} else ∅) else ∅) = _
  rw [if_pos ⟨rfl, rfl⟩, if_pos (by show 2 ≤ 2 + 4 * a.val + i.val; omega)]
theorem duties_later (g : GSem nD τ sig) : ∀ r, 1 ≤ r → (Rd (F := F) m).duties g r = ∅ :=
  fun r hr => by dsimp only [Rd]; rw [if_neg fun h => by have := h.1; omega]
theorem amount_bar (d : Fin 3) : (Rd (F := F) m).amount (barCell c) 0 d = 1 := rfl
theorem amount_d (d : Fin 3) : (Rd (F := F) m).amount (dCell c a i) 0 d = N := rfl
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (Rd (F := F) m).expect (dCell c a i) 0 = N := by
  unfold Schedule.expect Schedule.amountOf; rw [duties_d, Finset.sum_singleton, amount_d]
theorem payload_bar (d : Fin 3) : (Rd (F := F) m).payload (barCell c) 0 d = barPay c d := rfl
theorem payload_d (d : Fin 3) : (Rd (F := F) m).payload (dCell c a i) 0 d = pay m c a i := by
  show (match decode (dsem a i) with | some (a, i) => pay m c a i | none => iprop(emp)) = _
  rw [decode_dsem]

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_d : bigSep ((Rd (F := F) m).duties (dCell c a i) 0 \ ∅) (fun d => (Rd (F := F) m).payload (dCell c a i) 0 d) = pay m c a i := by
  rw [Finset.sdiff_empty, duties_d, bigSep_singleton, payload_d]

instance Rd_payload_storable (g : GSem nD τ sig) (r : ℕ) (d : Fin 3) :
    BI.Storable (upEmb : UEmb _ 𝕄) ((Rd (F := F) m).payload g r d) := by
  rcases g with ⟨t, s⟩
  cases s with
  | reg s =>
    show BI.Storable upEmb (barPay t.1 d)
    unfold barPay
    split <;> infer_instance
  | dma s =>
    show BI.Storable upEmb (match decode s with | some (a, i) => pay m t.1 a i | none => iprop(emp))
    cases decode s with
    | none => show BI.Storable upEmb iprop(emp); infer_instance
    | some ai =>
      show BI.Storable upEmb (pay m t.1 ai.1 ai.2)
      unfold pay
      split <;> infer_instance

end Sched

theorem kcell_bar (c : Dev nD) : kcell (c, (0 : Fin 33)) = barCell c := by
  unfold kcell csem
  exact congrArg (Prod.mk (c : Thread nD τ)) (dif_pos rfl)
theorem kcell_d (c : Dev nD) (a : Fin 8) (i : Fin 4) : kcell (c, cidx a i) = dCell c a i := by
  unfold kcell csem
  refine congrArg (Prod.mk (c : Thread nD τ)) ?_
  rw [dif_neg (by show ¬ (1 + 4 * a.val + i.val = 0); omega)]
  refine congrArg SemLoc.dma (Fin.ext ?_)
  show 1 + (1 + 4 * a.val + i.val) = 2 + 4 * a.val + i.val
  omega
theorem csem_injective : Function.Injective (csem : Fin 33 → SemLoc sig) := by
  intro k k' h
  unfold csem at h
  by_cases hk : k.val = 0 <;> by_cases hk' : k'.val = 0
  · exact Fin.ext (hk.trans hk'.symm)
  · rw [dif_pos hk, dif_neg hk'] at h; cases h
  · rw [dif_neg hk, dif_pos hk'] at h; cases h
  · rw [dif_neg hk, dif_neg hk'] at h
    have h2 : 1 + k.val = 1 + k'.val := congrArg Fin.val (SemLoc.dma.inj h)
    exact Fin.ext (by omega)
theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

theorem inv_at (K : Dev nD × Fin 33 → ℕ) (ck : Dev nD × Fin 33) : records m K ⊢ cellInv ER (Rd m) (K ck) (kcell ck) := by
  have h : (bigSep Finset.univ fun ck : Dev nD × Fin 33 => (cellInv ER (Rd m) (K ck) (kcell ck) : sProp 𝕄)) ⊢ cellInv ER (Rd m) (K ck) (kcell ck) :=
    bigSep_elim (Finset.mem_univ ck)
  unfold records
  iintro ⟨#HI, #HR⟩
  iapply h; iexact HI
theorem reached_at (K : Dev nD × Fin 33 → ℕ) (ck : Dev nD × Fin 33) : records m K ⊢ reached ER (kcell ck) 0 := by
  have h : (bigSep Finset.univ fun ck : Dev nD × Fin 33 => (reached ER (kcell ck) 0 : sProp 𝕄)) ⊢ reached ER (kcell ck) 0 :=
    bigSep_elim (Finset.mem_univ ck)
  unfold records
  iintro ⟨#HI, #HR⟩
  iapply h; iexact HR

theorem inv_bar (K : Dev nD × Fin 33 → ℕ) (d : Dev nD) : records m K ⊢ cellInv ER (Rd m) (K (d, 0)) (barCell d) := by
  have h := inv_at m K (d, (0 : Fin 33))
  rwa [kcell_bar] at h
theorem inv_d (K : Dev nD × Fin 33 → ℕ) (d : Dev nD) (a : Fin 8) (i : Fin 4) : records m K ⊢ cellInv ER (Rd m) (K (d, cidx a i)) (dCell d a i) := by
  have h := inv_at m K (d, cidx a i)
  rwa [kcell_d] at h
theorem reached_bar (K : Dev nD × Fin 33 → ℕ) (d : Dev nD) : records m K ⊢ reached ER (barCell d) 0 := by
  have h := reached_at m K (d, (0 : Fin 33))
  rwa [kcell_bar] at h
theorem reached_d (K : Dev nD × Fin 33 → ℕ) (d : Dev nD) (a : Fin 8) (i : Fin 4) : records m K ⊢ reached ER (dCell d a i) 0 := by
  have h := reached_at m K (d, cidx a i)
  rwa [kcell_d] at h

theorem Orem_succ (c : Dev nD) (k : ℕ) (d : CellTallies nD τ sig Unit) (h : (dueL c)[k]? = some d) : Orem c k = Orem c (k + 1) + d := by
  obtain ⟨hk, hd⟩ := List.getElem?_eq_some_iff.mp h
  unfold Orem
  rw [List.drop_eq_getElem_cons hk, List.foldr_cons, hd]

theorem L_of_ne (g : GSem nD τ sig) (h : g.1.2 ≠ .tc) : L g = ∅ := if_neg h
theorem L_tc (c : Dev nD) (sm : SemLoc sig) : L ((c : Thread nD τ), sm) = {()} := if_pos rfl

theorem Orem_pos (c : Dev nD) (k : ℕ) {g : GSem nD τ sig} {u : Unit} (h : 0 < Orem c k g u) : ∃ d ∈ (dueL c).drop k, 0 < d g u := by
  unfold Orem at h
  generalize (dueL c).drop k = l at h ⊢
  induction l with
  | nil => exact absurd h (Nat.lt_irrefl 0)
  | cons d l ih =>
    rw [List.foldr_cons] at h
    rcases Pipeline.add_pos_cases h with h1 | h1
    · obtain ⟨d', hd', hp⟩ := ih h1
      exact ⟨d', List.mem_cons_of_mem _ hd', hp⟩
    · exact ⟨d, List.mem_cons_self, h1⟩

theorem lv_d (c : Dev nD) (a : Fin 8) (i : Fin 4) : lv (dCell c a i) () = if a = 1 ∨ a = 3 then 2 else if a = 5 ∨ a = 7 then 3 else 0 := by
  show (match decode (dsem a i) with | some (a, _) => (if a = 1 ∨ a = 3 then 2 else if a = 5 ∨ a = 7 then 3 else 0) | none => 0) = _
  rw [decode_dsem]

theorem lv_stage (c : Dev nD) (q : DmaSem sig) (hq : q.val < 2) : lv ((c : Thread nD τ), .dma q) () = 0 := by
  show (match decode q with | some (a, _) => (if a = 1 ∨ a = 3 then 2 else if a = 5 ∨ a = 7 then 3 else 0) | none => 0) = _
  unfold decode
  rw [dif_neg (by omega)]

theorem lv_due0 (c : Dev nD) {d : CellTallies nD τ sig Unit} (hd : d ∈ dueL c) : ∃ g n, d = tallyAt g () n ∧ () ∈ L g ∧ 1 ≤ lv g () := by
  simp only [dueL, List.mem_cons, List.mem_nil_iff, or_false] at hd
  rcases hd with rfl | rfl | rfl | rfl | rfl | rfl | rfl | rfl | rfl | rfl | rfl | rfl | rfl | rfl | rfl | rfl | rfl | rfl | rfl
  all_goals refine ⟨_, _, rfl, by rw [L_tc]; exact Finset.mem_singleton_self _, ?_⟩
  all_goals first | exact Nat.le_refl 1 | (rw [lv_d]; decide)
theorem lv_due3 (c : Dev nD) {d : CellTallies nD τ sig Unit} (hd : d ∈ (dueL c).drop 3) : ∃ g n, d = tallyAt g () n ∧ () ∈ L g ∧ 2 ≤ lv g () := by
  simp only [dueL, List.drop_succ_cons, List.drop_zero, List.mem_cons, List.mem_nil_iff, or_false] at hd
  rcases hd with rfl | rfl | rfl | rfl | rfl | rfl | rfl | rfl | rfl | rfl | rfl | rfl | rfl | rfl | rfl | rfl
  all_goals refine ⟨_, _, rfl, by rw [L_tc]; exact Finset.mem_singleton_self _, ?_⟩
  all_goals (rw [lv_d]; decide)
theorem lv_due11 (c : Dev nD) {d : CellTallies nD τ sig Unit} (hd : d ∈ (dueL c).drop 11) : ∃ g n, d = tallyAt g () n ∧ () ∈ L g ∧ 3 ≤ lv g () := by
  simp only [dueL, List.drop_succ_cons, List.drop_zero, List.mem_cons, List.mem_nil_iff, or_false] at hd
  rcases hd with rfl | rfl | rfl | rfl | rfl | rfl | rfl | rfl
  all_goals refine ⟨_, _, rfl, by rw [L_tc]; exact Finset.mem_singleton_self _, ?_⟩
  all_goals (rw [lv_d]; decide)

/-- The deadlock argument: a wait is allowed below the level of everything still owed. -/
theorem mayWait_of_lv (c : Dev nD) (s : SemLoc sig) (k b : ℕ) (hs : lv ((c : Thread nD τ), s) () < b)
    (hk : ∀ d ∈ (dueL c).drop k, ∃ g n, d = tallyAt g () n ∧ () ∈ L g ∧ b ≤ lv g ()) :
    (levAts L lv : sProp 𝕄) ⊢ MayWait (c : Thread nD τ) s () (Orem c k) :=
  Pipeline.mayWait_of_levAts (by rw [L_tc]; exact Finset.mem_singleton_self _) fun g u hg => by
    obtain ⟨d, hd, hp⟩ := Orem_pos c k hg
    obtain ⟨g', n, rfl, hL, hb⟩ := hk d hd
    obtain ⟨rfl, rfl⟩ := Pipeline.tallyAt_pos hp
    exact ⟨hL, lt_of_lt_of_le hs hb⟩

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_of_lv c (.dma q) 0 1 (by rw [lv_stage c q hq]; exact Nat.one_pos) (fun d hd => lv_due0 c hd)
  · rw [MayWait_zero]; iintro -; iempintro
theorem mayWait_bar (c : Dev nD) : (levAts L lv : sProp 𝕄) ⊢ MayWait (c : Thread nD τ) (.reg barS) () (Orem c 3) :=
  mayWait_of_lv c (.reg barS) 3 2 (show (1 : ℕ) < 2 by decide) (fun d hd => lv_due3 c hd)
theorem mayWait_recv1 (c : Dev nD) (i : Fin 4) : (levAts L lv : sProp 𝕄) ⊢ MayWait (c : Thread nD τ) (.dma (dsem 1 i)) () (Orem c (11 + 2 * i.val)) :=
  mayWait_of_lv c (.dma (dsem 1 i)) (11 + 2 * i.val) 3 (by rw [lv_d]; decide) (fun d hd => lv_due11 c (by
    rw [← List.drop_drop] at hd
    exact List.mem_of_mem_drop hd))

end Cert.KernelProof

end
-- ==== Proof.KernelGhost.lean ====
import proofs.«900647_g7700000000000648_dist_a2a_v7x_xyz2x4x4_x_m1024_n512_bf16_1_alg».proof.Proof.KernelTables

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def allCells : Finset (GSem nD τ sig) := Finset.univ.map ⟨kcell, kcell_injective⟩

def tokOf (cj : Dev nD × Fin 35) : GSem nD τ sig × ℕ × Fin 3 :=
  if h : cj.2.val < 3 then (barCell cj.1, 0, ⟨cj.2.val, h⟩)
  else (dCell cj.1 ⟨(cj.2.val - 3) / 4, by have := cj.2.isLt; omega⟩ ⟨(cj.2.val - 3) % 4, Nat.mod_lt _ (by decide)⟩, 0, 0)

theorem tokOf_injective : Function.Injective (tokOf : Dev nD × Fin 35 → GSem nD τ sig × ℕ × Fin 3) := by
  rintro ⟨c, j⟩ ⟨c', j'⟩ h
  have hc : c = c' := by
    have := congrArg (fun x : GSem nD τ sig × ℕ × Fin 3 => x.1.1.1) h
    unfold tokOf at this
    split at this <;> split at this <;> exact this
  subst hc
  have hs := congrArg (fun x : GSem nD τ sig × ℕ × Fin 3 => x.1.2) h
  have hd := congrArg (fun x : GSem nD τ sig × ℕ × Fin 3 => x.2.2) h
  unfold tokOf at hs hd
  have hj : j = j' := by
    by_cases h1 : j.val < 3 <;> by_cases h2 : j'.val < 3
    · rw [dif_pos h1, dif_pos h2] at hd
      have hd' := congrArg Fin.val hd
      exact Fin.ext hd'
    · rw [dif_pos h1, dif_neg h2] at hs
      exact absurd hs (fun h' => by cases h')
    · rw [dif_neg h1, dif_pos h2] at hs
      exact absurd hs (fun h' => by cases h')
    · rw [dif_neg h1, dif_neg h2] at hs
      have hv : (dsem ⟨(j.val - 3) / 4, by have := j.isLt; omega⟩ ⟨(j.val - 3) % 4, Nat.mod_lt _ (by decide)⟩).val
          = (dsem ⟨(j'.val - 3) / 4, by have := j'.isLt; omega⟩ ⟨(j'.val - 3) % 4, Nat.mod_lt _ (by decide)⟩).val :=
        congrArg Fin.val (SemLoc.dma.inj hs)
      have hv' : 2 + 4 * ((j.val - 3) / 4) + (j.val - 3) % 4 = 2 + 4 * ((j'.val - 3) / 4) + (j'.val - 3) % 4 := hv
      exact Fin.ext (by omega)
  subst hj; rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop(dutyTok ER (barCell c) 0 (0 : Fin 3) ∗ dutyTok ER (barCell c) 0 (1 : Fin 3) ∗ dutyTok ER (barCell c) 0 (2 : Fin 3)
    ∗ bigSep Finset.univ fun ai : Fin 8 × Fin 4 => dutyTok ER (dCell c ai.1 ai.2) 0 (0 : Fin 3))

def G (c : Dev nD) : sProp 𝕄 :=
  iprop((bigSep Finset.univ fun k : Fin 33 => roundState ER (Rd m) (kcell (c, k)) 0)
    ∗ (bigSep Finset.univ fun k : Fin 33 => iprop(atPos ER (kcell (c, k)) 0 ∅ 0 ∗ reached ER (kcell (c, k)) 0)) ∗ toks c)

def G' (c : Dev nD) : sProp 𝕄 := iprop(∃ K, ghost m K c)

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

def e32 : Fin 8 × Fin 4 ≃ Fin 32 := finProdFinEquiv

theorem e32_val (ai : Fin 8 × Fin 4) : (e32 ai).val = ai.2.val + 4 * ai.1.val := rfl

theorem cells33 (c : Dev nD) (Ψ : GSem nD τ sig → sProp 𝕄) :
    (bigSep Finset.univ fun k : Fin 33 => Ψ (kcell (c, k)))
      = iprop(Ψ (barCell c) ∗ bigSep Finset.univ fun ai : Fin 8 × Fin 4 => Ψ (dCell c ai.1 ai.2)) := by
  rw [bigSep_fin_succ, bigSep_univ_equiv e32 (fun k : Fin 32 => Ψ (kcell (c, k.succ))), kcell_bar]
  refine congrArg (fun X => iprop(Ψ (barCell c) ∗ X)) (bigSep_congr fun ai _ => ?_)
  have : (e32 ai).succ = cidx ai.1 ai.2 := Fin.ext (by show (e32 ai).val + 1 = 1 + 4 * ai.1.val + ai.2.val; rw [e32_val]; omega)
  rw [this, kcell_d]

theorem tokOf_bar (c : Dev nD) (d : Fin 3) : tokOf (c, ⟨d.val, by have := d.isLt; omega⟩) = (barCell c, 0, d) := by
  unfold tokOf; rw [dif_pos (show d.val < 3 from d.isLt)]

theorem tokOf_d (c : Dev nD) (ai : Fin 8 × Fin 4) : tokOf (c, (e32 ai).succ.succ.succ) = (dCell c ai.1 ai.2, 0, 0) := by
  have hv : ((e32 ai).succ.succ.succ : Fin 35).val = ai.2.val + 4 * ai.1.val + 3 := by
    show (e32 ai).val + 1 + 1 + 1 = _; rw [e32_val]
  have h1 := ai.1.isLt; have h2 := ai.2.isLt
  unfold tokOf; rw [dif_neg (by rw [hv]; omega)]
  have ha : (⟨(((e32 ai).succ.succ.succ : Fin 35).val - 3) / 4, by rw [hv]; omega⟩ : Fin 8) = ai.1 := Fin.ext (by show _ / 4 = _; rw [hv]; omega)
  have hi : (⟨(((e32 ai).succ.succ.succ : Fin 35).val - 3) % 4, Nat.mod_lt _ (by decide)⟩ : Fin 4) = ai.2 := Fin.ext (by show _ % 4 = _; rw [hv]; omega)
  rw [ha, hi]

theorem toks35 (c : Dev nD) :
    (bigSep Finset.univ fun j : Fin 35 => (dutyTok ER (tokOf (c, j)).1 (tokOf (c, j)).2.1 (tokOf (c, j)).2.2 : sProp 𝕄)) = toks c := by
  rw [bigSep_fin_succ, bigSep_fin_succ, bigSep_fin_succ,
    bigSep_univ_equiv e32 (fun k : Fin 32 => (dutyTok ER (tokOf (c, k.succ.succ.succ)).1 (tokOf (c, k.succ.succ.succ)).2.1 (tokOf (c, k.succ.succ.succ)).2.2 : sProp 𝕄))]
  unfold toks
  rw [bigSep_congr (s := Finset.univ) (fun (ai : Fin 8 × Fin 4) _ => show (dutyTok ER (tokOf (c, (e32 ai).succ.succ.succ)).1 (tokOf (c, (e32 ai).succ.succ.succ)).2.1 (tokOf (c, (e32 ai).succ.succ.succ)).2.2 : sProp 𝕄)
      = dutyTok ER (dCell c ai.1 ai.2) 0 (0 : Fin 3) from by rw [tokOf_d])]
  rw [show tokOf (c, (0 : Fin 35)) = (barCell c, 0, (0 : Fin 3)) from tokOf_bar c 0,
    show tokOf (c, (0 : Fin 34).succ) = (barCell c, 0, (1 : Fin 3)) from tokOf_bar c 1,
    show tokOf (c, (0 : Fin 33).succ.succ) = (barCell c, 0, (2 : Fin 3)) from tokOf_bar c 2]

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 33 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks35 c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_cells m) $$ HX with HG
  imodintro
  isplitl [HP] <;> iassumption

theorem csem_succ (k : Fin 32) : csem k.succ = osem k := by
  show (if h : k.succ.val = 0 then SemLoc.reg barS else SemLoc.dma ⟨1 + k.succ.val, _⟩) = SemLoc.dma ⟨2 + k.val, _⟩
  rw [dif_neg (by show k.val + 1 ≠ 0; omega)]
  exact congrArg SemLoc.dma (Fin.ext (by show 1 + (k.val + 1) = 2 + k.val; omega))

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin_succ, kcell_bar]
  have h : (bigSep Finset.univ fun k : Fin 32 => (semVal (kcell (c, k.succ)) 0 : sProp 𝕄))
      = Pipeline.ownSems0 (Ix := Unit) (Name := ℕ) (U := UU) (Lvl := ℕ) (Val := Elt F) (τ := τ) osem c := by
    unfold Pipeline.ownSems0
    exact bigSep_congr fun k _ => by show semVal ((c : Thread nD τ), csem k.succ) 0 = _; rw [csem_succ]
  rw [h]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def eX : Dev nD ≃ Dev nD := ⟨pX, pX, pX_pX, pX_pX⟩
def eY : Dev nD ≃ Dev nD := ⟨pY, pY, pY_pY, pY_pY⟩
def eZ : Dev nD ≃ Dev nD := ⟨pZ, pZ, pZ_pZ, pZ_pZ⟩

theorem payee_cases (a : Fin 8) : (∀ c : Dev nD, payee c a = c) ∨ (∀ c : Dev nD, payee c a = pX c) ∨ (∀ c : Dev nD, payee c a = pY c) ∨ (∀ c : Dev nD, payee c a = pZ c) := by
  fin_cases a
  · exact Or.inl fun c => rfl
  · exact Or.inr (Or.inl fun c => rfl)
  · exact Or.inl fun c => rfl
  · exact Or.inr (Or.inl fun c => rfl)
  · exact Or.inl fun c => rfl
  · exact Or.inr (Or.inr (Or.inl fun c => rfl))
  · exact Or.inl fun c => rfl
  · exact Or.inr (Or.inr (Or.inr fun c => rfl))

theorem deal_d (ai : Fin 8 × Fin 4) :
    (bigSep Finset.univ fun c : Dev nD => (dutyTok ER (dCell c ai.1 ai.2) 0 (0 : Fin 3) : sProp 𝕄))
      = bigSep Finset.univ fun c : Dev nD => (dutyTok ER (dCell (payee c ai.1) ai.1 ai.2) 0 (0 : Fin 3) : sProp 𝕄) := by
  rcases payee_cases ai.1 with h | h | h | h
  · exact bigSep_congr fun c _ => by rw [h]
  · rw [bigSep_univ_equiv eX (fun c : Dev nD => (dutyTok ER (dCell c ai.1 ai.2) 0 (0 : Fin 3) : sProp 𝕄))]
    exact bigSep_congr fun c _ => by rw [h]; rfl
  · rw [bigSep_univ_equiv eY (fun c : Dev nD => (dutyTok ER (dCell c ai.1 ai.2) 0 (0 : Fin 3) : sProp 𝕄))]
    exact bigSep_congr fun c _ => by rw [h]; rfl
  · rw [bigSep_univ_equiv eZ (fun c : Dev nD => (dutyTok ER (dCell c ai.1 ai.2) 0 (0 : Fin 3) : sProp 𝕄))]
    exact bigSep_congr fun c _ => by rw [h]; rfl

/-- Each duty token goes from the cell's owner to the device that pays it; the partner maps are involutions. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv eX (fun c : Dev nD => (dutyTok ER (barCell c) 0 (0 : Fin 3) : sProp 𝕄)),
    bigSep_univ_equiv eY (fun c : Dev nD => (dutyTok ER (barCell c) 0 (1 : Fin 3) : sProp 𝕄)),
    bigSep_univ_equiv eZ (fun c : Dev nD => (dutyTok ER (barCell c) 0 (2 : Fin 3) : sProp 𝕄)),
    bigSep_univ_comm (fun (c : Dev nD) (ai : Fin 8 × Fin 4) => (dutyTok ER (dCell c ai.1 ai.2) 0 (0 : Fin 3) : sProp 𝕄)),
    bigSep_univ_comm (fun (c : Dev nD) (ai : Fin 8 × Fin 4) => (dutyTok ER (dCell (payee c ai.1) ai.1 ai.2) 0 (0 : Fin 3) : sProp 𝕄)),
    bigSep_congr (s := Finset.univ) (fun (ai : Fin 8 × Fin 4) _ => deal_d (F := F) ai)]
  exact Entails.refl _

theorem ghost_intro (K : Dev nD × Fin 33 → ℕ) (c : Dev nD) : iprop(records m K ∗ (posns c ∗ payToks c)) ⊢ G' m c := by
  unfold G' ghost
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (Rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ iprop(posns c ∗ payToks c) from Entails.of_eq (by unfold posns; rw [cells33 c (fun g => atPos ER g 0 ∅ 0)])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelProof

end
-- ==== Proof.KernelPieces.lean ====
import proofs.«900647_g7700000000000648_dist_a2a_v7x_xyz2x4x4_x_m1024_n512_bf16_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def chA (i : Fin 4) : Fin 8 := ⟨i.val, by omega⟩
def chB (i : Fin 4) : Fin 8 := ⟨4 + i.val, by omega⟩

local macro "rows_apart" : tactic =>
  `(tactic| (rw [Finset.disjoint_left]; intro j h1 h2; simp only [Finset.mem_union, mem_rows, mem_brows] at h1 h2; omega))

omit [FloatOps F] in
theorem oPts_union (d : Dev nD) {I J : Finset S2048x512.Idx} (q : PosShare TreeShare) (f : (cc0_stg1_0 : Ref sig .tc).ty.Contents (Elt F))
    (h : Disjoint I J) : (oPts d (I ∪ J) q f : sProp 𝕄) = iprop(oPts d I q f ∗ oPts d J q f) := by
  unfold oPts
  have hu : ((((d : Thread nD τ).loc cc0_stg1_0) ↦[I ∪ J]{q} f : sProp 𝕄))
      ⊣⊢ iprop((((d : Thread nD τ).loc cc0_stg1_0) ↦[I]{q} f) ∗ ((d : Thread nD τ).loc cc0_stg1_0) ↦[J]{q} f) := pointsTo_union h
  exact BI.equiv_iff.mp ⟨hu.1, hu.2⟩

omit [FloatOps F] in
theorem bPts_union (c : Dev nD) {I J : Finset S512x512.Idx} (f : (cc0_scratch0 : Ref sig .tc).ty.Contents (Elt F))
    (h : Disjoint I J) : (bPts c (I ∪ J) f : sProp 𝕄) = iprop(bPts c I f ∗ bPts c J f) := by
  unfold bPts
  have hu : ((((c : Thread nD τ).loc cc0_scratch0) ↦[I ∪ J]{fullShare} f : sProp 𝕄))
      ⊣⊢ iprop((((c : Thread nD τ).loc cc0_scratch0) ↦[I]{fullShare} f) ∗ ((c : Thread nD τ).loc cc0_scratch0) ↦[J]{fullShare} f) := pointsTo_union h
  exact BI.equiv_iff.mp ⟨hu.1, hu.2⟩

theorem qc_pX : ∀ c : Dev nD, qc (pX c) = pc c := by decide
theorem qc_pY : ∀ c : Dev nD, qc (pY c) = qc c := by decide
theorem qc_pZ : ∀ c : Dev nD, qc (pZ c) = qc c := by decide

theorem out_split (c : Dev nD) (f : (cc0_stg1_0 : Ref sig .tc).ty.Contents (Elt F)) :
    ((((c : Thread nD τ).loc cc0_stg1_0) ↦{fullShare} f : sProp 𝕄))
      ⊣⊢ iprop(oPts c (rows (1024 * pc c) 1024) fullShare f ∗ oPts c (rows (1024 * qc c + 256 * gq c) 256) fullShare f
        ∗ oPts c (rows (1024 * qc c + 256 * (3 - gq c)) 256) fullShare f ∗ oPts c (rows (1024 * qc c + 256 * gq (pY c)) 256) fullShare f
        ∗ oPts c (rows (1024 * qc c + 256 * gq (pZ c)) 256) fullShare f) := by
  refine BiEntails.of_eq ?_
  show (oPts c Finset.univ fullShare f : sProp 𝕄) = _
  rw [gq_pY, gq_pZ, qc_eq]
  have hg := gq_lt c
  have hp := pc_lt c
  have e : (Finset.univ : Finset S2048x512.Idx) = rows (1024 * pc c) 1024 ∪ (rows (1024 * (1 - pc c) + 256 * gq c) 256
      ∪ (rows (1024 * (1 - pc c) + 256 * (3 - gq c)) 256 ∪ (rows (1024 * (1 - pc c) + 256 * ((gq c + 2) % 4)) 256
      ∪ rows (1024 * (1 - pc c) + 256 * (gq c + 1 - 2 * (gq c % 2))) 256))) := by
    ext j
    have hj : (j 0).val < 2048 := (j 0).isLt
    simp only [Finset.mem_union, mem_rows, Finset.mem_univ, true_iff]
    omega
  rw [congrArg (fun S => (oPts c S fullShare f : sProp 𝕄)) e]
  rw [oPts_union c fullShare f (by rows_apart), oPts_union c fullShare f (by rows_apart), oPts_union c fullShare f (by rows_apart),
    oPts_union c fullShare f (by rows_apart)]

theorem quarter_split (d : Dev nD) (lo : ℕ) (q : PosShare TreeShare) (f : (cc0_stg1_0 : Ref sig .tc).ty.Contents (Elt F)) :
    (oPts d (rows lo 256) q f : sProp 𝕄)
      ⊣⊢ iprop(oPts d (rows lo 64) q f ∗ oPts d (rows (lo + 64) 64) q f ∗ oPts d (rows (lo + 128) 64) q f ∗ oPts d (rows (lo + 192) 64) q f) := by
  refine BiEntails.of_eq ?_
  have e : rows lo 256 = rows lo 64 ∪ (rows (lo + 64) 64 ∪ (rows (lo + 128) 64 ∪ rows (lo + 192) 64)) := by
    ext j
    simp only [Finset.mem_union, mem_rows]
    omega
  rw [e, oPts_union d q f (by rows_apart), oPts_union d q f (by rows_apart), oPts_union d q f (by rows_apart)]

theorem scratch_split (c : Dev nD) (f : (cc0_scratch0 : Ref sig .tc).ty.Contents (Elt F)) :
    (bPts c Finset.univ f : sProp 𝕄)
      ⊣⊢ iprop(bPts c (brows 0 64) f ∗ bPts c (brows 64 64) f ∗ bPts c (brows 128 64) f ∗ bPts c (brows 192 64) f
        ∗ bPts c (brows 256 64) f ∗ bPts c (brows 320 64) f ∗ bPts c (brows 384 64) f ∗ bPts c (brows 448 64) f) := by
  refine BiEntails.of_eq ?_
  have e : (Finset.univ : Finset S512x512.Idx) = brows 0 64 ∪ (brows 64 64 ∪ (brows 128 64 ∪ (brows 192 64
      ∪ (brows 256 64 ∪ (brows 320 64 ∪ (brows 384 64 ∪ brows 448 64)))))) := by
    ext j
    have hj : (j 0).val < 512 := (j 0).isLt
    simp only [Finset.mem_union, mem_brows, Finset.mem_univ, true_iff]
    omega
  rw [congrArg (fun S => (bPts c S f : sProp 𝕄)) e]
  rw [bPts_union c f (by rows_apart), bPts_union c f (by rows_apart), bPts_union c f (by rows_apart), bPts_union c f (by rows_apart),
    bPts_union c f (by rows_apart), bPts_union c f (by rows_apart), bPts_union c f (by rows_apart)]

theorem oPts_halves (d : Dev nD) (S : Finset S2048x512.Idx) (f : (cc0_stg1_0 : Ref sig .tc).ty.Contents (Elt F)) :
    (oPts d S fullShare f : sProp 𝕄) ⊣⊢ iprop(oPts d S fullShare.left f ∗ oPts d S fullShare.right f) := by
  unfold oPts
  exact pointsTo_share (PosShare.mem_left_op_right fullShare)

theorem barPay_X (c : Dev nD) : (barPay (F := F) (pX c) 0 : sProp 𝕄)
    = iprop((∃ f, oPts c (rows (1024 * qc c + 256 * gq c) 256) fullShare f) ∗ (∃ f, oPts c (rows (1024 * qc c + 256 * (3 - gq c)) 256) fullShare f)) := by
  show (iprop((∃ f, oPts (pX (pX c)) (rows (1024 * pc (pX c) + 256 * gq (pX c)) 256) fullShare f)
    ∗ (∃ f, oPts (pX (pX c)) (rows (1024 * pc (pX c) + 256 * (3 - gq (pX c))) 256) fullShare f)) : sProp 𝕄) = _
  rw [pX_pX, pc_pX, gq_pX]
  rfl
theorem barPay_Y (c : Dev nD) : (barPay (F := F) (pY c) 1 : sProp 𝕄) = iprop(∃ f, oPts c (rows (1024 * qc c + 256 * gq (pY c)) 256) fullShare f) := by
  show (iprop(∃ f, oPts (pY (pY c)) (rows (1024 * qc (pY c) + 256 * gq (pY c)) 256) fullShare f) : sProp 𝕄) = _
  rw [pY_pY, qc_pY]
theorem barPay_Z (c : Dev nD) : (barPay (F := F) (pZ c) 2 : sProp 𝕄) = iprop(∃ f, oPts c (rows (1024 * qc c + 256 * gq (pZ c)) 256) fullShare f) := by
  show (iprop(∃ f, oPts (pZ (pZ c)) (rows (1024 * qc (pZ c) + 256 * gq (pZ c)) 256) fullShare f) : sProp 𝕄) = _
  rw [pZ_pZ, qc_pZ]

theorem src1_eq (c : Dev nD) (i : Fin 4) (f : (cc0_scratch0 : Ref sig .tc).ty.Contents (Elt F)) :
    (((bS (chA i)).view.loc (c : Thread nD τ)) ↦[(bS (chA i)).view.set]{fullShare} f : sProp 𝕄) = bPts c (brows (64 * i.val) 64) f := by
  unfold bPts
  show (((c : Thread nD τ).loc cc0_scratch0) ↦[(bS (chA i)).view.set]{fullShare} f : sProp 𝕄) = _
  rw [set_bS]
  rfl
theorem src1b_eq (c : Dev nD) (i : Fin 4) (f : (cc0_scratch0 : Ref sig .tc).ty.Contents (Elt F)) :
    (((bS (chB i)).view.loc (c : Thread nD τ)) ↦[(bS (chB i)).view.set]{fullShare} f : sProp 𝕄) = bPts c (brows (256 + 64 * i.val) 64) f := by
  unfold bPts
  show (((c : Thread nD τ).loc cc0_scratch0) ↦[(bS (chB i)).view.set]{fullShare} f : sProp 𝕄) = _
  rw [set_bS]
  rw [show 64 * (chB i).val = 256 + 64 * i.val from by show 64 * (4 + i.val) = _; omega]
theorem dst1_eq (c : Dev nD) (i : Fin 4) (f : (cc0_stg1_0 : Ref sig .tc).ty.Contents (Elt F)) :
    (((oX c i).view.loc (pX c : Thread nD τ)) ↦[(oX c i).view.set]{fullShare} f : sProp 𝕄) = oPts (pX c) (rows (1024 * pc c + 256 * gq c + 64 * i.val) 64) fullShare f := by
  unfold oPts
  show (((pX c : Thread nD τ).loc cc0_stg1_0) ↦[(oX c i).view.set]{fullShare} f : sProp 𝕄) = _
  rw [set_oX]
  rw [show 1024 * pc c + rowA c i = 1024 * pc c + 256 * gq c + 64 * i.val from by unfold rowA; omega]
theorem dst1b_eq (c : Dev nD) (i : Fin 4) (f : (cc0_stg1_0 : Ref sig .tc).ty.Contents (Elt F)) :
    (((oXb c i).view.loc (pX c : Thread nD τ)) ↦[(oXb c i).view.set]{fullShare} f : sProp 𝕄) = oPts (pX c) (rows (1024 * pc c + 256 * (3 - gq c) + 64 * i.val) 64) fullShare f := by
  unfold oPts
  show (((pX c : Thread nD τ).loc cc0_stg1_0) ↦[(oXb c i).view.set]{fullShare} f : sProp 𝕄) = _
  rw [set_oXb]
  rw [show 1024 * pc c + rowB c i = 1024 * pc c + 256 * (3 - gq c) + 64 * i.val from by unfold rowB; omega]
theorem fw_eq (c d : Dev nD) (i : Fin 4) (q : PosShare TreeShare) (f : (cc0_stg1_0 : Ref sig .tc).ty.Contents (Elt F)) :
    (((oFw c i).view.loc (d : Thread nD τ)) ↦[(oFw c i).view.set]{q} f : sProp 𝕄) = oPts d (rows (1024 * qc c + 256 * gq c + 64 * i.val) 64) q f := by
  unfold oPts
  show (((d : Thread nD τ).loc cc0_stg1_0) ↦[(oFw c i).view.set]{q} f : sProp 𝕄) = _
  rw [set_oFw]
  rw [show 1024 * qc c + rowA c i = 1024 * qc c + 256 * gq c + 64 * i.val from by unfold rowA; omega]

theorem bload_sub (j : Fin 8) (off : Fin 2 → ℕ) (inb) (hoff : off = ![64 * j.val, 0]) :
    bM.view.setOn (Rect.unit (s := S512x512) off S64x512.size inb).toLoadRect.set ⊆ brows (64 * j.val) 64 := by
  subst hoff
  intro k hk
  have hk' : k ∈ (Rect.unit (s := S512x512) ![64 * j.val, 0] S64x512.size inb).set := by
    have h := hk
    unfold View.setOn at h
    rw [show bM.view.emb = Function.Embedding.refl _ from rfl, Finset.map_refl] at h
    exact h
  rw [mem_brows]
  exact (Rect.mem_set_unit.mp hk') (0 : Fin 2)
theorem bstore_sub (j : Fin 8) (off : Fin 2 → ℕ) (inb) (hoff : off = ![64 * j.val, 0]) :
    (bM.access (Rect.unit (s := S512x512) off S64x512.size inb)).setOn Finset.univ ⊆ brows (64 * j.val) 64 := by
  subst hoff
  intro k hk
  rw [View.setOn_univ] at hk
  have e := View.set_slice_whole (cc0_scratch0 : Ref sig .tc) (Rect.unit (s := S512x512) ![64 * j.val, 0] S64x512.size inb)
  have hk' : k ∈ (Rect.unit (s := S512x512) ![64 * j.val, 0] S64x512.size inb).set := e ▸ hk
  rw [mem_brows]
  exact (Rect.mem_set_unit.mp hk') (0 : Fin 2)
theorem oload_sub (lo : ℕ) (off : Fin 2 → ℕ) (inb) (hoff : off = ![lo, 0]) :
    oM.view.setOn (Rect.unit (s := S2048x512) off S1024x512.size inb).toLoadRect.set ⊆ rows lo 1024 := by
  subst hoff
  intro k hk
  have hk' : k ∈ (Rect.unit (s := S2048x512) ![lo, 0] S1024x512.size inb).set := by
    have h := hk
    unfold View.setOn at h
    rw [show oM.view.emb = Function.Embedding.refl _ from rfl, Finset.map_refl] at h
    exact h
  rw [mem_rows]
  exact (Rect.mem_set_unit.mp hk') (0 : Fin 2)
theorem ostore_sub (lo : ℕ) (off : Fin 2 → ℕ) (inb) (hoff : off = ![lo, 0]) :
    (oM.access (Rect.unit (s := S2048x512) off S1024x512.size inb)).setOn Finset.univ ⊆ rows lo 1024 := by
  subst hoff
  intro k hk
  rw [View.setOn_univ] at hk
  have e := View.set_slice_whole (cc0_stg1_0 : Ref sig .tc) (Rect.unit (s := S2048x512) ![lo, 0] S1024x512.size inb)
  have hk' : k ∈ (Rect.unit (s := S2048x512) ![lo, 0] S1024x512.size inb).set := e ▸ hk
  rw [mem_rows]
  exact (Rect.mem_set_unit.mp hk') (0 : Fin 2)

end Cert.KernelProof

end
-- ==== Proof.KernelLandings.lean ====
import proofs.«900647_g7700000000000648_dist_a2a_v7x_xyz2x4x4_x_m1024_n512_bf16_1_alg».proof.Proof.KernelPieces
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem pay1_apply (v : Vec F S64x512 .f32) (y : S64x512.Idx) : k0_pay1 (F := F) v y = cvt (v y) := by
  unfold k0_pay1
  simp only [shapeCast_self]
  rfl
theorem pay17_apply (v : Vec F S1024x512 .f32) (y : S1024x512.Idx) : k0_pay17 (F := F) v y = cvt (v y) := by
  unfold k0_pay17
  simp only [shapeCast_self]
  rfl

theorem xload_chunk (c : Dev nD) (off : Fin 2 → ℕ) (inb) (r0 c0 : ℕ) (hoff : off = ![r0, c0]) (y : S64x512.Idx) :
    (xM.view.readAt (Elt F) (Rect.unit (s := S1024x1024) off S64x512.size inb).toLoadRect (xstg m c)) y = xAt m c (r0 + (y 0).val) (c0 + (y 1).val) := by
  subst hoff
  have h0 : r0 + 64 ≤ 1024 := inb 0
  have h1 : c0 + 512 ≤ 1024 := inb 1
  have hy0 : (y 0).val < 64 := (y 0).isLt
  have hy1 : (y 1).val < 512 := (y 1).isLt
  unfold xAt
  show xstg m c _ = _
  congr 1
  funext a
  apply Fin.ext
  fin_cases a
  · show r0 + 1 * (y 0).val = (r0 + (y 0).val) % 1024
    rw [Nat.mod_eq_of_lt (by omega)]; omega
  · show c0 + 1 * (y 1).val = (c0 + (y 1).val) % 1024
    rw [Nat.mod_eq_of_lt (by omega)]; omega
theorem xload_half (c : Dev nD) (off : Fin 2 → ℕ) (inb) (c0 : ℕ) (hoff : off = ![0, c0]) (y : S1024x512.Idx) :
    (xM.view.readAt (Elt F) (Rect.unit (s := S1024x1024) off S1024x512.size inb).toLoadRect (xstg m c)) y = xAt m c (y 0).val (c0 + (y 1).val) := by
  subst hoff
  have h1 : c0 + 512 ≤ 1024 := inb 1
  have hy0 : (y 0).val < 1024 := (y 0).isLt
  have hy1 : (y 1).val < 512 := (y 1).isLt
  unfold xAt
  show xstg m c _ = _
  congr 1
  funext a
  apply Fin.ext
  fin_cases a
  · show 0 + 1 * (y 0).val = ((y 0).val) % 1024
    rw [Nat.mod_eq_of_lt (by omega)]; omega
  · show c0 + 1 * (y 1).val = (c0 + (y 1).val) % 1024
    rw [Nat.mod_eq_of_lt (by omega)]; omega

theorem oaccess_write_apply {off : Fin 2 → ℕ} {inb} (r : ℕ) (h : off = ![r, 0]) (fd : (cc0_stg1_0 : Ref sig .tc).ty.Contents (Elt F))
    (w : S1024x512.Idx → Elt F .bf16) (k : S2048x512.Idx) (y : S1024x512.Idx) (hy0 : r + (y 0).val = (k 0).val) (hy1 : (y 1).val = (k 1).val) :
    ((oM.access (Rect.unit (s := S2048x512) off S1024x512.size inb)).write (Elt F) fd w Finset.univ) k = w y := by
  subst h
  have he : (oM.access (Rect.unit (s := S2048x512) ![r, 0] S1024x512.size inb)).emb y = k := by
    funext a
    apply Fin.ext
    fin_cases a
    · show r + 1 * (y 0).val = (k 0).val
      omega
    · show 0 + 1 * (y 1).val = (k 1).val
      omega
  have hwr := View.write_emb_of_mem (v := (oM.access (Rect.unit (s := S2048x512) ![r, 0] S1024x512.size inb))) (Val := Elt F) fd w (M := Finset.univ) (x := y) (Finset.mem_univ _)
  rw [he] at hwr
  rw [hwr]
  rfl

theorem baccess_write_apply {off : Fin 2 → ℕ} {inb} (r : ℕ) (h : off = ![r, 0]) (fd : (cc0_scratch0 : Ref sig .tc).ty.Contents (Elt F))
    (w : S64x512.Idx → Elt F .bf16) (k : S512x512.Idx) (y : S64x512.Idx) (hy0 : r + (y 0).val = (k 0).val) (hy1 : (y 1).val = (k 1).val) :
    ((bM.access (Rect.unit (s := S512x512) off S64x512.size inb)).write (Elt F) fd w Finset.univ) k = w y := by
  subst h
  have he : (bM.access (Rect.unit (s := S512x512) ![r, 0] S64x512.size inb)).emb y = k := by
    funext a
    apply Fin.ext
    fin_cases a
    · show r + 1 * (y 0).val = (k 0).val
      omega
    · show 0 + 1 * (y 1).val = (k 1).val
      omega
  have hwr := View.write_emb_of_mem (v := (bM.access (Rect.unit (s := S512x512) ![r, 0] S64x512.size inb))) (Val := Elt F) fd w (M := Finset.univ) (x := y) (Finset.mem_univ _)
  rw [he] at hwr
  rw [hwr]
  rfl

theorem stage_eq (c : Dev nD) (j : Fin 8) (f : (cc0_scratch0 : Ref sig .tc).ty.Contents (Elt F)) (off : Fin 2 → ℕ) (inb) (hoff : off = ![64 * j.val, 0])
    (w : Vec F S64x512 .bf16) (hw : ∀ y : S64x512.Idx, w y = cvt (xAt m c (srow c (64 * j.val) + (y 0).val) (512 * qc c + (y 1).val))) :
    (bPts c (brows (64 * j.val) 64) ((bM.access (Rect.unit (s := S512x512) off S64x512.size inb)).write (Elt F) f w Finset.univ) : sProp 𝕄)
      = bPts c (brows (64 * j.val) 64) (sendF m c) := by
  unfold bPts
  refine pointsTo_congr ?_
  intro k hk
  rw [mem_brows] at hk
  have hk1 : (k 1).val < 512 := (k 1).isLt
  have hj : j.val < 8 := j.isLt
  have hlt : (k 0).val - 64 * j.val < 64 := by omega
  obtain ⟨y, hy0, hy1⟩ : ∃ y : S64x512.Idx, 64 * j.val + (y 0).val = (k 0).val ∧ (y 1).val = (k 1).val :=
    ⟨Shape.pair (⟨(k 0).val - 64 * j.val, hlt⟩ : Fin 64) (⟨(k 1).val, hk1⟩ : Fin 512), by show 64 * j.val + ((k 0).val - 64 * j.val) = (k 0).val; omega, rfl⟩
  rw [baccess_write_apply (64 * j.val) hoff f w k y hy0 hy1, hw y]
  unfold sendF
  show cvt (xAt m c (srow c (64 * j.val) + (y 0).val) (512 * qc c + (y 1).val)) = cvt (xAt m c (srow c (k 0).val) (512 * qc c + (k 1).val))
  rw [hy1, ← hy0]
  congr 2
  have hy : (y 0).val < 64 := (y 0).isLt
  unfold srow
  split <;> split <;> omega

theorem local_eq (c : Dev nD) (f : (cc0_stg1_0 : Ref sig .tc).ty.Contents (Elt F)) (off : Fin 2 → ℕ) (inb) (hoff : off = ![1024 * pc c, 0])
    (w : Vec F S1024x512 .bf16) (hw : ∀ y : S1024x512.Idx, w y = cvt (xAt m c (y 0).val (512 * pc c + (y 1).val))) :
    (oPts c (rows (1024 * pc c) 1024) fullShare ((oM.access (Rect.unit (s := S2048x512) off S1024x512.size inb)).write (Elt F) f w Finset.univ) : sProp 𝕄)
      = oPts c (rows (1024 * pc c) 1024) fullShare (outF m c) := by
  unfold oPts
  refine pointsTo_congr ?_
  intro k hk
  rw [mem_rows] at hk
  have hk1 : (k 1).val < 512 := (k 1).isLt
  have hp := pc_lt c
  have hlt : (k 0).val - 1024 * pc c < 1024 := by omega
  obtain ⟨y, hy0, hy1⟩ : ∃ y : S1024x512.Idx, 1024 * pc c + (y 0).val = (k 0).val ∧ (y 1).val = (k 1).val :=
    ⟨Shape.pair (⟨(k 0).val - 1024 * pc c, hlt⟩ : Fin 1024) (⟨(k 1).val, hk1⟩ : Fin 512), by show 1024 * pc c + ((k 0).val - 1024 * pc c) = (k 0).val; omega, rfl⟩
  rw [oaccess_write_apply (1024 * pc c) hoff f w k y hy0 hy1, hw y]
  unfold outF
  show _ = if (k 0).val / 1024 = pc c then cvt (xAt m c ((k 0).val % 1024) (512 * pc c + (k 1).val)) else _
  have hy : (y 0).val < 1024 := (y 0).isLt
  rw [if_pos (by omega), hy1]
  congr 2
  omega

theorem srcDev_pX_gq : ∀ c : Dev nD, srcDev (pX c) (gq c) = c := by decide
theorem srcDev_pX_gq' : ∀ c : Dev nD, srcDev (pX c) (3 - gq c) = c := by decide
theorem srcDev_pY_gq : ∀ c : Dev nD, srcDev (pY c) (gq c) = pX c := by decide
theorem srcDev_pZ_gq : ∀ c : Dev nD, srcDev (pZ c) (gq c) = pX c := by decide
theorem srcDev_self_gq : ∀ c : Dev nD, srcDev c (gq c) = pX c := by decide

theorem oslice_write_apply {off : Fin 2 → ℕ} {inb} (r : ℕ) (h : off = ![r, 0]) (fd : (cc0_stg1_0 : Ref sig .tc).ty.Contents (Elt F))
    (w : S64x512.Idx → Elt F .bf16) (k : S2048x512.Idx) (y : S64x512.Idx) (hy0 : r + (y 0).val = (k 0).val) (hy1 : (y 1).val = (k 1).val) :
    ((oM.slice (Rect.unit (s := S2048x512) off S64x512.size inb) (fun _ => rfl)).view.write (Elt F) fd w Finset.univ) k = w y := by
  subst h
  have he : (oM.slice (Rect.unit (s := S2048x512) ![r, 0] S64x512.size inb) (fun _ => rfl)).view.emb y = k := by
    funext a
    apply Fin.ext
    fin_cases a
    · show r + 1 * (y 0).val = (k 0).val
      omega
    · show 0 + 1 * (y 1).val = (k 1).val
      omega
  have hwr := View.write_emb_of_mem (v := (oM.slice (Rect.unit (s := S2048x512) ![r, 0] S64x512.size inb) (fun _ => rfl)).view) (Val := Elt F) fd w (M := Finset.univ) (x := y) (Finset.mem_univ _)
  rw [he] at hwr
  rw [hwr]
  rfl

theorem oslice_read_apply {off : Fin 2 → ℕ} {inb} (r : ℕ) (h : off = ![r, 0]) (f : (cc0_stg1_0 : Ref sig .tc).ty.Contents (Elt F))
    (k : S2048x512.Idx) (y : S64x512.Idx) (hy0 : r + (y 0).val = (k 0).val) (hy1 : (y 1).val = (k 1).val) :
    ((oM.slice (Rect.unit (s := S2048x512) off S64x512.size inb) (fun _ => rfl)).view.read (Elt F) f) y = f k := by
  subst h
  have he : (oM.slice (Rect.unit (s := S2048x512) ![r, 0] S64x512.size inb) (fun _ => rfl)).view.emb y = k := by
    funext a
    apply Fin.ext
    fin_cases a
    · show r + 1 * (y 0).val = (k 0).val
      omega
    · show 0 + 1 * (y 1).val = (k 1).val
      omega
  rw [View.read_apply, he]
  rfl

theorem bslice_read_apply (j : Fin 8) (f : (cc0_scratch0 : Ref sig .tc).ty.Contents (Elt F))
    (k : S512x512.Idx) (y : S64x512.Idx) (hy0 : 64 * j.val + (y 0).val = (k 0).val) (hy1 : (y 1).val = (k 1).val) :
    ((bS j).view.read (Elt F) f) y = f k := by
  have he : (bS j).view.emb y = k := by
    funext a
    apply Fin.ext
    fin_cases a
    · show 64 * j.val + 1 * (y 0).val = (k 0).val
      omega
    · show 0 + 1 * (y 1).val = (k 1).val
      omega
  rw [View.read_apply, he]
  rfl

theorem outF_fw (c d : Dev nD) (hpc : pc d = pc c) (hsrc : srcDev d (gq c) = pX c) (i : Fin 4) (k : S2048x512.Idx)
    (hk : k ∈ rows (1024 * qc c + 256 * gq c + 64 * i.val) 64) : outF m c k = outF m d k := by
  rw [mem_rows] at hk
  have hp := pc_lt c
  have hg := gq_lt c
  have hi : i.val < 4 := i.isLt
  have hq : qc c = 1 - pc c := rfl
  have e1 : (k 0).val / 1024 = qc c := by omega
  have e3 : ((k 0).val % 1024) / 256 = gq c := by omega
  unfold outF
  show (if (k 0).val / 1024 = pc c then _ else cvt (xAt m (srcDev c (((k 0).val % 1024) / 256)) ((k 0).val % 1024) (512 * pc c + (k 1).val)))
    = if (k 0).val / 1024 = pc d then _ else cvt (xAt m (srcDev d (((k 0).val % 1024) / 256)) ((k 0).val % 1024) (512 * pc d + (k 1).val))
  rw [if_neg (by omega), if_neg (by rw [hpc]; omega), e3, srcDev_self_gq, hsrc, hpc]

/-- Forwarder and neighbour share p and, on the forwarded rows, the source device: their final contents agree there. -/
theorem landFw (c d : Dev nD) (hpc : pc d = pc c) (hsrc : srcDev d (gq c) = pX c) (i : Fin 4) (fd : Buf (Elt F) ((oFw c i).view.loc (d : Thread nD τ))) :
    (((oFw c i).view.loc (d : Thread nD τ)) ↦[(oFw c i).view.set]{fullShare}
        ((oFw c i).view.write (Elt F) fd ((oFw c i).view.read (Elt F) (outF m c)) Finset.univ) : sProp 𝕄)
      ⊢ oPts d (rows (1024 * qc c + 256 * gq c + 64 * i.val) 64) fullShare (outF m d) := by
  rw [fw_eq c d i fullShare]
  refine Entails.of_eq ?_
  unfold oPts
  refine pointsTo_congr ?_
  intro k hk
  have hk0 := hk
  rw [mem_rows] at hk
  have hk1 : (k 1).val < 512 := (k 1).isLt
  have hlt : (k 0).val - (1024 * qc c + 256 * gq c + 64 * i.val) < 64 := by omega
  obtain ⟨y, hy0, hy1⟩ : ∃ y : S64x512.Idx, (1024 * qc c + 256 * gq c + 64 * i.val) + (y 0).val = (k 0).val ∧ (y 1).val = (k 1).val :=
    ⟨Shape.pair (⟨(k 0).val - (1024 * qc c + 256 * gq c + 64 * i.val), hlt⟩ : Fin 64) (⟨(k 1).val, hk1⟩ : Fin 512),
      by show (1024 * qc c + 256 * gq c + 64 * i.val) + ((k 0).val - (1024 * qc c + 256 * gq c + 64 * i.val)) = (k 0).val; omega, rfl⟩
  have hoff : k0_off19 c (BitVec.ofNat 32 (64 * i.val)) = ![1024 * qc c + 256 * gq c + 64 * i.val, 0] := by
    rw [off19_eq c i]; unfold rowA; rw [Nat.add_assoc]
  rw [oslice_write_apply (1024 * qc c + 256 * gq c + 64 * i.val) hoff fd _ k y hy0 hy1,
    oslice_read_apply (1024 * qc c + 256 * gq c + 64 * i.val) hoff (outF m c) k y hy0 hy1]
  exact outF_fw m c d hpc hsrc i k hk0

theorem land1 (c : Dev nD) (i : Fin 4) (fd : Buf (Elt F) ((oX c i).view.loc (pX c : Thread nD τ))) :
    (((oX c i).view.loc (pX c : Thread nD τ)) ↦[(oX c i).view.set]{fullShare}
        ((oX c i).view.write (Elt F) fd ((bS (chA i)).view.read (Elt F) (sendF m c)) Finset.univ) : sProp 𝕄) ⊢ pay m (pX c) 1 i := by
  rw [dst1_eq c i]
  show _ ⊢ oPts (pX c) (rows (1024 * qc (pX c) + rowA (pX c) i) 64) fullShare (outF m (pX c))
  have hp := pc_lt c
  have hg := gq_lt c
  have hi : i.val < 4 := i.isLt
  have hR : 1024 * qc (pX c) + rowA (pX c) i = 1024 * pc c + 256 * gq c + 64 * i.val := by
    rw [qc_eq, pc_pX]; unfold rowA; rw [gq_pX]; omega
  rw [hR]
  refine Entails.of_eq ?_
  unfold oPts
  refine pointsTo_congr ?_
  intro k hk
  rw [mem_rows] at hk
  have hk1 : (k 1).val < 512 := (k 1).isLt
  have hlt : (k 0).val - (1024 * pc c + 256 * gq c + 64 * i.val) < 64 := by omega
  obtain ⟨y, hy0, hy1⟩ : ∃ y : S64x512.Idx, (1024 * pc c + 256 * gq c + 64 * i.val) + (y 0).val = (k 0).val ∧ (y 1).val = (k 1).val :=
    ⟨Shape.pair (⟨(k 0).val - (1024 * pc c + 256 * gq c + 64 * i.val), hlt⟩ : Fin 64) (⟨(k 1).val, hk1⟩ : Fin 512),
      by show (1024 * pc c + 256 * gq c + 64 * i.val) + ((k 0).val - (1024 * pc c + 256 * gq c + 64 * i.val)) = (k 0).val; omega, rfl⟩
  have hy : (y 0).val < 64 := (y 0).isLt
  have hoff : k0_off3 c (BitVec.ofNat 32 (64 * i.val)) = ![1024 * pc c + 256 * gq c + 64 * i.val, 0] := by
    rw [off3_eq c i]; unfold rowA; rw [Nat.add_assoc]
  rw [oslice_write_apply (1024 * pc c + 256 * gq c + 64 * i.val) hoff fd _ k y hy0 hy1]
  have hk' : 64 * i.val + (y 0).val < 512 := by omega
  rw [bslice_read_apply (chA i) (sendF m c) (Shape.pair (⟨64 * i.val + (y 0).val, hk'⟩ : Fin 512) (⟨(k 1).val, hk1⟩ : Fin 512)) y rfl hy1]
  unfold sendF outF
  show cvt (xAt m c (srow c (64 * i.val + (y 0).val)) (512 * qc c + (k 1).val))
    = if (k 0).val / 1024 = pc (pX c) then _ else cvt (xAt m (srcDev (pX c) (((k 0).val % 1024) / 256)) ((k 0).val % 1024) (512 * pc (pX c) + (k 1).val))
  have e1 : (k 0).val / 1024 = pc c := by omega
  have e3 : ((k 0).val % 1024) / 256 = gq c := by omega
  rw [if_neg (by rw [e1, pc_pX]; omega), e3, srcDev_pX_gq, pc_pX, qc_eq]
  congr 2
  unfold srow
  rw [if_pos (by omega)]
  omega
theorem land1b (c : Dev nD) (i : Fin 4) (fd : Buf (Elt F) ((oXb c i).view.loc (pX c : Thread nD τ))) :
    (((oXb c i).view.loc (pX c : Thread nD τ)) ↦[(oXb c i).view.set]{fullShare}
        ((oXb c i).view.write (Elt F) fd ((bS (chB i)).view.read (Elt F) (sendF m c)) Finset.univ) : sProp 𝕄) ⊢ pay m (pX c) 3 i := by
  rw [dst1b_eq c i]
  show _ ⊢ oPts (pX c) (rows (1024 * qc (pX c) + rowB (pX c) i) 64) fullShare (outF m (pX c))
  have hp := pc_lt c
  have hg := gq_lt c
  have hi : i.val < 4 := i.isLt
  have hR : 1024 * qc (pX c) + rowB (pX c) i = 1024 * pc c + 256 * (3 - gq c) + 64 * i.val := by
    rw [qc_eq, pc_pX]; unfold rowB; rw [gq_pX]; omega
  rw [hR]
  refine Entails.of_eq ?_
  unfold oPts
  refine pointsTo_congr ?_
  intro k hk
  rw [mem_rows] at hk
  have hk1 : (k 1).val < 512 := (k 1).isLt
  have hlt : (k 0).val - (1024 * pc c + 256 * (3 - gq c) + 64 * i.val) < 64 := by omega
  obtain ⟨y, hy0, hy1⟩ : ∃ y : S64x512.Idx, (1024 * pc c + 256 * (3 - gq c) + 64 * i.val) + (y 0).val = (k 0).val ∧ (y 1).val = (k 1).val :=
    ⟨Shape.pair (⟨(k 0).val - (1024 * pc c + 256 * (3 - gq c) + 64 * i.val), hlt⟩ : Fin 64) (⟨(k 1).val, hk1⟩ : Fin 512),
      by show (1024 * pc c + 256 * (3 - gq c) + 64 * i.val) + ((k 0).val - (1024 * pc c + 256 * (3 - gq c) + 64 * i.val)) = (k 0).val; omega, rfl⟩
  have hy : (y 0).val < 64 := (y 0).isLt
  have hoff : k0_off12 c (BitVec.ofNat 32 (64 * i.val)) = ![1024 * pc c + 256 * (3 - gq c) + 64 * i.val, 0] := by
    rw [off12_eq c i]; unfold rowB; rw [Nat.add_assoc]
  rw [oslice_write_apply (1024 * pc c + 256 * (3 - gq c) + 64 * i.val) hoff fd _ k y hy0 hy1]
  have hk' : 64 * (4 + i.val) + (y 0).val < 512 := by omega
  rw [bslice_read_apply (chB i) (sendF m c) (Shape.pair (⟨64 * (4 + i.val) + (y 0).val, hk'⟩ : Fin 512) (⟨(k 1).val, hk1⟩ : Fin 512)) y rfl hy1]
  unfold sendF outF
  show cvt (xAt m c (srow c (64 * (4 + i.val) + (y 0).val)) (512 * qc c + (k 1).val))
    = if (k 0).val / 1024 = pc (pX c) then _ else cvt (xAt m (srcDev (pX c) (((k 0).val % 1024) / 256)) ((k 0).val % 1024) (512 * pc (pX c) + (k 1).val))
  have e1 : (k 0).val / 1024 = pc c := by omega
  have e3 : ((k 0).val % 1024) / 256 = 3 - gq c := by omega
  rw [if_neg (by rw [e1, pc_pX]; omega), e3, srcDev_pX_gq', pc_pX, qc_eq]
  congr 2
  unfold srow
  rw [if_neg (by omega)]
  omega
theorem landY (c : Dev nD) (i : Fin 4) (fd : Buf (Elt F) ((oFw c i).view.loc (pY c : Thread nD τ))) :
    (((oFw c i).view.loc (pY c : Thread nD τ)) ↦[(oFw c i).view.set]{fullShare}
        ((oFw c i).view.write (Elt F) fd ((oFw c i).view.read (Elt F) (outF m c)) Finset.univ) : sProp 𝕄) ⊢ pay m (pY c) 5 i := by
  refine (landFw m c (pY c) (pc_pY c) (srcDev_pY_gq c) i fd).trans (Entails.of_eq ?_)
  show _ = oPts (pY c) (rows (1024 * qc (pY c) + rowA (pY (pY c)) i) 64) fullShare (outF m (pY c))
  rw [pY_pY, qc_eq (pY c), pc_pY, ← qc_eq c]
  unfold rowA
  rw [Nat.add_assoc]
theorem landZ (c : Dev nD) (i : Fin 4) (fd : Buf (Elt F) ((oFw c i).view.loc (pZ c : Thread nD τ))) :
    (((oFw c i).view.loc (pZ c : Thread nD τ)) ↦[(oFw c i).view.set]{fullShare}
        ((oFw c i).view.write (Elt F) fd ((oFw c i).view.read (Elt F) (outF m c)) Finset.univ) : sProp 𝕄) ⊢ pay m (pZ c) 7 i := by
  refine (landFw m c (pZ c) (pc_pZ c) (srcDev_pZ_gq c) i fd).trans (Entails.of_eq ?_)
  show _ = oPts (pZ c) (rows (1024 * qc (pZ c) + rowA (pZ (pZ c)) i) 64) fullShare (outF m (pZ c))
  rw [pZ_pZ, qc_eq (pZ c), pc_pZ, ← qc_eq c]
  unfold rowA
  rw [Nat.add_assoc]

end Cert.KernelProof

end
-- ==== Proof.KernelSteps.lean ====
import proofs.«900647_g7700000000000648_dist_a2a_v7x_xyz2x4x4_x_m1024_n512_bf16_1_alg».proof.Proof.KernelTables
import proofs.«900647_g7700000000000648_dist_a2a_v7x_xyz2x4x4_x_m1024_n512_bf16_1_alg».proof.Proof.KernelLandings

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

local notation "WP" => wp frame (wpE (defs₀ (F := F)) 𝒱₀ _ none) Set.univ

theorem sig_step (c n : Dev nD) (d : Fin 3) {n' : Dev nD} (hn : n' = n) (P : sProp 𝕄) (hP : P ⊢ barPay (F := F) n d)
    (O : CellTallies nD τ sig Unit) {O' : CellTallies nD τ sig Unit} (hO : O' = O + tallyAt (barCell n) () 1) (W : Waits sig Unit)
    {α : Type} {Q : α → sProp 𝕄} {k : PUnit → Prog (TpuEff nD τ sig (Elt F) Λ₀ .tc) α} :
    iprop(records m K ∗ owes (c : Thread nD τ) O' W ∗ dutyTok ER (barCell n) 0 d ∗ P)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS 1) k) Q) := by
  subst hn
  iintro ⟨#Hrec, HO, Htok, HP⟩
  iapply (Rounds.wp_signal 𝒱₀ ER (Rd m) (c : Thread nD τ) none (dst := (n' : Thread nD τ)) (κ := K (n', 0))
      (d := d) (by rw [duties_bar]; exact Finset.mem_univ _) (amount_bar m n' d) () O hO)
  isplitr; · iapply (inv_bar m K n'); iexact Hrec
  isplitl [HO]; · iexact HO
  isplitl [Htok]; · iexact Htok
  isplitl [HP]; · rw [payload_bar]; iapply hP; iexact HP
  iapply (reached_bar m K n'); iexact Hrec

theorem bar_wait (c : Dev nD) (W : Waits sig Unit)
    {α : Type} {Q : α → sProp 𝕄} {k : PUnit → Prog (TpuEff nD τ sig (Elt F) Λ₀ .tc) α} :
    iprop(records m K ∗ levAts L lv ∗ cred (tallyAt (barCell c) () 3) ∗ owes (c : Thread nD τ) (Orem c 3) W ∗ atPos ER (barCell c) 0 ∅ 0)
      ⊢ iprop(((owes (c : Thread nD τ) (Orem c 3) (insert (SemLoc.reg barS, ()) W) ∗ atPos ER (barCell c) 1 ∅ 0
              ∗ ((∃ f, oPts (pX c) (rows (1024 * pc c + 256 * gq c) 256) fullShare f) ∗ ∃ f, oPts (pX c) (rows (1024 * pc c + 256 * (3 - gq c)) 256) fullShare f)
              ∗ (∃ f, oPts (pY c) (rows (1024 * qc c + 256 * gq c) 256) fullShare f) ∗ ∃ f, oPts (pZ c) (rows (1024 * qc c + 256 * gq c) 256) fullShare f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#Hrec, #Hlev, Hc, HO, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := Orem c 3) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

theorem send_gen (c n : Dev nD) (aS aR : Fin 8) (i : Fin 4) {n' : Dev nD} (hn : n' = n)
    {src : Memref sig .tc .vmem S64x512 .bf16} {dst : Memref sig .tc .vmem S64x512 .bf16}
    {sS sR : DmaSem sig} (hsS : sS = dsem aS i) (hsR : sR = dsem aR i)
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    {α : Type} {Q : α → sProp 𝕄} {k : PUnit → Prog (TpuEff nD τ sig (Elt F) Λ₀ .tc) α}
    {q : PosShare TreeShare} (fs : Buf (Elt F) (src.view.loc (c : Thread nD τ))) (fd : Buf (Elt F) (dst.view.loc (n : Thread nD τ)))
    (O : CellTallies nD τ sig Unit) {O' : CellTallies nD τ sig Unit} (hO : O' = O + tallyAt (dCell n aR i) () N) (W : Waits sig Unit)
    (hN : dst.view.dmaCredit = N)
    (hpay₁ : (src.view.loc (c : Thread nD τ) ↦[src.view.set]{q} fs : sProp 𝕄) ⊢ pay m c aS i)
    (hpay₂ : (dst.view.loc (n : Thread nD τ) ↦[dst.view.set]{fullShare} (dst.view.write (Elt F) fd (src.view.read (Elt F) fs) Finset.univ) : sProp 𝕄) ⊢ pay m n aR i) :
    iprop(records m K ∗ (src.view.loc (c : Thread nD τ) ↦[src.view.set]{q} fs) ∗ (dst.view.loc (n : Thread nD τ) ↦[dst.view.set]{fullShare} fd)
        ∗ owes (c : Thread nD τ) O' W ∗ dutyTok ER (dCell c aS i) 0 (0 : Fin 3) ∗ dutyTok ER (dCell n aR i) 0 (0 : Fin 3))
      ⊢ iprop(((cred (tallyAt (dCell c aS i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hn hsS hsR
  iintro ⟨#Hrec, Hs, Hd, HO, Ht1, Ht2⟩
  iapply (Rounds.wp_send_pointsTo 𝒱₀ ER (Rd m) (c : Thread nD τ) none (c' := (n' : Thread nD τ)) (src := src) (dst := dst) (q := q) (fs := fs) (fd := fd)
      (κ₁ := K (c, cidx aS i)) (κ₂ := K (n', cidx aR i)) (r₁ := 0) (r₂ := 0) (d₁ := (0 : Fin 3)) (d₂ := (0 : Fin 3))
      (by rw [duties_d]; exact Finset.mem_singleton_self _) (by rw [duties_d]; exact Finset.mem_singleton_self _)
      () () N ((View.amount_dma _ _).trans hN) (amount_d m c aS i 0) (amount_d m n' aR i 0) O hO (W := W)
      (by rw [payload_d]; exact hpay₁) (by rw [payload_d]; exact hpay₂))
  isplitr; · iapply (inv_d m K c aS i); iexact Hrec
  isplitr; · iapply (inv_d m K n' aR i); iexact Hrec
  isplitl [Hs]; · iexact Hs
  isplitl [Hd]; · iexact Hd
  isplitl [HO]; · iexact HO
  isplitl [Ht1]; · iexact Ht1
  isplitr; · iapply (reached_d m K c aS i); iexact Hrec
  isplitl [Ht2]; · iexact Ht2
  iapply (reached_d m K n' aR i); iexact Hrec

theorem wait_d (c : Dev nD) (a : Fin 8) (i : Fin 4) {s : DmaSem sig} (hs : s = dsem a i)
    {src dst : Memref sig .tc .vmem S64x512 .bf16} {hsrc : src.view.WordExact} {hdst : dst.view.WordExact} (hN : dst.view.dmaCredit = N)
    (O : CellTallies nD τ sig Unit) (W : Waits sig Unit) (hmw : (levAts L lv : sProp 𝕄) ⊢ MayWait (c : Thread nD τ) (.dma (dsem a i)) () O)
    {α : Type} {Q : α → sProp 𝕄} {k : PUnit → Prog (TpuEff nD τ sig (Elt F) Λ₀ .tc) α} :
    iprop(records m K ∗ levAts L lv ∗ cred (tallyAt (dCell c a i) () N) ∗ owes (c : Thread nD τ) O W ∗ atPos ER (dCell c a i) 0 ∅ 0)
      ⊢ iprop(((owes (c : Thread nD τ) O (insert (SemLoc.dma (dsem a i), ()) W) ∗ atPos ER (dCell c a i) 1 ∅ 0 ∗ pay m c a i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#Hrec, #Hlev, Hc, HO, Hat⟩ Hk
  iapply (Rounds.wp_wait_rest_token 𝒱₀ ER (Rd m) (c : Thread nD τ) none (κ := K (c, cidx a i)) (k' := N)
      (fun Kt => (wpE_waitDma2_eq 𝒱₀ (c : Thread nD τ) none Set.univ (src := src) (dst := dst) (hsrc := hsrc) (hdst := hdst) Kt).trans
        (congrArg (fun n => waitSpec (c : Thread nD τ) Set.univ (.dma (dsem a i)) n Kt) hN))
      (Set.mem_univ _) () (O := O) (W := W) (R := 0) (m := 0) (T := ∅)
      (by rw [Nat.zero_add, expect_d])) $$ [Hc HO Hat]
  · isplitr; · iapply (inv_d m K c a i); iexact Hrec
    isplitl [Hc]; · iexact Hc
    isplitl [HO]; · iexact HO
    isplitr; · iapply hmw; iexact Hlev
    iexact Hat
  iintro ⟨HO, Hat, -, Hpay⟩
  ihave Hp := (Entails.of_eq (rest_d m c a i)) $$ Hpay
  iapply Hk
  isplitl [HO]; · iexact HO
  isplitl [Hat]; · iexact Hat
  iexact Hp

theorem close_d (c : Dev nD) (a : Fin 8) (i : Fin 4) :
    iprop(records m K ∗ atPos ER (dCell c a i) 1 ∅ 0) ⊢ (|={Set.univ}=> semVal (dCell c a i) 0 : sProp 𝕄) := by
  iintro ⟨#Hrec, Hat⟩
  iapply (Rounds.cell_close ER (Rd m) (Set.mem_univ (K (c, cidx a i))) (fun h => h) (R := 1) (duties_later m (dCell c a i)))
  isplitr; · iapply (inv_d m K c a i); iexact Hrec
  iexact Hat

end Cert.KernelProof

end
-- ==== Proof.KernelBodyDefs.lean ====
import proofs.«900647_g7700000000000648_dist_a2a_v7x_xyz2x4x4_x_m1024_n512_bf16_1_alg».proof.Proof.KernelSteps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × Fin 33 → ℕ)

def bodyPre (c : Dev nD) : sProp 𝕄 :=
  iprop((ghost m K c ∗ creds c ∗ levAts L lv ∗ ∃ f, bPts c Finset.univ f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outF m c))

end Cert.KernelProof

end
-- ==== Proof.KernelSends.lean ====
import proofs.«900647_g7700000000000648_dist_a2a_v7x_xyz2x4x4_x_m1024_n512_bf16_1_alg».proof.Proof.KernelSteps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

theorem send1 (c : Dev nD) (i : Fin 4) {n' : Dev nD} (hn : n' = pX c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = bS (chA i)) (hd : dst = oX c i) (hsS : sS = dsem 0 i) (hsR : sR = dsem 1 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 64 * i.val) (hrd : rd = 1024 * pc c + 256 * gq c + 64 * i.val) (kk : ℕ) (hkk : kk = 3 + i.val) (W : Waits sig Unit) :
    iprop(records m K ∗ bPts c (brows rs 64) (sendF m c) ∗ oPts (pX c) (rows rd 64) fullShare fd
        ∗ owes (c : Thread nD τ) (Orem c kk) W ∗ dutyTok ER (dCell c 0 i) 0 (0 : Fin 3) ∗ dutyTok ER (dCell (pX c) 1 i) 0 (0 : Fin 3))
      ⊢ iprop(((cred (tallyAt (dCell c 0 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (3 + i.val) = Orem c (3 + i.val + 1) + tallyAt (dCell (pX c) 1 i) () N :=
    Orem_succ c (3 + i.val) _ (by fin_cases i <;> rfl)
  have hpay₁ : (((bS (chA i)).view.loc (c : Thread nD τ)) ↦[(bS (chA i)).view.set]{fullShare} sendF m c : sProp 𝕄) ⊢ pay m c 0 i := by
    rw [src1_eq]; exact Entails.refl _
  have key := send_gen m K c (pX c) 0 1 i hn hsS hsR (src := bS (chA i)) (dst := oX c i) (q := fullShare) (hsc := hsc) (hsrc := hsrc) (hdst := hdst) (hsem := hsem) (Q := Q) (k := k)
    (sendF m c) fd (Orem c (3 + i.val + 1)) hO W rfl hpay₁ (land1 m c i fd)
  rw [src1_eq c i (sendF m c), dst1_eq c i fd] at key
  exact key

theorem send1b (c : Dev nD) (i : Fin 4) {n' : Dev nD} (hn : n' = pX c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = bS (chB i)) (hd : dst = oXb c i) (hsS : sS = dsem 2 i) (hsR : sR = dsem 3 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 256 + 64 * i.val) (hrd : rd = 1024 * pc c + 256 * (3 - gq c) + 64 * i.val) (kk : ℕ) (hkk : kk = 7 + i.val) (W : Waits sig Unit) :
    iprop(records m K ∗ bPts c (brows rs 64) (sendF m c) ∗ oPts (pX c) (rows rd 64) fullShare fd
        ∗ owes (c : Thread nD τ) (Orem c kk) W ∗ dutyTok ER (dCell c 2 i) 0 (0 : Fin 3) ∗ dutyTok ER (dCell (pX c) 3 i) 0 (0 : Fin 3))
      ⊢ iprop(((cred (tallyAt (dCell c 2 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (7 + i.val) = Orem c (7 + i.val + 1) + tallyAt (dCell (pX c) 3 i) () N :=
    Orem_succ c (7 + i.val) _ (by fin_cases i <;> rfl)
  have hpay₁ : (((bS (chB i)).view.loc (c : Thread nD τ)) ↦[(bS (chB i)).view.set]{fullShare} sendF m c : sProp 𝕄) ⊢ pay m c 2 i := by
    rw [src1b_eq]; exact Entails.refl _
  have key := send_gen m K c (pX c) 2 3 i hn hsS hsR (src := bS (chB i)) (dst := oXb c i) (q := fullShare) (hsc := hsc) (hsrc := hsrc) (hdst := hdst) (hsem := hsem) (Q := Q) (k := k)
    (sendF m c) fd (Orem c (7 + i.val + 1)) hO W rfl hpay₁ (land1b m c i fd)
  rw [src1b_eq c i (sendF m c), dst1b_eq c i fd] at key
  exact key

theorem sendY (c : Dev nD) (i : Fin 4) {n' : Dev nD} (hn : n' = pY c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = oFw c i) (hd : dst = oFw c i) (hsS : sS = dsem 4 i) (hsR : sR = dsem 5 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 1024 * qc c + 256 * gq c + 64 * i.val) (hrd : rd = 1024 * qc c + 256 * gq c + 64 * i.val) (kk : ℕ) (hkk : kk = 11 + 2 * i.val) (W : Waits sig Unit) :
    iprop(records m K ∗ oPts c (rows rs 64) fullShare.left (outF m c) ∗ oPts (pY c) (rows rd 64) fullShare fd
        ∗ owes (c : Thread nD τ) (Orem c kk) W ∗ dutyTok ER (dCell c 4 i) 0 (0 : Fin 3) ∗ dutyTok ER (dCell (pY c) 5 i) 0 (0 : Fin 3))
      ⊢ iprop(((cred (tallyAt (dCell c 4 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (11 + 2 * i.val) = Orem c (11 + 2 * i.val + 1) + tallyAt (dCell (pY c) 5 i) () N :=
    Orem_succ c (11 + 2 * i.val) _ (by fin_cases i <;> rfl)
  have hpay₁ : (((oFw c i).view.loc (c : Thread nD τ)) ↦[(oFw c i).view.set]{fullShare.left} outF m c : sProp 𝕄) ⊢ pay m c 4 i := by
    show (((c : Thread nD τ).loc cc0_stg1_0) ↦[(oFw c i).view.set]{fullShare.left} outF m c : sProp 𝕄) ⊢ oPts c (rows (1024 * qc c + rowA c i) 64) fullShare.left (outF m c)
    rw [set_oFw]; exact Entails.refl _
  have key := send_gen m K c (pY c) 4 5 i hn hsS hsR (src := oFw c i) (dst := oFw c i) (q := fullShare.left) (hsc := hsc) (hsrc := hsrc) (hdst := hdst) (hsem := hsem) (Q := Q) (k := k)
    (outF m c) fd (Orem c (11 + 2 * i.val + 1)) hO W rfl hpay₁ (landY m c i fd)
  rw [fw_eq c c i fullShare.left (outF m c), fw_eq c (pY c) i fullShare fd] at key
  exact key

theorem sendZ (c : Dev nD) (i : Fin 4) {n' : Dev nD} (hn : n' = pZ c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = oFw c i) (hd : dst = oFw c i) (hsS : sS = dsem 6 i) (hsR : sR = dsem 7 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 1024 * qc c + 256 * gq c + 64 * i.val) (hrd : rd = 1024 * qc c + 256 * gq c + 64 * i.val) (kk : ℕ) (hkk : kk = 12 + 2 * i.val) (W : Waits sig Unit) :
    iprop(records m K ∗ oPts c (rows rs 64) fullShare.right (outF m c) ∗ oPts (pZ c) (rows rd 64) fullShare fd
        ∗ owes (c : Thread nD τ) (Orem c kk) W ∗ dutyTok ER (dCell c 6 i) 0 (0 : Fin 3) ∗ dutyTok ER (dCell (pZ c) 7 i) 0 (0 : Fin 3))
      ⊢ iprop(((cred (tallyAt (dCell c 6 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (12 + 2 * i.val) = Orem c (12 + 2 * i.val + 1) + tallyAt (dCell (pZ c) 7 i) () N :=
    Orem_succ c (12 + 2 * i.val) _ (by fin_cases i <;> rfl)
  have hpay₁ : (((oFw c i).view.loc (c : Thread nD τ)) ↦[(oFw c i).view.set]{fullShare.right} outF m c : sProp 𝕄) ⊢ pay m c 6 i := by
    show (((c : Thread nD τ).loc cc0_stg1_0) ↦[(oFw c i).view.set]{fullShare.right} outF m c : sProp 𝕄) ⊢ oPts c (rows (1024 * qc c + rowA c i) 64) fullShare.right (outF m c)
    rw [set_oFw]; exact Entails.refl _
  have key := send_gen m K c (pZ c) 6 7 i hn hsS hsR (src := oFw c i) (dst := oFw c i) (q := fullShare.right) (hsc := hsc) (hsrc := hsrc) (hdst := hdst) (hsem := hsem) (Q := Q) (k := k)
    (outF m c) fd (Orem c (12 + 2 * i.val + 1)) hO W rfl hpay₁ (landZ m c i fd)
  rw [fw_eq c c i fullShare.right (outF m c), fw_eq c (pZ c) i fullShare fd] at key
  exact key

end Cert.KernelProof

end
-- ==== Proof.KernelLocal.lean ====
import proofs.«900647_g7700000000000648_dist_a2a_v7x_xyz2x4x4_x_m1024_n512_bf16_1_alg».proof.Proof.KernelSteps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem ite_both {β : Type} (P : Prop) [Decidable P] (a b : β) : a = if ¬ P then a else if P then a else b := by
  by_cases h : P <;> simp [h]

/-- A guarded copy of rows of x into chunk j of the scratch, under a condition that holds exactly when P does: where it runs the chunk ends holding what the partner is sent, elsewhere it is untouched. -/
theorem fill_when (c : Dev nD) (j : Fin 8) {cnd : BitVec 1} (P : Prop) [Decidable P] (hc : cnd = if P then 1#1 else 0#1)
    {offx : Fin 2 → ℕ} {inbx : cnd = 1#1 → ∀ a, offx a + S64x512.size a ≤ S1024x1024.size a} (hoffx : P → offx = ![srow c (64 * j.val), 512 * qc c])
    {offb : Fin 2 → ℕ} {inbb} (hoffb : offb = ![64 * j.val, 0])
    {pw : Vec F S64x512 .f32 → FVec F S64x512 .bf16} (hpw : ∀ v y, pw v y = cvt (v y))
    {hl : ∀ h : cnd = 1#1, (Memref.whole cc0_stg0_0 : Memref sig .tc .vmem S1024x1024 .f32).view.LoadsAt (Rect.unit (s := S1024x1024) offx S64x512.size (inbx h)).toLoadRect} {hl' hx hm}
    {α : Type} {Q : α → sProp 𝕄} {J : Prog (TpuEff nD τ sig (Elt F) Λ₀ .tc) α} (f g : (cc0_scratch0 : Ref sig .tc).ty.Contents (Elt F)) (hg : g = if P then sendF m c else f) :
    iprop((((c : Thread nD τ).loc cc0_stg0_0) ↦{fullShare} xstg m c) ∗ bPts c (brows (64 * j.val) 64) f)
      ⊢ iprop((((((c : Thread nD τ).loc cc0_stg0_0) ↦{fullShare} xstg m c) ∗ bPts c (brows (64 * j.val) 64) g) -∗ wp frame (wpE (defs₀ (F := F)) 𝒱₀ (c : Thread nD τ) none) Set.univ J Q)
          -∗ wp frame (wpE (defs₀ (F := F)) 𝒱₀ (c : Thread nD τ) none) Set.univ
              (if h : cnd = 1#1 then
                .op (.load (Memref.whole cc0_stg0_0) (Rect.unit (s := S1024x1024) offx S64x512.size (inbx h)).toLoadRect (hl h)) fun v =>
                .op (.load (Memref.whole cc0_scratch0) (Rect.unit (s := S512x512) offb S64x512.size inbb).toLoadRect hl') fun _ =>
                .op (.store (Memref.whole cc0_scratch0) (Rect.unit (s := S512x512) offb S64x512.size inbb) (pw v) Finset.univ hx hm) fun _ => J
              else J) Q) := by
  subst hg
  by_cases hP : P
  · obtain rfl : cnd = 1#1 := hc.trans (if_pos hP)
    obtain rfl := hoffx hP
    subst hoffb
    rw [dif_pos rfl, if_pos hP]
    have hw : ∀ y : S64x512.Idx, pw (xM.view.readAt (Elt F) (Rect.unit (s := S1024x1024) ![srow c (64 * j.val), 512 * qc c] S64x512.size (inbx rfl)).toLoadRect (xstg m c)) y
        = cvt (xAt m c (srow c (64 * j.val) + (y 0).val) (512 * qc c + (y 1).val)) := by
      intro y
      rw [hpw, xload_chunk m c _ (inbx rfl) (srow c (64 * j.val)) (512 * qc c) rfl y]
    have hfin := stage_eq m c j f ![64 * j.val, 0] inbb rfl _ hw
    unfold bPts at hfin
    unfold bPts
    iintro ⟨Hx, Hb⟩ Hk
    iapply (wp_load 𝒱₀ (c : Thread nD τ) none Set.univ (m := xM) (Finset.subset_univ _)) $$ Hx; iintro Hx
    iapply (wp_load 𝒱₀ (c : Thread nD τ) none Set.univ (m := bM) (bload_sub j _ inbb rfl)) $$ Hb; iintro Hb
    iapply (wp_store 𝒱₀ (c : Thread nD τ) none Set.univ (m := bM) (Mk := Finset.univ) (bstore_sub j _ inbb rfl)) $$ Hb; iintro Hb
    iapply Hk
    isplitl [Hx]; · iexact Hx
    iapply (Entails.of_eq hfin); iexact Hb
  · obtain rfl : cnd = 0#1 := hc.trans (if_neg hP)
    rw [dif_neg (by decide), if_neg hP]
    iintro H Hk; iapply Hk; iexact H

/-- The guarded store of the local half, likewise: where it runs, the device's own half of the result ends at its final contents. -/
theorem local_when (c : Dev nD) {cnd : BitVec 1} (P : Prop) [Decidable P] (hc : cnd = if P then 1#1 else 0#1)
    {offx : Fin 2 → ℕ} {inbx : cnd = 1#1 → ∀ a, offx a + S1024x512.size a ≤ S1024x1024.size a} (hoffx : P → offx = ![0, 512 * pc c])
    {offo : Fin 2 → ℕ} {inbo} (hoffo : P → offo = ![1024 * pc c, 0])
    {pw : Vec F S1024x512 .f32 → FVec F S1024x512 .bf16} (hpw : ∀ v y, pw v y = cvt (v y))
    {hl : ∀ h : cnd = 1#1, (Memref.whole cc0_stg0_0 : Memref sig .tc .vmem S1024x1024 .f32).view.LoadsAt (Rect.unit (s := S1024x1024) offx S1024x512.size (inbx h)).toLoadRect} {hl' hx hm}
    {α : Type} {Q : α → sProp 𝕄} {J : Prog (TpuEff nD τ sig (Elt F) Λ₀ .tc) α} (f g : (cc0_stg1_0 : Ref sig .tc).ty.Contents (Elt F)) (hg : g = if P then outF m c else f) :
    iprop((((c : Thread nD τ).loc cc0_stg0_0) ↦{fullShare} xstg m c) ∗ oPts c (rows (1024 * pc c) 1024) fullShare f)
      ⊢ iprop((((((c : Thread nD τ).loc cc0_stg0_0) ↦{fullShare} xstg m c) ∗ oPts c (rows (1024 * pc c) 1024) fullShare g) -∗ wp frame (wpE (defs₀ (F := F)) 𝒱₀ (c : Thread nD τ) none) Set.univ J Q)
          -∗ wp frame (wpE (defs₀ (F := F)) 𝒱₀ (c : Thread nD τ) none) Set.univ
              (if h : cnd = 1#1 then
                .op (.load (Memref.whole cc0_stg0_0) (Rect.unit (s := S1024x1024) offx S1024x512.size (inbx h)).toLoadRect (hl h)) fun v =>
                .op (.load (Memref.whole cc0_stg1_0) (Rect.unit (s := S2048x512) offo S1024x512.size inbo).toLoadRect hl') fun _ =>
                .op (.store (Memref.whole cc0_stg1_0) (Rect.unit (s := S2048x512) offo S1024x512.size inbo) (pw v) Finset.univ hx hm) fun _ => J
              else J) Q) := by
  subst hg
  by_cases hP : P
  · obtain rfl : cnd = 1#1 := hc.trans (if_pos hP)
    obtain rfl := hoffx hP
    obtain rfl := hoffo hP
    rw [dif_pos rfl, if_pos hP]
    have hw : ∀ y : S1024x512.Idx, pw (xM.view.readAt (Elt F) (Rect.unit (s := S1024x1024) ![0, 512 * pc c] S1024x512.size (inbx rfl)).toLoadRect (xstg m c)) y
        = cvt (xAt m c (y 0).val (512 * pc c + (y 1).val)) := by
      intro y
      rw [hpw, xload_half m c _ (inbx rfl) (512 * pc c) rfl y]
    have hfin := local_eq m c f ![1024 * pc c, 0] inbo rfl _ hw
    unfold oPts at hfin
    unfold oPts
    iintro ⟨Hx, Ho⟩ Hk
    iapply (wp_load 𝒱₀ (c : Thread nD τ) none Set.univ (m := xM) (Finset.subset_univ _)) $$ Hx; iintro Hx
    iapply (wp_load 𝒱₀ (c : Thread nD τ) none Set.univ (m := oM) (oload_sub (1024 * pc c) _ inbo rfl)) $$ Ho; iintro Ho
    iapply (wp_store 𝒱₀ (c : Thread nD τ) none Set.univ (m := oM) (Mk := Finset.univ) (ostore_sub (1024 * pc c) _ inbo rfl)) $$ Ho; iintro Ho
    iapply Hk
    isplitl [Hx]; · iexact Hx
    iapply (Entails.of_eq hfin); iexact Ho
  · obtain rfl : cnd = 0#1 := hc.trans (if_neg hP)
    rw [dif_neg (by decide), if_neg hP]
    iintro H Hk; iapply Hk; iexact H

end Cert.KernelProof

end
-- ==== Proof.KernelChains.lean ====
import proofs.«900647_g7700000000000648_dist_a2a_v7x_xyz2x4x4_x_m1024_n512_bf16_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem bigSep_4x4 (Φ : Fin 4 → Fin 4 → sProp 𝕄) :
    bigSep Finset.univ (fun bi : Fin 4 × Fin 4 => Φ bi.1 bi.2)
      = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3) ∗ (Φ 3 0 ∗ Φ 3 1 ∗ Φ 3 2 ∗ Φ 3 3)) := by
  rw [bigSep_univ_prod (fun bi : Fin 4 × Fin 4 => Φ bi.1 bi.2), bigSep_fin4]
  simp only [bigSep_fin4]

theorem bigSep_8x4 (Φ : Fin 8 → Fin 4 → sProp 𝕄) :
    bigSep Finset.univ (fun ai : Fin 8 × Fin 4 => Φ ai.1 ai.2)
      = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3) ∗ (Φ 3 0 ∗ Φ 3 1 ∗ Φ 3 2 ∗ Φ 3 3)
        ∗ (Φ 4 0 ∗ Φ 4 1 ∗ Φ 4 2 ∗ Φ 4 3) ∗ (Φ 5 0 ∗ Φ 5 1 ∗ Φ 5 2 ∗ Φ 5 3) ∗ (Φ 6 0 ∗ Φ 6 1 ∗ Φ 6 2 ∗ Φ 6 3) ∗ (Φ 7 0 ∗ Φ 7 1 ∗ Φ 7 2 ∗ Φ 7 3)) := by
  rw [bigSep_univ_prod (fun ai : Fin 8 × Fin 4 => Φ ai.1 ai.2), bigSep_fin8]
  simp only [bigSep_fin4]

theorem posns_eq (c : Dev nD) : (posns (F := F) c : sProp 𝕄)
    = iprop(atPos ER (barCell c) 0 ∅ 0 ∗ (
        (atPos ER (dCell c 0 0) 0 ∅ 0 ∗ atPos ER (dCell c 0 1) 0 ∅ 0 ∗ atPos ER (dCell c 0 2) 0 ∅ 0 ∗ atPos ER (dCell c 0 3) 0 ∅ 0)
      ∗ (atPos ER (dCell c 1 0) 0 ∅ 0 ∗ atPos ER (dCell c 1 1) 0 ∅ 0 ∗ atPos ER (dCell c 1 2) 0 ∅ 0 ∗ atPos ER (dCell c 1 3) 0 ∅ 0)
      ∗ (atPos ER (dCell c 2 0) 0 ∅ 0 ∗ atPos ER (dCell c 2 1) 0 ∅ 0 ∗ atPos ER (dCell c 2 2) 0 ∅ 0 ∗ atPos ER (dCell c 2 3) 0 ∅ 0)
      ∗ (atPos ER (dCell c 3 0) 0 ∅ 0 ∗ atPos ER (dCell c 3 1) 0 ∅ 0 ∗ atPos ER (dCell c 3 2) 0 ∅ 0 ∗ atPos ER (dCell c 3 3) 0 ∅ 0)
      ∗ (atPos ER (dCell c 4 0) 0 ∅ 0 ∗ atPos ER (dCell c 4 1) 0 ∅ 0 ∗ atPos ER (dCell c 4 2) 0 ∅ 0 ∗ atPos ER (dCell c 4 3) 0 ∅ 0)
      ∗ (atPos ER (dCell c 5 0) 0 ∅ 0 ∗ atPos ER (dCell c 5 1) 0 ∅ 0 ∗ atPos ER (dCell c 5 2) 0 ∅ 0 ∗ atPos ER (dCell c 5 3) 0 ∅ 0)
      ∗ (atPos ER (dCell c 6 0) 0 ∅ 0 ∗ atPos ER (dCell c 6 1) 0 ∅ 0 ∗ atPos ER (dCell c 6 2) 0 ∅ 0 ∗ atPos ER (dCell c 6 3) 0 ∅ 0)
      ∗ (atPos ER (dCell c 7 0) 0 ∅ 0 ∗ atPos ER (dCell c 7 1) 0 ∅ 0 ∗ atPos ER (dCell c 7 2) 0 ∅ 0 ∗ atPos ER (dCell c 7 3) 0 ∅ 0))) := by
  unfold posns; rw [bigSep_8x4 (fun a i => (atPos ER (dCell c a i) 0 ∅ 0 : sProp 𝕄))]

theorem payToks_eq (c : Dev nD) : (payToks (F := F) c : sProp 𝕄)
    = iprop(dutyTok ER (barCell (pX c)) 0 (0 : Fin 3) ∗ dutyTok ER (barCell (pY c)) 0 (1 : Fin 3) ∗ dutyTok ER (barCell (pZ c)) 0 (2 : Fin 3) ∗ (
        (dutyTok ER (dCell c 0 0) 0 (0 : Fin 3) ∗ dutyTok ER (dCell c 0 1) 0 (0 : Fin 3) ∗ dutyTok ER (dCell c 0 2) 0 (0 : Fin 3) ∗ dutyTok ER (dCell c 0 3) 0 (0 : Fin 3))
      ∗ (dutyTok ER (dCell (pX c) 1 0) 0 (0 : Fin 3) ∗ dutyTok ER (dCell (pX c) 1 1) 0 (0 : Fin 3) ∗ dutyTok ER (dCell (pX c) 1 2) 0 (0 : Fin 3) ∗ dutyTok ER (dCell (pX c) 1 3) 0 (0 : Fin 3))
      ∗ (dutyTok ER (dCell c 2 0) 0 (0 : Fin 3) ∗ dutyTok ER (dCell c 2 1) 0 (0 : Fin 3) ∗ dutyTok ER (dCell c 2 2) 0 (0 : Fin 3) ∗ dutyTok ER (dCell c 2 3) 0 (0 : Fin 3))
      ∗ (dutyTok ER (dCell (pX c) 3 0) 0 (0 : Fin 3) ∗ dutyTok ER (dCell (pX c) 3 1) 0 (0 : Fin 3) ∗ dutyTok ER (dCell (pX c) 3 2) 0 (0 : Fin 3) ∗ dutyTok ER (dCell (pX c) 3 3) 0 (0 : Fin 3))
      ∗ (dutyTok ER (dCell c 4 0) 0 (0 : Fin 3) ∗ dutyTok ER (dCell c 4 1) 0 (0 : Fin 3) ∗ dutyTok ER (dCell c 4 2) 0 (0 : Fin 3) ∗ dutyTok ER (dCell c 4 3) 0 (0 : Fin 3))
      ∗ (dutyTok ER (dCell (pY c) 5 0) 0 (0 : Fin 3) ∗ dutyTok ER (dCell (pY c) 5 1) 0 (0 : Fin 3) ∗ dutyTok ER (dCell (pY c) 5 2) 0 (0 : Fin 3) ∗ dutyTok ER (dCell (pY c) 5 3) 0 (0 : Fin 3))
      ∗ (dutyTok ER (dCell c 6 0) 0 (0 : Fin 3) ∗ dutyTok ER (dCell c 6 1) 0 (0 : Fin 3) ∗ dutyTok ER (dCell c 6 2) 0 (0 : Fin 3) ∗ dutyTok ER (dCell c 6 3) 0 (0 : Fin 3))
      ∗ (dutyTok ER (dCell (pZ c) 7 0) 0 (0 : Fin 3) ∗ dutyTok ER (dCell (pZ c) 7 1) 0 (0 : Fin 3) ∗ dutyTok ER (dCell (pZ c) 7 2) 0 (0 : Fin 3) ∗ dutyTok ER (dCell (pZ c) 7 3) 0 (0 : Fin 3)))) := by
  unfold payToks; rw [bigSep_8x4 (fun a i => (dutyTok ER (dCell (payee c a) a i) 0 (0 : Fin 3) : sProp 𝕄))]; rfl

theorem creds_eq (c : Dev nD) : (creds (F := F) c : sProp 𝕄)
    = iprop(cred (tallyAt (barCell c) () 3) ∗ (
        (cred (tallyAt (dCell c 1 0) () N) ∗ cred (tallyAt (dCell c 1 1) () N) ∗ cred (tallyAt (dCell c 1 2) () N) ∗ cred (tallyAt (dCell c 1 3) () N))
      ∗ (cred (tallyAt (dCell c 3 0) () N) ∗ cred (tallyAt (dCell c 3 1) () N) ∗ cred (tallyAt (dCell c 3 2) () N) ∗ cred (tallyAt (dCell c 3 3) () N))
      ∗ (cred (tallyAt (dCell c 5 0) () N) ∗ cred (tallyAt (dCell c 5 1) () N) ∗ cred (tallyAt (dCell c 5 2) () N) ∗ cred (tallyAt (dCell c 5 3) () N))
      ∗ (cred (tallyAt (dCell c 7 0) () N) ∗ cred (tallyAt (dCell c 7 1) () N) ∗ cred (tallyAt (dCell c 7 2) () N) ∗ cred (tallyAt (dCell c 7 3) () N)))) := by
  unfold creds; rw [bigSep_4x4 (fun b i => (cred (tallyAt (dCell c ⟨2 * b.val + 1, by omega⟩ i) () N) : sProp 𝕄))]; rfl

end Cert.KernelProof

end
-- ==== Proof.KernelConds.lean ====
import proofs.«900647_g7700000000000648_dist_a2a_v7x_xyz2x4x4_x_m1024_n512_bf16_1_alg».proof.Proof.KernelMesh

set_option Elab.async false

namespace Cert.KernelProof

open Cert.Kernel Cert.Kernel.Gen
open Idealize.ShloMosaic Idealize.SL.Sem

theorem cond17_eq : ∀ c : Dev nD, Scalar.cmpi .ne (Scalar.extui (Scalar.cmpi .eq (Scalar.remsi (Scalar.divsi (Dev.word c) 16#32) 2#32) 0#32) : BitVec 32) 0#32 = condP0 c := by decide +kernel
theorem cond18_eq : ∀ c : Dev nD, Scalar.cmpi .ne (Scalar.extui (Scalar.cmpi .eq (Scalar.remsi (Scalar.divsi (Dev.word c) 16#32) 2#32) 1#32) : BitVec 32) 0#32 = condP1 c := by decide +kernel

end Cert.KernelProof
-- ==== Proof.KernelOffs.lean ====
import proofs.«900647_g7700000000000648_dist_a2a_v7x_xyz2x4x4_x_m1024_n512_bf16_1_alg».proof.Proof.KernelConds
import proofs.«900647_g7700000000000648_dist_a2a_v7x_xyz2x4x4_x_m1024_n512_bf16_1_alg».proof.Proof.KernelPieces
import proofs.«900647_g7700000000000648_dist_a2a_v7x_xyz2x4x4_x_m1024_n512_bf16_1_alg».proof.Proof.KernelTables

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem off1_p0 : ∀ c : Dev nD, c.val < 16 → k0_off1 c = ![srow c (64 * (0 : Fin 8).val), 512 * qc c] := by decide +kernel
theorem off2_p1 : ∀ c : Dev nD, ¬ c.val < 16 → k0_off2 c = ![srow c (64 * (0 : Fin 8).val), 512 * qc c] := by decide +kernel
theorem off4_p0 : ∀ c : Dev nD, c.val < 16 → k0_off4 c = ![srow c (64 * (1 : Fin 8).val), 512 * qc c] := by decide +kernel
theorem off5_p1 : ∀ c : Dev nD, ¬ c.val < 16 → k0_off5 c = ![srow c (64 * (1 : Fin 8).val), 512 * qc c] := by decide +kernel
theorem off6_p0 : ∀ c : Dev nD, c.val < 16 → k0_off6 c = ![srow c (64 * (2 : Fin 8).val), 512 * qc c] := by decide +kernel
theorem off7_p1 : ∀ c : Dev nD, ¬ c.val < 16 → k0_off7 c = ![srow c (64 * (2 : Fin 8).val), 512 * qc c] := by decide +kernel
theorem off8_p0 : ∀ c : Dev nD, c.val < 16 → k0_off8 c = ![srow c (64 * (3 : Fin 8).val), 512 * qc c] := by decide +kernel
theorem off9_p1 : ∀ c : Dev nD, ¬ c.val < 16 → k0_off9 c = ![srow c (64 * (3 : Fin 8).val), 512 * qc c] := by decide +kernel
theorem off10_p0 : ∀ c : Dev nD, c.val < 16 → k0_off10 c = ![srow c (64 * (4 : Fin 8).val), 512 * qc c] := by decide +kernel
theorem off11_p1 : ∀ c : Dev nD, ¬ c.val < 16 → k0_off11 c = ![srow c (64 * (4 : Fin 8).val), 512 * qc c] := by decide +kernel
theorem off13_p0 : ∀ c : Dev nD, c.val < 16 → k0_off13 c = ![srow c (64 * (5 : Fin 8).val), 512 * qc c] := by decide +kernel
theorem off14_p1 : ∀ c : Dev nD, ¬ c.val < 16 → k0_off14 c = ![srow c (64 * (5 : Fin 8).val), 512 * qc c] := by decide +kernel
theorem off15_p0 : ∀ c : Dev nD, c.val < 16 → k0_off15 c = ![srow c (64 * (6 : Fin 8).val), 512 * qc c] := by decide +kernel
theorem off16_p1 : ∀ c : Dev nD, ¬ c.val < 16 → k0_off16 c = ![srow c (64 * (6 : Fin 8).val), 512 * qc c] := by decide +kernel
theorem off17_p0 : ∀ c : Dev nD, c.val < 16 → k0_off17 c = ![srow c (64 * (7 : Fin 8).val), 512 * qc c] := by decide +kernel
theorem off18_p1 : ∀ c : Dev nD, ¬ c.val < 16 → k0_off18 c = ![srow c (64 * (7 : Fin 8).val), 512 * qc c] := by decide +kernel

theorem loc_x_p0 : ∀ c : Dev nD, c.val < 16 → (![0, 0] : Fin 2 → ℕ) = ![0, 512 * pc c] := by decide
theorem loc_o_p0 : ∀ c : Dev nD, c.val < 16 → (![0, 0] : Fin 2 → ℕ) = ![1024 * pc c, 0] := by decide
theorem loc_x_p1 : ∀ c : Dev nD, ¬ c.val < 16 → (![0, 512] : Fin 2 → ℕ) = ![0, 512 * pc c] := by decide
theorem loc_o_p1 : ∀ c : Dev nD, ¬ c.val < 16 → (![1024, 0] : Fin 2 → ℕ) = ![1024 * pc c, 0] := by decide

theorem mayWait_done (c : Dev nD) (s : SemLoc sig) : (levAts L lv : sProp 𝕄) ⊢ MayWait (c : Thread nD τ) s () (Orem c 19) := by
  rw [show Orem c 19 = 0 from rfl, MayWait_zero]; iintro -; iempintro

end Cert.KernelProof

end
-- ==== Proof.KernelFinish.lean ====
import proofs.«900647_g7700000000000648_dist_a2a_v7x_xyz2x4x4_x_m1024_n512_bf16_1_alg».proof.Proof.KernelSteps
import proofs.«900647_g7700000000000648_dist_a2a_v7x_xyz2x4x4_x_m1024_n512_bf16_1_alg».proof.Proof.KernelChains

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

theorem cells_close (c : Dev nD) :
    iprop(records m K ∗ bigSep Finset.univ fun ai : Fin 8 × Fin 4 => atPos ER (dCell c ai.1 ai.2) 1 ∅ 0)
      ⊢ (|={Set.univ}=> bigSep Finset.univ fun ai : Fin 8 × Fin 4 => semVal (dCell c ai.1 ai.2) 0 : sProp 𝕄) :=
  (bigSep_with_persistent (R := records m K) (Ψ := fun ai : Fin 8 × Fin 4 => iprop(|={Set.univ}=> semVal (dCell c ai.1 ai.2) 0))
    fun ai _ => close_d m K c ai.1 ai.2).trans (bigSep_fupd _ _)

theorem scratch_join (c : Dev nD) :
    iprop((pay m c 0 0 ∗ pay m c 0 1 ∗ pay m c 0 2 ∗ pay m c 0 3) ∗ (pay m c 2 0 ∗ pay m c 2 1 ∗ pay m c 2 2 ∗ pay m c 2 3)) ⊢ (bPts c Finset.univ (sendF m c) : sProp 𝕄) := by
  refine BI.Entails.trans ?_ (scratch_split c (sendF m c)).2
  show iprop((bPts c (brows 0 64) (sendF m c) ∗ bPts c (brows 64 64) (sendF m c) ∗ bPts c (brows 128 64) (sendF m c) ∗ bPts c (brows 192 64) (sendF m c))
      ∗ (bPts c (brows 256 64) (sendF m c) ∗ bPts c (brows 320 64) (sendF m c) ∗ bPts c (brows 384 64) (sendF m c) ∗ bPts c (brows 448 64) (sendF m c))) ⊢ _
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem quarter_join (d : Dev nD) (lo : ℕ) (q : PosShare TreeShare) (f : (cc0_stg1_0 : Ref sig .tc).ty.Contents (Elt F)) (r : Fin 4 → ℕ)
    (hr : ∀ i : Fin 4, r i = lo + 64 * i.val) :
    iprop(oPts d (rows (r 0) 64) q f ∗ oPts d (rows (r 1) 64) q f ∗ oPts d (rows (r 2) 64) q f ∗ oPts d (rows (r 3) 64) q f)
      ⊢ (oPts d (rows lo 256) q f : sProp 𝕄) := by
  have h0 : r 0 = lo := by rw [hr 0]; show lo + 64 * 0 = lo; omega
  have h1 : r 1 = lo + 64 := by rw [hr 1]; show lo + 64 * 1 = lo + 64; omega
  have h2 : r 2 = lo + 128 := by rw [hr 2]; show lo + 64 * 2 = lo + 128; omega
  have h3 : r 3 = lo + 192 := by rw [hr 3]; show lo + 64 * 3 = lo + 192; omega
  rw [h0, h1, h2, h3]
  exact (quarter_split d lo q f).2

theorem quarter_g (c : Dev nD) :
    iprop((pay m c 4 0 ∗ pay m c 4 1 ∗ pay m c 4 2 ∗ pay m c 4 3) ∗ (pay m c 6 0 ∗ pay m c 6 1 ∗ pay m c 6 2 ∗ pay m c 6 3)) ⊢ (oPts c (rows (1024 * qc c + 256 * gq c) 256) fullShare (outF m c) : sProp 𝕄) := by
  refine BI.Entails.trans ?_ (quarter_join c (1024 * qc c + 256 * gq c) fullShare (outF m c) (fun i => 1024 * qc c + rowA c i)
    (fun i => by show 1024 * qc c + rowA c i = _; unfold rowA; omega))
  show iprop((oPts c (rows (1024 * qc c + rowA c 0) 64) fullShare.left (outF m c) ∗ oPts c (rows (1024 * qc c + rowA c 1) 64) fullShare.left (outF m c)
        ∗ oPts c (rows (1024 * qc c + rowA c 2) 64) fullShare.left (outF m c) ∗ oPts c (rows (1024 * qc c + rowA c 3) 64) fullShare.left (outF m c))
      ∗ (oPts c (rows (1024 * qc c + rowA c 0) 64) fullShare.right (outF m c) ∗ oPts c (rows (1024 * qc c + rowA c 1) 64) fullShare.right (outF m c)
        ∗ oPts c (rows (1024 * qc c + rowA c 2) 64) fullShare.right (outF m c) ∗ oPts c (rows (1024 * qc c + rowA c 3) 64) fullShare.right (outF m c)))
    ⊢ iprop(oPts c (rows (1024 * qc c + rowA c 0) 64) fullShare (outF m c) ∗ oPts c (rows (1024 * qc c + rowA c 1) 64) fullShare (outF m c)
        ∗ oPts c (rows (1024 * qc c + rowA c 2) 64) fullShare (outF m c) ∗ oPts c (rows (1024 * qc c + rowA c 3) 64) fullShare (outF m c))
  iintro ⟨⟨L0, L1, L2, L3⟩, R0, R1, R2, R3⟩
  isplitl [L0 R0]
  · iapply (oPts_halves c (rows (1024 * qc c + rowA c 0) 64) (outF m c)).2
    isplitl [L0]; · iexact L0
    iexact R0
  isplitl [L1 R1]
  · iapply (oPts_halves c (rows (1024 * qc c + rowA c 1) 64) (outF m c)).2
    isplitl [L1]; · iexact L1
    iexact R1
  isplitl [L2 R2]
  · iapply (oPts_halves c (rows (1024 * qc c + rowA c 2) 64) (outF m c)).2
    isplitl [L2]; · iexact L2
    iexact R2
  · iapply (oPts_halves c (rows (1024 * qc c + rowA c 3) 64) (outF m c)).2
    isplitl [L3]; · iexact L3
    iexact R3

theorem quarter_b (c : Dev nD) :
    iprop(pay m c 3 0 ∗ pay m c 3 1 ∗ pay m c 3 2 ∗ pay m c 3 3) ⊢ (oPts c (rows (1024 * qc c + 256 * (3 - gq c)) 256) fullShare (outF m c) : sProp 𝕄) :=
  quarter_join c (1024 * qc c + 256 * (3 - gq c)) fullShare (outF m c) (fun i => 1024 * qc c + rowB c i)
    (fun i => by show 1024 * qc c + rowB c i = _; unfold rowB; omega)

theorem quarter_y (c : Dev nD) :
    iprop(pay m c 5 0 ∗ pay m c 5 1 ∗ pay m c 5 2 ∗ pay m c 5 3) ⊢ (oPts c (rows (1024 * qc c + 256 * gq (pY c)) 256) fullShare (outF m c) : sProp 𝕄) :=
  quarter_join c (1024 * qc c + 256 * gq (pY c)) fullShare (outF m c) (fun i => 1024 * qc c + rowA (pY c) i)
    (fun i => by show 1024 * qc c + rowA (pY c) i = _; unfold rowA; omega)
theorem quarter_z (c : Dev nD) :
    iprop(pay m c 7 0 ∗ pay m c 7 1 ∗ pay m c 7 2 ∗ pay m c 7 3) ⊢ (oPts c (rows (1024 * qc c + 256 * gq (pZ c)) 256) fullShare (outF m c) : sProp 𝕄) :=
  quarter_join c (1024 * qc c + 256 * gq (pZ c)) fullShare (outF m c) (fun i => 1024 * qc c + rowA (pZ c) i)
    (fun i => by show 1024 * qc c + rowA (pZ c) i = _; unfold rowA; omega)

theorem finish (c : Dev nD) :
    iprop(records m K ∗ (bigSep Finset.univ fun ai : Fin 8 × Fin 4 => atPos ER (dCell c ai.1 ai.2) 1 ∅ 0)
        ∗ ((pay m c 0 0 ∗ pay m c 0 1 ∗ pay m c 0 2 ∗ pay m c 0 3) ∗ (pay m c 2 0 ∗ pay m c 2 1 ∗ pay m c 2 2 ∗ pay m c 2 3) ∗ (pay m c 3 0 ∗ pay m c 3 1 ∗ pay m c 3 2 ∗ pay m c 3 3)
          ∗ (pay m c 4 0 ∗ pay m c 4 1 ∗ pay m c 4 2 ∗ pay m c 4 3) ∗ (pay m c 5 0 ∗ pay m c 5 1 ∗ pay m c 5 2 ∗ pay m c 5 3) ∗ (pay m c 6 0 ∗ pay m c 6 1 ∗ pay m c 6 2 ∗ pay m c 6 3) ∗ (pay m c 7 0 ∗ pay m c 7 1 ∗ pay m c 7 2 ∗ pay m c 7 3))
        ∗ oPts c (rows (1024 * pc c) 1024) fullShare (outF m c))
      ⊢ (|={Set.univ}=> iprop(Φ₁ c ∗ ((((c : Thread nD τ).loc cc0_stg1_0) ↦{fullShare} outF m c))) : sProp 𝕄) := by
  iintro ⟨#Hrec, Hat, ⟨G0, G2, G3, G4, G5, G6, G7⟩, Hloc⟩
  imod (cells_close m K c) $$ [Hat] with Hz
  · isplitr; · iexact Hrec
    iexact Hat
  imodintro
  unfold Φ₁
  isplitl [G0 G2 Hz]
  · isplitl [G0 G2]
    · iexists (sendF m c)
      iapply (scratch_join m c)
      isplitl [G0]; · iexact G0
      iexact G2
    · iexact Hz
  · iapply (out_split c (outF m c)).2
    isplitl [Hloc]; · iexact Hloc
    isplitl [G4 G6]
    · iapply (quarter_g m c)
      isplitl [G4]; · iexact G4
      iexact G6
    isplitl [G3]; · iapply (quarter_b m c); iexact G3
    isplitl [G5]; · iapply (quarter_y m c); iexact G5
    iapply (quarter_z m c); iexact G7

end Cert.KernelProof

end
-- ==== Proof.KernelBodyRun.lean ====
/-
One device's body, stepped in program order from what it starts from to what it hands back.
-/
import proofs.«900647_g7700000000000648_dist_a2a_v7x_xyz2x4x4_x_m1024_n512_bf16_1_alg».proof.Proof.KernelBodyDefs
import proofs.«900647_g7700000000000648_dist_a2a_v7x_xyz2x4x4_x_m1024_n512_bf16_1_alg».proof.Proof.KernelSends
import proofs.«900647_g7700000000000648_dist_a2a_v7x_xyz2x4x4_x_m1024_n512_bf16_1_alg».proof.Proof.KernelLocal
import proofs.«900647_g7700000000000648_dist_a2a_v7x_xyz2x4x4_x_m1024_n512_bf16_1_alg».proof.Proof.KernelChains
import proofs.«900647_g7700000000000648_dist_a2a_v7x_xyz2x4x4_x_m1024_n512_bf16_1_alg».proof.Proof.KernelOffs
import proofs.«900647_g7700000000000648_dist_a2a_v7x_xyz2x4x4_x_m1024_n512_bf16_1_alg».proof.Proof.KernelFinish

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

theorem pay_1 (c : Dev nD) (i : Fin 4) : pay m c 1 i = oPts c (rows (1024 * qc c + rowA c i) 64) fullShare (outF m c) := rfl

set_option maxHeartbeats 16000000 in
set_option maxRecDepth 65536 in
/-- One run for every device: the two guarded copies of each local step are taken together, exactly one of them running. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4 cc0_scratch5 cc0_scratch6 cc0_scratch7 cc0_scratch8) Kt := by
  simp only [cc0_body_eq_skeleton]; unfold cc0_body_skel
  simp only [k0_part19_eq_skeleton]; unfold k0_part19_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [cond1_eq, cond2_eq, cond3_eq, cond4_eq, cond5_eq, cond6_eq, cond7_eq, cond8_eq, cond9_eq, cond10_eq, cond11_eq, cond12_eq, cond13_eq, cond14_eq, cond15_eq, cond16_eq, cond17_eq, cond18_eq,
    semSignalWord, semWaitWord, Prog.lift, Prog.bind_op, Prog.bind_ret, Prog.pure_eq_ret, wp_deviceId, dev1_eq, dev2_eq, dev3_eq]
  unfold bodyPre ghost
  rw [posns_eq, payToks_eq, creds_eq]
  iintro ⟨⟨⟨⟨#HR, ⟨HaB, HaG⟩, HtX, HtY, HtZ, HtG⟩, ⟨HcB, HcG⟩, #Hlev, ⟨%fb, Hb⟩⟩, Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = Orem c 0 from rfl]
  icases (out_split c g1).1 $$ Hout with ⟨HoL, HoA, HoB, HoY, HoZ⟩
  iapply (sig_step m K c (pX c) 0 rfl _ (Entails.of_eq (barPay_X c).symm) (Orem c 1) (Orem_succ c 0 _ rfl) W) $$ [HO HtX HoA HoB]
  · iframe # HO HtX
    isplitl [HoA] <;> iexists g1 <;> iassumption
  iintro HO
  iapply (sig_step m K c (pY c) 1 rfl _ (Entails.of_eq (barPay_Y c).symm) (Orem c 2) (Orem_succ c 1 _ rfl) W) $$ [HO HtY HoY]
  · iframe # HO HtY
    iexists g1; iexact HoY
  iintro HO
  iapply (sig_step m K c (pZ c) 2 rfl _ (Entails.of_eq (barPay_Z c).symm) (Orem c 3) (Orem_succ c 2 _ rfl) W) $$ [HO HtZ HoZ]
  · iframe # HO HtZ
    iexists g1; iexact HoZ
  iintro HO
  iapply (bar_wait m K c W) $$ [HcB HO HaB]
  · iframe # ∗
  iintro ⟨HO, HaB, ⟨⟨%fA, HLA⟩, ⟨%fB, HLB⟩⟩, ⟨%fY, HLY⟩, ⟨%fZ, HLZ⟩⟩
  icases (scratch_split c fb).1 $$ Hb with ⟨Hb0, Hb1, Hb2, Hb3, Hb4, Hb5, Hb6, Hb7⟩
  icases (quarter_split (pX c) _ fullShare fA).1 $$ HLA with ⟨HLA0, HLA1, HLA2, HLA3⟩
  icases HtG with ⟨⟨Ht00, Ht01, Ht02, Ht03⟩, ⟨Ht10, Ht11, Ht12, Ht13⟩, HtG⟩
  rw [wp_bind]
  rw [wp_bind]
  iapply (fill_when m c 0 (c.val < 16) rfl (off1_p0 c) rfl pay1_apply fb _ rfl) $$ [Hx Hb0]
  · iframe
  iintro ⟨Hx, Hb0⟩
  iapply (fill_when m c 0 (¬ c.val < 16) rfl (off2_p1 c) rfl pay1_apply _ _ (ite_both _ _ fb)) $$ [Hx Hb0]
  · iframe
  iintro ⟨Hx, Hb0⟩
  rw [wp_ret]; imodintro
  iapply (send1 m K c 0 (dev4_eq c) rfl rfl (by decide) (by decide) fA _ _ rfl rfl 3 rfl _) $$ [Hb0 HLA0 HO Ht00 Ht10]
  · iframe # ∗
  iintro ⟨Hc00, HO⟩
  rw [wp_bind]
  iapply (fill_when m c 1 (c.val < 16) rfl (off4_p0 c) rfl pay1_apply fb _ rfl) $$ [Hx Hb1]
  · iframe
  iintro ⟨Hx, Hb1⟩
  iapply (fill_when m c 1 (¬ c.val < 16) rfl (off5_p1 c) rfl pay1_apply _ _ (ite_both _ _ fb)) $$ [Hx Hb1]
  · iframe
  iintro ⟨Hx, Hb1⟩
  rw [wp_ret]; imodintro
  iapply (send1 m K c 1 (dev5_eq c) rfl rfl (by decide) (by decide) fA _ _ rfl rfl 4 rfl _) $$ [Hb1 HLA1 HO Ht01 Ht11]
  · iframe # ∗
  iintro ⟨Hc01, HO⟩
  rw [wp_bind]
  iapply (fill_when m c 2 (c.val < 16) rfl (off6_p0 c) rfl pay1_apply fb _ rfl) $$ [Hx Hb2]
  · iframe
  iintro ⟨Hx, Hb2⟩
  iapply (fill_when m c 2 (¬ c.val < 16) rfl (off7_p1 c) rfl pay1_apply _ _ (ite_both _ _ fb)) $$ [Hx Hb2]
  · iframe
  iintro ⟨Hx, Hb2⟩
  iapply (send1 m K c 2 (dev6_eq c) rfl rfl (by decide) (by decide) fA _ _ rfl rfl 5 rfl _) $$ [Hb2 HLA2 HO Ht02 Ht12]
  · iframe # ∗
  iintro ⟨Hc02, HO⟩
  iapply (fill_when m c 3 (c.val < 16) rfl (off8_p0 c) rfl pay1_apply fb _ rfl) $$ [Hx Hb3]
  · iframe
  iintro ⟨Hx, Hb3⟩
  iapply (fill_when m c 3 (¬ c.val < 16) rfl (off9_p1 c) rfl pay1_apply _ _ (ite_both _ _ fb)) $$ [Hx Hb3]
  · iframe
  iintro ⟨Hx, Hb3⟩
  rw [wp_ret]; imodintro
  iapply (send1 m K c 3 (dev7_eq c) rfl rfl (by decide) (by decide) fA _ _ rfl rfl 6 rfl _) $$ [Hb3 HLA3 HO Ht03 Ht13]
  · iframe # ∗
  iintro ⟨Hc03, HO⟩
  icases (quarter_split (pX c) _ fullShare fB).1 $$ HLB with ⟨HLB0, HLB1, HLB2, HLB3⟩
  icases HtG with ⟨⟨Ht20, Ht21, Ht22, Ht23⟩, ⟨Ht30, Ht31, Ht32, Ht33⟩, HtG⟩
  rw [wp_bind]
  iapply (fill_when m c 4 (c.val < 16) rfl (off10_p0 c) rfl pay1_apply fb _ rfl) $$ [Hx Hb4]
  · iframe
  iintro ⟨Hx, Hb4⟩
  iapply (fill_when m c 4 (¬ c.val < 16) rfl (off11_p1 c) rfl pay1_apply _ _ (ite_both _ _ fb)) $$ [Hx Hb4]
  · iframe
  iintro ⟨Hx, Hb4⟩
  rw [wp_ret]; imodintro
  iapply (send1b m K c 0 (dev8_eq c) rfl rfl (by decide) (by decide) fB _ _ rfl rfl 7 rfl _) $$ [Hb4 HLB0 HO Ht20 Ht30]
  · iframe # ∗
  iintro ⟨Hc20, HO⟩
  rw [wp_bind]
  iapply (fill_when m c 5 (c.val < 16) rfl (off13_p0 c) rfl pay1_apply fb _ rfl) $$ [Hx Hb5]
  · iframe
  iintro ⟨Hx, Hb5⟩
  iapply (fill_when m c 5 (¬ c.val < 16) rfl (off14_p1 c) rfl pay1_apply _ _ (ite_both _ _ fb)) $$ [Hx Hb5]
  · iframe
  iintro ⟨Hx, Hb5⟩
  iapply (send1b m K c 1 (dev9_eq c) rfl rfl (by decide) (by decide) fB _ _ rfl rfl 8 rfl _) $$ [Hb5 HLB1 HO Ht21 Ht31]
  · iframe # ∗
  iintro ⟨Hc21, HO⟩
  iapply (fill_when m c 6 (c.val < 16) rfl (off15_p0 c) rfl pay1_apply fb _ rfl) $$ [Hx Hb6]
  · iframe
  iintro ⟨Hx, Hb6⟩
  rw [wp_ret]; imodintro
  rw [wp_bind]
  iapply (fill_when m c 6 (¬ c.val < 16) rfl (off16_p1 c) rfl pay1_apply _ _ (ite_both _ _ fb)) $$ [Hx Hb6]
  · iframe
  iintro ⟨Hx, Hb6⟩
  iapply (send1b m K c 2 (dev10_eq c) rfl rfl (by decide) (by decide) fB _ _ rfl rfl 9 rfl _) $$ [Hb6 HLB2 HO Ht22 Ht32]
  · iframe # ∗
  iintro ⟨Hc22, HO⟩
  iapply (fill_when m c 7 (c.val < 16) rfl (off17_p0 c) rfl pay1_apply fb _ rfl) $$ [Hx Hb7]
  · iframe
  iintro ⟨Hx, Hb7⟩
  iapply (fill_when m c 7 (¬ c.val < 16) rfl (off18_p1 c) rfl pay1_apply _ _ (ite_both _ _ fb)) $$ [Hx Hb7]
  · iframe
  iintro ⟨Hx, Hb7⟩
  rw [wp_ret]; imodintro
  iapply (send1b m K c 3 (dev11_eq c) rfl rfl (by decide) (by decide) fB _ _ rfl rfl 10 rfl _) $$ [Hb7 HLB3 HO Ht23 Ht33]
  · iframe # ∗
  iintro ⟨Hc23, HO⟩
  rw [wp_bind]
  iapply (local_when m c (c.val < 16) rfl (loc_x_p0 c) (loc_o_p0 c) pay17_apply g1 _ rfl) $$ [Hx HoL]
  · iframe
  iintro ⟨Hx, HoL⟩
  iapply (local_when m c (¬ c.val < 16) rfl (loc_x_p1 c) (loc_o_p1 c) pay17_apply _ _ (ite_both _ _ g1)) $$ [Hx HoL]
  · iframe
  iintro ⟨Hx, HoL⟩
  icases (quarter_split (pY c) _ fullShare fY).1 $$ HLY with ⟨HLY0, HLY1, HLY2, HLY3⟩
  icases (quarter_split (pZ c) _ fullShare fZ).1 $$ HLZ with ⟨HLZ0, HLZ1, HLZ2, HLZ3⟩
  icases HtG with ⟨⟨Ht40, Ht41, Ht42, Ht43⟩, ⟨Ht50, Ht51, Ht52, Ht53⟩, ⟨Ht60, Ht61, Ht62, Ht63⟩, ⟨Ht70, Ht71, Ht72, Ht73⟩⟩
  icases HaG with ⟨Ha0, ⟨Ha10, Ha11, Ha12, Ha13⟩, Ha2, ⟨Ha30, Ha31, Ha32, Ha33⟩, HaG⟩
  icases HcG with ⟨⟨Hc10, Hc11, Hc12, Hc13⟩, ⟨Hc30, Hc31, Hc32, Hc33⟩, HcG⟩
  iapply (wait_d m K c 1 0 (dst := oX c 0) (by decide) (by rfl) (Orem c 11) _ (mayWait_recv1 c 0)) $$ [Hc10 HO Ha10]
  · iframe # ∗
  iintro ⟨HO, Ha10, Hp⟩
  rw [wp_ret]; imodintro
  ihave Hp := (Entails.of_eq (pay_1 m c 0)) $$ Hp
  icases (oPts_halves c _ _).1 $$ Hp with ⟨HhL, HhR⟩
  iapply (sendY m K c 0 (dev12_eq c) rfl rfl (by decide) (by decide) fY (1024 * qc c + rowA c 0) _ (by unfold rowA; simp <;> omega) rfl 11 rfl _) $$ [HhL HLY0 HO Ht40 Ht50]
  · iframe # ∗
  iintro ⟨Hc40, HO⟩
  iapply (sendZ m K c 0 (dev13_eq c) rfl rfl (by decide) (by decide) fZ (1024 * qc c + rowA c 0) _ (by unfold rowA; simp <;> omega) rfl 12 rfl _) $$ [HhR HLZ0 HO Ht60 Ht70]
  · iframe # ∗
  iintro ⟨Hc60, HO⟩
  iapply (wait_d m K c 1 1 (dst := oX c 1) (by decide) (by rfl) (Orem c 13) _ (mayWait_recv1 c 1)) $$ [Hc11 HO Ha11]
  · iframe # ∗
  iintro ⟨HO, Ha11, Hp⟩
  ihave Hp := (Entails.of_eq (pay_1 m c 1)) $$ Hp
  icases (oPts_halves c _ _).1 $$ Hp with ⟨HhL, HhR⟩
  iapply (sendY m K c 1 (dev14_eq c) rfl rfl (by decide) (by decide) fY (1024 * qc c + rowA c 1) _ (by unfold rowA; simp <;> omega) rfl 13 rfl _) $$ [HhL HLY1 HO Ht41 Ht51]
  · iframe # ∗
  iintro ⟨Hc41, HO⟩
  iapply (sendZ m K c 1 (dev15_eq c) rfl rfl (by decide) (by decide) fZ (1024 * qc c + rowA c 1) _ (by unfold rowA; simp <;> omega) rfl 14 rfl _) $$ [HhR HLZ1 HO Ht61 Ht71]
  · iframe # ∗
  iintro ⟨Hc61, HO⟩
  iapply (wait_d m K c 1 2 (dst := oX c 2) (by decide) (by rfl) (Orem c 15) _ (mayWait_recv1 c 2)) $$ [Hc12 HO Ha12]
  · iframe # ∗
  iintro ⟨HO, Ha12, Hp⟩
  ihave Hp := (Entails.of_eq (pay_1 m c 2)) $$ Hp
  icases (oPts_halves c _ _).1 $$ Hp with ⟨HhL, HhR⟩
  iapply (sendY m K c 2 (dev16_eq c) rfl rfl (by decide) (by decide) fY (1024 * qc c + rowA c 2) _ (by unfold rowA; simp <;> omega) rfl 15 rfl _) $$ [HhL HLY2 HO Ht42 Ht52]
  · iframe # ∗
  iintro ⟨Hc42, HO⟩
  iapply (sendZ m K c 2 (dev17_eq c) rfl rfl (by decide) (by decide) fZ (1024 * qc c + rowA c 2) _ (by unfold rowA; simp <;> omega) rfl 16 rfl _) $$ [HhR HLZ2 HO Ht62 Ht72]
  · iframe # ∗
  iintro ⟨Hc62, HO⟩
  iapply (wait_d m K c 1 3 (dst := oX c 3) (by decide) (by rfl) (Orem c 17) _ (mayWait_recv1 c 3)) $$ [Hc13 HO Ha13]
  · iframe # ∗
  iintro ⟨HO, Ha13, Hp⟩
  ihave Hp := (Entails.of_eq (pay_1 m c 3)) $$ Hp
  icases (oPts_halves c _ _).1 $$ Hp with ⟨HhL, HhR⟩
  iapply (sendY m K c 3 (dev18_eq c) rfl rfl (by decide) (by decide) fY (1024 * qc c + rowA c 3) _ (by unfold rowA; simp <;> omega) rfl 17 rfl _) $$ [HhL HLY3 HO Ht43 Ht53]
  · iframe # ∗
  iintro ⟨Hc43, HO⟩
  iapply (sendZ m K c 3 (dev19_eq c) rfl rfl (by decide) (by decide) fZ (1024 * qc c + rowA c 3) _ (by unfold rowA; simp <;> omega) rfl 18 rfl _) $$ [HhR HLZ3 HO Ht63 Ht73]
  · iframe # ∗
  iintro ⟨Hc63, HO⟩
  iapply (wait_d m K c 3 0 (dst := oXb c 0) (by decide) (by rfl) (Orem c 19) _ (mayWait_done c _)) $$ [Hc30 HO Ha30]
  · iframe # ∗
  iintro ⟨HO, Ha30, Hp30⟩
  iapply (wait_d m K c 3 1 (dst := oXb c 1) (by decide) (by rfl) (Orem c 19) _ (mayWait_done c _)) $$ [Hc31 HO Ha31]
  · iframe # ∗
  iintro ⟨HO, Ha31, Hp31⟩
  iapply (wait_d m K c 3 2 (dst := oXb c 2) (by decide) (by rfl) (Orem c 19) _ (mayWait_done c _)) $$ [Hc32 HO Ha32]
  · iframe # ∗
  iintro ⟨HO, Ha32, Hp32⟩
  iapply (wait_d m K c 3 3 (dst := oXb c 3) (by decide) (by rfl) (Orem c 19) _ (mayWait_done c _)) $$ [Hc33 HO Ha33]
  · iframe # ∗
  iintro ⟨HO, Ha33, Hp33⟩
  icases Ha0 with ⟨Ha00, Ha01, Ha02, Ha03⟩
  icases Ha2 with ⟨Ha20, Ha21, Ha22, Ha23⟩
  iapply (wait_d m K c 0 0 (dst := bS (chA 0)) (by decide) (by rfl) (Orem c 19) _ (mayWait_done c _)) $$ [Hc00 HO Ha00]
  · iframe # ∗
  iintro ⟨HO, Ha00, Hp00⟩
  iapply (wait_d m K c 2 0 (dst := bS (chB 0)) (by decide) (by rfl) (Orem c 19) _ (mayWait_done c _)) $$ [Hc20 HO Ha20]
  · iframe # ∗
  iintro ⟨HO, Ha20, Hp20⟩
  iapply (wait_d m K c 0 1 (dst := bS (chA 1)) (by decide) (by rfl) (Orem c 19) _ (mayWait_done c _)) $$ [Hc01 HO Ha01]
  · iframe # ∗
  iintro ⟨HO, Ha01, Hp01⟩
  iapply (wait_d m K c 2 1 (dst := bS (chB 1)) (by decide) (by rfl) (Orem c 19) _ (mayWait_done c _)) $$ [Hc21 HO Ha21]
  · iframe # ∗
  iintro ⟨HO, Ha21, Hp21⟩
  iapply (wait_d m K c 0 2 (dst := bS (chA 2)) (by decide) (by rfl) (Orem c 19) _ (mayWait_done c _)) $$ [Hc02 HO Ha02]
  · iframe # ∗
  iintro ⟨HO, Ha02, Hp02⟩
  iapply (wait_d m K c 2 2 (dst := bS (chB 2)) (by decide) (by rfl) (Orem c 19) _ (mayWait_done c _)) $$ [Hc22 HO Ha22]
  · iframe # ∗
  iintro ⟨HO, Ha22, Hp22⟩
  iapply (wait_d m K c 0 3 (dst := bS (chA 3)) (by decide) (by rfl) (Orem c 19) _ (mayWait_done c _)) $$ [Hc03 HO Ha03]
  · iframe # ∗
  iintro ⟨HO, Ha03, Hp03⟩
  iapply (wait_d m K c 2 3 (dst := bS (chB 3)) (by decide) (by rfl) (Orem c 19) _ (mayWait_done c _)) $$ [Hc23 HO Ha23]
  · iframe # ∗
  iintro ⟨HO, Ha23, Hp23⟩
  icases HaG with ⟨⟨Ha40, Ha41, Ha42, Ha43⟩, ⟨Ha50, Ha51, Ha52, Ha53⟩, ⟨Ha60, Ha61, Ha62, Ha63⟩, ⟨Ha70, Ha71, Ha72, Ha73⟩⟩
  icases HcG with ⟨⟨Hc50, Hc51, Hc52, Hc53⟩, ⟨Hc70, Hc71, Hc72, Hc73⟩⟩
  iapply (wait_d m K c 4 0 (dst := oFw c 0) (by decide) (by rfl) (Orem c 19) _ (mayWait_done c _)) $$ [Hc40 HO Ha40]
  · iframe # ∗
  iintro ⟨HO, Ha40, Hp40⟩
  iapply (wait_d m K c 5 0 (dst := oFw c 0) (by decide) (by rfl) (Orem c 19) _ (mayWait_done c _)) $$ [Hc50 HO Ha50]
  · iframe # ∗
  iintro ⟨HO, Ha50, Hp50⟩
  iapply (wait_d m K c 6 0 (dst := oFw c 0) (by decide) (by rfl) (Orem c 19) _ (mayWait_done c _)) $$ [Hc60 HO Ha60]
  · iframe # ∗
  iintro ⟨HO, Ha60, Hp60⟩
  iapply (wait_d m K c 7 0 (dst := oFw c 0) (by decide) (by rfl) (Orem c 19) _ (mayWait_done c _)) $$ [Hc70 HO Ha70]
  · iframe # ∗
  iintro ⟨HO, Ha70, Hp70⟩
  iapply (wait_d m K c 4 1 (dst := oFw c 1) (by decide) (by rfl) (Orem c 19) _ (mayWait_done c _)) $$ [Hc41 HO Ha41]
  · iframe # ∗
  iintro ⟨HO, Ha41, Hp41⟩
  iapply (wait_d m K c 5 1 (dst := oFw c 1) (by decide) (by rfl) (Orem c 19) _ (mayWait_done c _)) $$ [Hc51 HO Ha51]
  · iframe # ∗
  iintro ⟨HO, Ha51, Hp51⟩
  iapply (wait_d m K c 6 1 (dst := oFw c 1) (by decide) (by rfl) (Orem c 19) _ (mayWait_done c _)) $$ [Hc61 HO Ha61]
  · iframe # ∗
  iintro ⟨HO, Ha61, Hp61⟩
  iapply (wait_d m K c 7 1 (dst := oFw c 1) (by decide) (by rfl) (Orem c 19) _ (mayWait_done c _)) $$ [Hc71 HO Ha71]
  · iframe # ∗
  iintro ⟨HO, Ha71, Hp71⟩
  iapply (wait_d m K c 4 2 (dst := oFw c 2) (by decide) (by rfl) (Orem c 19) _ (mayWait_done c _)) $$ [Hc42 HO Ha42]
  · iframe # ∗
  iintro ⟨HO, Ha42, Hp42⟩
  iapply (wait_d m K c 5 2 (dst := oFw c 2) (by decide) (by rfl) (Orem c 19) _ (mayWait_done c _)) $$ [Hc52 HO Ha52]
  · iframe # ∗
  iintro ⟨HO, Ha52, Hp52⟩
  iapply (wait_d m K c 6 2 (dst := oFw c 2) (by decide) (by rfl) (Orem c 19) _ (mayWait_done c _)) $$ [Hc62 HO Ha62]
  · iframe # ∗
  iintro ⟨HO, Ha62, Hp62⟩
  iapply (wait_d m K c 7 2 (dst := oFw c 2) (by decide) (by rfl) (Orem c 19) _ (mayWait_done c _)) $$ [Hc72 HO Ha72]
  · iframe # ∗
  iintro ⟨HO, Ha72, Hp72⟩
  iapply (wait_d m K c 4 3 (dst := oFw c 3) (by decide) (by rfl) (Orem c 19) _ (mayWait_done c _)) $$ [Hc43 HO Ha43]
  · iframe # ∗
  iintro ⟨HO, Ha43, Hp43⟩
  iapply (wait_d m K c 5 3 (dst := oFw c 3) (by decide) (by rfl) (Orem c 19) _ (mayWait_done c _)) $$ [Hc53 HO Ha53]
  · iframe # ∗
  iintro ⟨HO, Ha53, Hp53⟩
  iapply (wait_d m K c 6 3 (dst := oFw c 3) (by decide) (by rfl) (Orem c 19) _ (mayWait_done c _)) $$ [Hc63 HO Ha63]
  · iframe # ∗
  iintro ⟨HO, Ha63, Hp63⟩
  rw [wp_ret]; imodintro
  iapply (wait_d m K c 7 3 (dst := oFw c 3) (by decide) (by rfl) (Orem c 19) _ (mayWait_done c _)) $$ [Hc73 HO Ha73]
  · iframe # ∗
  iintro ⟨HO, Ha73, Hp73⟩
  imod (finish m K c) $$ [-Hk Hx HO HaB] with ⟨HΦ, Hout⟩
  · rw [bigSep_8x4 (fun a i => atPos ER (dCell c a i) 1 ∅ 0)]
    iframe # ∗
  rw [wp_ret]; imodintro
  iapply Hk
  unfold bodyPost Dat.owesAt Pipeline.owesWithin
  rw [show (dats m ρ 0 c).owed t₀.succ = 0 from rfl]
  iframe HΦ
  isplitl [HO]
  · iexists _
    isplitr
    rotate_left
    · iexact HO
    · ipureintro; exact fun _ _ => Or.inl trivial
  isplitl [Hx] <;> (iexists _; isplitr; · (ipureintro; rfl)) <;> iassumption

/-- info: 'Cert.KernelProof.sound_body' depends on axioms: [propext, Classical.choice, Quot.sound] -/
#guard_msgs in #print axioms sound_body

end Cert.KernelProof

end
-- ==== Proof.KernelBody.lean ====
import proofs.«900647_g7700000000000648_dist_a2a_v7x_xyz2x4x4_x_m1024_n512_bf16_1_alg».proof.Proof.KernelBodyRun

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6 cc0_scratch7 cc0_scratch8)
    (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.KernelProof

end
-- ==== Proof.KernelLaunch.lean ====
import proofs.«900647_g7700000000000648_dist_a2a_v7x_xyz2x4x4_x_m1024_n512_bf16_1_alg».proof.Proof.KernelGhost
import proofs.«900647_g7700000000000648_dist_a2a_v7x_xyz2x4x4_x_m1024_n512_bf16_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

omit [FloatOps F] in
theorem bPts_univ (c : Dev nD) (f : Buf (Elt F) ((c : Thread nD τ).loc cc0_scratch0)) :
    bPts c Finset.univ f = (((c : Thread nD τ).loc cc0_scratch0) ↦{fullShare} f : sProp 𝕄) := rfl

omit [FloatOps F] in
theorem launchCred_step (O : Dev nD → CellTallies nD τ sig Unit) (sm : SemLoc sig) (f : Dev nD → Dev nD) (hf : ∀ c, f (f c) = c) (n : ℕ) (c : Dev nD) :
    (Pipeline.launchCred (fun d => O d + tallyAt (((f d) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f f hf hf () n c)

omit [FloatOps F] in
theorem cred_three (g : GSem nD τ sig) :
    (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) by rw [tallyAt_add, tallyAt_add]]
  exact (sep_mono_right (cred_add _ _).2).trans (cred_add _ _).2

omit [FloatOps F] in
theorem O₀_eq : (O₀ : Dev nD → CellTallies nD τ sig Unit) = fun d =>
    0 + tallyAt (dCell (pZ d) 7 3) () N
    + tallyAt (dCell (pY d) 5 3) () N
    + tallyAt (dCell (pZ d) 7 2) () N
    + tallyAt (dCell (pY d) 5 2) () N
    + tallyAt (dCell (pZ d) 7 1) () N
    + tallyAt (dCell (pY d) 5 1) () N
    + tallyAt (dCell (pZ d) 7 0) () N
    + tallyAt (dCell (pY d) 5 0) () N
    + tallyAt (dCell (pX d) 3 3) () N
    + tallyAt (dCell (pX d) 3 2) () N
    + tallyAt (dCell (pX d) 3 1) () N
    + tallyAt (dCell (pX d) 3 0) () N
    + tallyAt (dCell (pX d) 1 3) () N
    + tallyAt (dCell (pX d) 1 2) () N
    + tallyAt (dCell (pX d) 1 1) () N
    + tallyAt (dCell (pX d) 1 0) () N
    + tallyAt (barCell (pZ d)) () 1
    + tallyAt (barCell (pY d)) () 1
    + tallyAt (barCell (pX d)) () 1 := rfl

theorem creds_intro (c : Dev nD) : (Pipeline.launchCred O₀ c : sProp 𝕄) ⊢ creds c := by
  rw [O₀_eq, creds_eq]
  iintro H
  icases (launchCred_step (F := F) _ (.reg barS) pX pX_pX 1 c) $$ H with ⟨H, B0⟩
  icases (launchCred_step (F := F) _ (.reg barS) pY pY_pY 1 c) $$ H with ⟨H, B1⟩
  icases (launchCred_step (F := F) _ (.reg barS) pZ pZ_pZ 1 c) $$ H with ⟨H, B2⟩
  icases (launchCred_step (F := F) _ (.dma (dsem 1 0)) pX pX_pX N c) $$ H with ⟨H, R10⟩
  icases (launchCred_step (F := F) _ (.dma (dsem 1 1)) pX pX_pX N c) $$ H with ⟨H, R11⟩
  icases (launchCred_step (F := F) _ (.dma (dsem 1 2)) pX pX_pX N c) $$ H with ⟨H, R12⟩
  icases (launchCred_step (F := F) _ (.dma (dsem 1 3)) pX pX_pX N c) $$ H with ⟨H, R13⟩
  icases (launchCred_step (F := F) _ (.dma (dsem 3 0)) pX pX_pX N c) $$ H with ⟨H, R30⟩
  icases (launchCred_step (F := F) _ (.dma (dsem 3 1)) pX pX_pX N c) $$ H with ⟨H, R31⟩
  icases (launchCred_step (F := F) _ (.dma (dsem 3 2)) pX pX_pX N c) $$ H with ⟨H, R32⟩
  icases (launchCred_step (F := F) _ (.dma (dsem 3 3)) pX pX_pX N c) $$ H with ⟨H, R33⟩
  icases (launchCred_step (F := F) _ (.dma (dsem 5 0)) pY pY_pY N c) $$ H with ⟨H, R50⟩
  icases (launchCred_step (F := F) _ (.dma (dsem 7 0)) pZ pZ_pZ N c) $$ H with ⟨H, R70⟩
  icases (launchCred_step (F := F) _ (.dma (dsem 5 1)) pY pY_pY N c) $$ H with ⟨H, R51⟩
  icases (launchCred_step (F := F) _ (.dma (dsem 7 1)) pZ pZ_pZ N c) $$ H with ⟨H, R71⟩
  icases (launchCred_step (F := F) _ (.dma (dsem 5 2)) pY pY_pY N c) $$ H with ⟨H, R52⟩
  icases (launchCred_step (F := F) _ (.dma (dsem 7 2)) pZ pZ_pZ N c) $$ H with ⟨H, R72⟩
  icases (launchCred_step (F := F) _ (.dma (dsem 5 3)) pY pY_pY N c) $$ H with ⟨H, R53⟩
  icases (launchCred_step (F := F) _ (.dma (dsem 7 3)) pZ pZ_pZ N c) $$ H with ⟨H, R73⟩
  iclear H
  isplitl [B0 B1 B2]
  · iapply (cred_three (F := F) (barCell c)); iframe
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [bPts_univ]; iexact Hr

omit [FloatOps F] in
theorem osem_at (a : Fin 8) (i : Fin 4) : osem ((finProdFinEquiv : Fin 8 × Fin 4 ≃ Fin 32) (a, i)) = .dma (dsem a i) := by
  refine congrArg SemLoc.dma (Fin.ext ?_)
  show 2 + ((finProdFinEquiv : Fin 8 × Fin 4 ≃ Fin 32) (a, i)).val = 2 + 4 * a.val + i.val
  rw [finProdFinEquiv_apply_val]
  show 2 + (i.val + 4 * a.val) = 2 + 4 * a.val + i.val
  omega

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun ai : Fin 8 × Fin 4 => semVal (dCell c ai.1 ai.2) 0 := by
  unfold Pipeline.ownSems0
  rw [BI.bigSep_univ_equiv (finProdFinEquiv : Fin 8 × Fin 4 ≃ Fin 32)]
  refine bigSep_congr fun ai _ => ?_
  rcases ai with ⟨a, i⟩
  rw [osem_at]

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, Hz⟩
  isplitr; · iempintro
  isplitl [Hz]; · iexact Hz
  iexists f; rw [← bPts_univ]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

theorem finalA_x (c : Dev nD) : finalA m ρ c (0 : Fin 2) = m (win0_0.arr.view.loc (c : Thread nD τ)) :=
  (dats (F := F) m ρ 0 c).arrAt_in (0 : Fin 2) rfl _

theorem finalA_out (c : Dev nD) : finalA m ρ c (1 : Fin 2) = outF m c := by
  have h := (dats (F := F) m ρ 0 c).arrAt_succ (1 : Fin 2) t₀
  rw [flush0_1, if_pos rfl] at h
  have h2 : finalA m ρ c (1 : Fin 2) = (dats m ρ 0 c).arrAt (1 : Fin 2) (t₀.val + 1) := rfl
  rw [h2, h]
  have hr := View.read_write_univ (v := ((cfg0.win 1).blk t₀).view) ((dats m ρ 0 c).arrAt 1 ↑t₀) ((dats m ρ 0 c).flushed 1 t₀)
  refine Eq.trans (Eq.symm ?_) hr
  exact Memref.read_access_unit_zero (Elt F) (main_v1 : Ref sig .tc) (funext fun a => Nat.zero_mul _) _ _

set_option maxRecDepth 8000 in
theorem run_main : θ_run defs (onTc (τ := τ) (main (F := F))) ⟨m, fun _ => 0, ρ⟩ (fun r => ∀ c : Dev nD,
    r.2.mem ((c.tc : Thread nD τ).loc main_v1) = outF m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := fund_all m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 1).trans (finalA_out m ρ c), ((h c).1 0).trans (finalA_x m ρ c)⟩)

/-- info: 'Cert.KernelProof.run_main' depends on axioms: [propext, Classical.choice, Quot.sound] -/
#guard_msgs in #print axioms run_main

end Cert.KernelProof

end
-- ==== Proof.KernelIdealMesh.lean ====
/-
The 2 × 4 × 4 mesh: device d sits at (p, y, z) = (d / 16, (d / 4) % 4, d % 4).
-/
import proofs.«900647_g7700000000000648_dist_a2a_v7x_xyz2x4x4_x_m1024_n512_bf16_1_alg».proof.Proof.Gen.KernelIdeal

set_option Elab.async false

namespace Cert.KernelIdealProof

open Cert.KernelIdeal Cert.KernelIdeal.Gen
open Idealize.ShloMosaic Idealize.SL.Sem

def pc (c : Dev nD) : Nat := c.val / 16
def qc (c : Dev nD) : Nat := 1 - c.val / 16
/-- The quarter 2 (y % 2) + z % 2 a device sends first. -/
def gq (c : Dev nD) : Nat := 2 * ((c.val / 4) % 2) + c.val % 2

/-- The three partners: p flipped, the parity of y flipped, the parity of z flipped. -/
def pX (c : Dev nD) : Dev nD := ⟨(c.val + 16) % 32, Nat.mod_lt _ (by decide)⟩
def pY (c : Dev nD) : Dev nD := ⟨if (c.val / 4) % 2 = 0 then c.val + 4 else c.val - 4, by have : c.val < 32 := c.isLt; show _ < 32; split <;> omega⟩
def pZ (c : Dev nD) : Dev nD := ⟨if c.val % 2 = 0 then c.val + 1 else c.val - 1, by have : c.val < 32 := c.isLt; show _ < 32; split <;> omega⟩

theorem pX_pX : ∀ c : Dev nD, pX (pX c) = c := by decide
theorem pY_pY : ∀ c : Dev nD, pY (pY c) = c := by decide
theorem pZ_pZ : ∀ c : Dev nD, pZ (pZ c) = c := by decide

theorem pc_lt (c : Dev nD) : pc c < 2 := by unfold pc; have : c.val < 32 := c.isLt; omega
theorem gq_lt (c : Dev nD) : gq c < 4 := by unfold gq; omega
theorem qc_eq (c : Dev nD) : qc c = 1 - pc c := rfl

theorem pc_pX : ∀ c : Dev nD, pc (pX c) = 1 - pc c := by decide
theorem pc_pY : ∀ c : Dev nD, pc (pY c) = pc c := by decide
theorem pc_pZ : ∀ c : Dev nD, pc (pZ c) = pc c := by decide
theorem gq_pX : ∀ c : Dev nD, gq (pX c) = gq c := by decide
theorem gq_pY : ∀ c : Dev nD, gq (pY c) = (gq c + 2) % 4 := by decide
theorem gq_pZ : ∀ c : Dev nD, gq (pZ c) = gq c + 1 - 2 * (gq c % 2) := by decide

theorem dev1_eq : ∀ c : Dev nD, (⟨k0_dev1 c, k0_dev1_lt c⟩ : Dev nD) = pX c := by decide +kernel
theorem dev2_eq : ∀ c : Dev nD, (⟨k0_dev2 c, k0_dev2_lt c⟩ : Dev nD) = pY c := by decide +kernel
theorem dev3_eq : ∀ c : Dev nD, (⟨k0_dev3 c, k0_dev3_lt c⟩ : Dev nD) = pZ c := by decide +kernel
theorem dev4_eq : ∀ c : Dev nD, (⟨k0_dev4 c, k0_dev4_lt c⟩ : Dev nD) = pX c := by decide +kernel
theorem dev5_eq : ∀ c : Dev nD, (⟨k0_dev5 c, k0_dev5_lt c⟩ : Dev nD) = pX c := by decide +kernel
theorem dev6_eq : ∀ c : Dev nD, (⟨k0_dev6 c, k0_dev6_lt c⟩ : Dev nD) = pX c := by decide +kernel
theorem dev7_eq : ∀ c : Dev nD, (⟨k0_dev7 c, k0_dev7_lt c⟩ : Dev nD) = pX c := by decide +kernel
theorem dev8_eq : ∀ c : Dev nD, (⟨k0_dev8 c, k0_dev8_lt c⟩ : Dev nD) = pX c := by decide +kernel
theorem dev9_eq : ∀ c : Dev nD, (⟨k0_dev9 c, k0_dev9_lt c⟩ : Dev nD) = pX c := by decide +kernel
theorem dev10_eq : ∀ c : Dev nD, (⟨k0_dev10 c, k0_dev10_lt c⟩ : Dev nD) = pX c := by decide +kernel
theorem dev11_eq : ∀ c : Dev nD, (⟨k0_dev11 c, k0_dev11_lt c⟩ : Dev nD) = pX c := by decide +kernel
theorem dev12_eq : ∀ c : Dev nD, (⟨k0_dev12 c, k0_dev12_lt c⟩ : Dev nD) = pY c := by decide +kernel
theorem dev13_eq : ∀ c : Dev nD, (⟨k0_dev13 c, k0_dev13_lt c⟩ : Dev nD) = pZ c := by decide +kernel
theorem dev14_eq : ∀ c : Dev nD, (⟨k0_dev14 c, k0_dev14_lt c⟩ : Dev nD) = pY c := by decide +kernel
theorem dev15_eq : ∀ c : Dev nD, (⟨k0_dev15 c, k0_dev15_lt c⟩ : Dev nD) = pZ c := by decide +kernel
theorem dev16_eq : ∀ c : Dev nD, (⟨k0_dev16 c, k0_dev16_lt c⟩ : Dev nD) = pY c := by decide +kernel
theorem dev17_eq : ∀ c : Dev nD, (⟨k0_dev17 c, k0_dev17_lt c⟩ : Dev nD) = pZ c := by decide +kernel
theorem dev18_eq : ∀ c : Dev nD, (⟨k0_dev18 c, k0_dev18_lt c⟩ : Dev nD) = pY c := by decide +kernel
theorem dev19_eq : ∀ c : Dev nD, (⟨k0_dev19 c, k0_dev19_lt c⟩ : Dev nD) = pZ c := by decide +kernel

def condP0 (c : Dev nD) : BitVec 1 := if c.val < 16 then 1#1 else 0#1
def condP1 (c : Dev nD) : BitVec 1 := if ¬ c.val < 16 then 1#1 else 0#1

theorem cond1_eq : ∀ c : Dev nD, k0_cond1 c = condP0 c := by decide +kernel
theorem cond2_eq : ∀ c : Dev nD, k0_cond2 c = condP1 c := by decide +kernel
theorem cond3_eq : ∀ c : Dev nD, k0_cond3 c = condP0 c := by decide +kernel
theorem cond4_eq : ∀ c : Dev nD, k0_cond4 c = condP1 c := by decide +kernel
theorem cond5_eq : ∀ c : Dev nD, k0_cond5 c = condP0 c := by decide +kernel
theorem cond6_eq : ∀ c : Dev nD, k0_cond6 c = condP1 c := by decide +kernel
theorem cond7_eq : ∀ c : Dev nD, k0_cond7 c = condP0 c := by decide +kernel
theorem cond8_eq : ∀ c : Dev nD, k0_cond8 c = condP1 c := by decide +kernel
theorem cond9_eq : ∀ c : Dev nD, k0_cond9 c = condP0 c := by decide +kernel
theorem cond10_eq : ∀ c : Dev nD, k0_cond10 c = condP1 c := by decide +kernel
theorem cond11_eq : ∀ c : Dev nD, k0_cond11 c = condP0 c := by decide +kernel
theorem cond12_eq : ∀ c : Dev nD, k0_cond12 c = condP1 c := by decide +kernel
theorem cond13_eq : ∀ c : Dev nD, k0_cond13 c = condP0 c := by decide +kernel
theorem cond14_eq : ∀ c : Dev nD, k0_cond14 c = condP1 c := by decide +kernel
theorem cond15_eq : ∀ c : Dev nD, k0_cond15 c = condP0 c := by decide +kernel
theorem cond16_eq : ∀ c : Dev nD, k0_cond16 c = condP1 c := by decide +kernel

/-- First row, in a device's block of x, of chunk i of the quarter it sends first, and of the other quarter it sends. -/
def rowA (c : Dev nD) (i : Fin 4) : Nat := 256 * gq c + 64 * i.val
def rowB (c : Dev nD) (i : Fin 4) : Nat := 256 * (3 - gq c) + 64 * i.val

theorem off3_eq : ∀ (c : Dev nD) (i : Fin 4), k0_off3 c (BitVec.ofNat 32 (64 * i.val)) = ![1024 * pc c + rowA c i, 0] := by decide +kernel
theorem off12_eq : ∀ (c : Dev nD) (i : Fin 4), k0_off12 c (BitVec.ofNat 32 (64 * i.val)) = ![1024 * pc c + rowB c i, 0] := by decide +kernel
theorem off19_eq : ∀ (c : Dev nD) (i : Fin 4), k0_off19 c (BitVec.ofNat 32 (64 * i.val)) = ![1024 * qc c + rowA c i, 0] := by decide +kernel

end Cert.KernelIdealProof
-- ==== Proof.KernelIdealRegions.lean ====
import proofs.«900647_g7700000000000648_dist_a2a_v7x_xyz2x4x4_x_m1024_n512_bf16_1_alg».proof.Proof.KernelIdealMesh
import Idealize.ShloMosaic.Lib.Pipeline.Launch
import Idealize.ShloMosaic.Lib.Pipeline.Kit

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

abbrev xM : Memref sig .tc .vmem S1024x1024 .f32 := Memref.whole cc0_stg0_0
abbrev oM : Memref sig .tc .vmem S2048x512 .bf16 := Memref.whole cc0_stg1_0
abbrev bM : Memref sig .tc .vmem S512x512 .bf16 := Memref.whole cc0_scratch0

theorem bS_inb (j : Fin 8) : ∀ a, (![64 * j.val, 0] : Fin 2 → Nat) a + S64x512.size a ≤ S512x512.size a := by
  revert j; decide

/-- Chunk j of the scratch: its rows 64 j … 64 j + 63. -/
abbrev bS (j : Fin 8) : Memref sig .tc .vmem S64x512 .bf16 :=
  bM.slice (Rect.unit (s := S512x512) ![64 * j.val, 0] S64x512.size (bS_inb j)) (fun _ => rfl)

abbrev oX (c : Dev nD) (i : Fin 4) : Memref sig .tc .vmem S64x512 .bf16 :=
  oM.slice (Rect.unit (s := S2048x512) (k0_off3 c (BitVec.ofNat 32 (64 * i.val))) S64x512.size (k0_off3_inb c i)) (fun _ => rfl)
abbrev oXb (c : Dev nD) (i : Fin 4) : Memref sig .tc .vmem S64x512 .bf16 :=
  oM.slice (Rect.unit (s := S2048x512) (k0_off12 c (BitVec.ofNat 32 (64 * i.val))) S64x512.size (k0_off12_inb c i)) (fun _ => rfl)
abbrev oFw (c : Dev nD) (i : Fin 4) : Memref sig .tc .vmem S64x512 .bf16 :=
  oM.slice (Rect.unit (s := S2048x512) (k0_off19 c (BitVec.ofNat 32 (64 * i.val))) S64x512.size (k0_off19_inb c i)) (fun _ => rfl)

/-- The elements of the result in rows lo … lo + len - 1. -/
def rows (lo len : Nat) : Finset S2048x512.Idx := Finset.univ.filter fun j => lo ≤ (j 0).val ∧ (j 0).val < lo + len
def brows (lo len : Nat) : Finset S512x512.Idx := Finset.univ.filter fun j => lo ≤ (j 0).val ∧ (j 0).val < lo + len

theorem mem_rows {lo len : Nat} {j : S2048x512.Idx} : j ∈ rows lo len ↔ lo ≤ (j 0).val ∧ (j 0).val < lo + len := by
  unfold rows; rw [Finset.mem_filter]; exact ⟨fun h => h.2, fun h => ⟨Finset.mem_univ _, h⟩⟩
theorem mem_brows {lo len : Nat} {j : S512x512.Idx} : j ∈ brows lo len ↔ lo ≤ (j 0).val ∧ (j 0).val < lo + len := by
  unfold brows; rw [Finset.mem_filter]; exact ⟨fun h => h.2, fun h => ⟨Finset.mem_univ _, h⟩⟩

theorem rows_disjoint {lo len lo' len' : Nat} (h : lo + len ≤ lo' ∨ lo' + len' ≤ lo) : Disjoint (rows lo len) (rows lo' len') := by
  rw [Finset.disjoint_left]; intro j h1 h2; rw [mem_rows] at h1 h2; omega
theorem brows_disjoint {lo len lo' len' : Nat} (h : lo + len ≤ lo' ∨ lo' + len' ≤ lo) : Disjoint (brows lo len) (brows lo' len') := by
  rw [Finset.disjoint_left]; intro j h1 h2; rw [mem_brows] at h1 h2; omega
theorem rows_union {lo a b : Nat} : rows lo a ∪ rows (lo + a) b = rows lo (a + b) := by
  ext j; rw [Finset.mem_union, mem_rows, mem_rows, mem_rows]; omega
theorem brows_union {lo a b : Nat} : brows lo a ∪ brows (lo + a) b = brows lo (a + b) := by
  ext j; rw [Finset.mem_union, mem_brows, mem_brows, mem_brows]; omega
theorem rows_all : rows 0 2048 = Finset.univ := by
  ext j; rw [mem_rows]; exact ⟨fun _ => Finset.mem_univ _, fun _ => ⟨Nat.zero_le _, by have h : (j 0).val < 2048 := (j 0).isLt; omega⟩⟩
theorem brows_all : brows 0 512 = Finset.univ := by
  ext j; rw [mem_brows]; exact ⟨fun _ => Finset.mem_univ _, fun _ => ⟨Nat.zero_le _, by have h : (j 0).val < 512 := (j 0).isLt; omega⟩⟩

theorem set_oslice {off : Fin 2 → Nat} {inb} (r : Nat) (h : off = ![r, 0]) :
    ((oM.slice (Rect.unit (s := S2048x512) off S64x512.size inb) (fun _ => rfl)).view.set : Finset S2048x512.Idx) = rows r 64 := by
  subst h
  refine (View.set_slice_whole (cc0_stg1_0 : Ref sig .tc) _).trans ?_
  ext j
  rw [Rect.mem_set_unit, mem_rows]
  have h1 : (j 1).val < 512 := (j 1).isLt
  exact ⟨fun h => h (0 : Fin 2), fun h0 => (Fin.forall_fin_two (p := fun a : Fin 2 => (![r, 0] : Fin 2 → Nat) a ≤ (j a).val ∧ (j a).val < (![r, 0] : Fin 2 → Nat) a + S64x512.size a)).mpr ⟨h0, Nat.zero_le _, h1⟩⟩

theorem set_bS (j : Fin 8) : ((bS j).view.set : Finset S512x512.Idx) = brows (64 * j.val) 64 := by
  refine (View.set_slice_whole (cc0_scratch0 : Ref sig .tc) _).trans ?_
  ext k
  rw [Rect.mem_set_unit, mem_brows]
  have h1 : (k 1).val < 512 := (k 1).isLt
  exact ⟨fun h => h (0 : Fin 2), fun h0 => (Fin.forall_fin_two (p := fun a : Fin 2 => (![64 * j.val, 0] : Fin 2 → Nat) a ≤ (k a).val ∧ (k a).val < (![64 * j.val, 0] : Fin 2 → Nat) a + S64x512.size a)).mpr ⟨h0, Nat.zero_le _, h1⟩⟩

theorem set_oX (c : Dev nD) (i : Fin 4) : ((oX c i).view.set : Finset S2048x512.Idx) = rows (1024 * pc c + rowA c i) 64 := set_oslice _ (off3_eq c i)
theorem set_oXb (c : Dev nD) (i : Fin 4) : ((oXb c i).view.set : Finset S2048x512.Idx) = rows (1024 * pc c + rowB c i) 64 := set_oslice _ (off12_eq c i)
theorem set_oFw (c : Dev nD) (i : Fin 4) : ((oFw c i).view.set : Finset S2048x512.Idx) = rows (1024 * qc c + rowA c i) 64 := set_oslice _ (off19_eq c i)

variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))

def cvt (v : Elt F .f32) : Elt F .bf16 := (FloatOps.truncf (F := F) .bf16 (by decide) (v : F .f32) : F .bf16)

def xAt (c : Dev nD) (r col : Nat) : Elt F .f32 :=
  xstg m c (Shape.pair (⟨r % 1024, Nat.mod_lt _ (by decide)⟩ : Fin 1024) (⟨col % 1024, Nat.mod_lt _ (by decide)⟩ : Fin 1024))

/-- The row of its block of x a device puts in row r of the scratch: quarter g first, then quarter 3 - g. -/
def srow (c : Dev nD) (r : Nat) : Nat := if r < 256 then 256 * gq c + r else 256 * (3 - gq c) + (r - 256)

/-- The scratch once filled: the column half of x the partner across the first axis keeps. -/
def sendF (c : Dev nD) : (cc0_scratch0 : Ref sig .tc).ty.Contents (Elt F) :=
  fun j => cvt (xAt m c (srow c (j 0).val) (512 * qc c + (j 1).val))

/-- Whose block of x quarter k of the far half comes from. -/
def srcDev (c : Dev nD) (k : Nat) : Dev nD :=
  if k = gq c ∨ k = 3 - gq c then pX c else if k = gq (pY c) then pX (pY c) else pX (pZ c)

/-- The result at the end: row R is row R % 1024 of the block of x of the device at first-axis position R / 1024, the device's own column half. -/
def outF (c : Dev nD) : (cc0_stg1_0 : Ref sig .tc).ty.Contents (Elt F) :=
  fun j => if (j 0).val / 1024 = pc c then cvt (xAt m c ((j 0).val % 1024) (512 * pc c + (j 1).val))
    else cvt (xAt m (srcDev c (((j 0).val % 1024) / 256)) ((j 0).val % 1024) (512 * pc c + (j 1).val))

end Cert.KernelIdealProof

end
-- ==== Proof.KernelIdealProto.lean ====
import proofs.«900647_g7700000000000648_dist_a2a_v7x_xyz2x4x4_x_m1024_n512_bf16_1_alg».proof.Proof.KernelIdealRegions
import proofs.«900647_g7700000000000648_dist_a2a_v7x_xyz2x4x4_x_m1024_n512_bf16_1_alg».proof.Proof.Gen.KernelIdeal.Skeleton
import proofs.«900647_g7700000000000648_dist_a2a_v7x_xyz2x4x4_x_m1024_n512_bf16_1_alg».proof.Proof.Gen.KernelIdeal.Launch
import proofs.«900647_g7700000000000648_dist_a2a_v7x_xyz2x4x4_x_m1024_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

def dsem (a : Fin 8) (i : Fin 4) : DmaSem sig := ⟨2 + 4 * a.val + i.val, by show _ < 34; omega⟩

abbrev barCell (c : Dev nD) : GSem nD τ sig := ((c : Thread nD τ), .reg barS)
abbrev dCell (c : Dev nD) (a : Fin 8) (i : Fin 4) : GSem nD τ sig := ((c : Thread nD τ), .dma (dsem a i))

abbrev osem : Fin 32 → SemLoc sig := fun k => .dma ⟨2 + k.val, by show _ < 34; omega⟩
abbrev csem : Fin 33 → SemLoc sig := fun k => if h : k.val = 0 then .reg barS else .dma ⟨1 + k.val, by show _ < 34; omega⟩
abbrev kcell (ck : Dev nD × Fin 33) : GSem nD τ sig := ((ck.1 : Thread nD τ), csem ck.2)

abbrev N : ℕ := (bS 0).view.dmaCredit
theorem N_pos : 0 < N := View.dmaCredit_pos _ (by decide)

def oPts (c : Dev nD) (S : Finset S2048x512.Idx) (q : PosShare TreeShare) (f : (cc0_stg1_0 : Ref sig .tc).ty.Contents (Elt F)) : sProp 𝕄 :=
  ((c : Thread nD τ).loc cc0_stg1_0) ↦[S]{q} f
def bPts (c : Dev nD) (S : Finset S512x512.Idx) (f : (cc0_scratch0 : Ref sig .tc).ty.Contents (Elt F)) : sProp 𝕄 :=
  ((c : Thread nD τ).loc cc0_scratch0) ↦[S]{fullShare} f

omit [FloatOps F] in
instance oPts_storable (c : Dev nD) (S q f) : BI.Storable (upEmb : UEmb _ 𝕄) (oPts (F := F) c S q f) := by unfold oPts; infer_instance
omit [FloatOps F] in
instance bPts_storable (c : Dev nD) (S f) : BI.Storable (upEmb : UEmb _ 𝕄) (bPts (F := F) c S f) := by unfold bPts; infer_instance

/-- What the one unit of transfer cell (a, i) hands its owner: a send cell the source rows back, a receive cell the landed rows at their final contents. -/
def pay (c : Dev nD) (a : Fin 8) (i : Fin 4) : sProp 𝕄 :=
  match a with
  | 0 => bPts c (brows (64 * i.val) 64) (sendF m c)
  | 1 => oPts c (rows (1024 * qc c + rowA c i) 64) fullShare (outF m c)
  | 2 => bPts c (brows (256 + 64 * i.val) 64) (sendF m c)
  | 3 => oPts c (rows (1024 * qc c + rowB c i) 64) fullShare (outF m c)
  | 4 => oPts c (rows (1024 * qc c + rowA c i) 64) fullShare.left (outF m c)
  | 5 => oPts c (rows (1024 * qc c + rowA (pY c) i) 64) fullShare (outF m c)
  | 6 => oPts c (rows (1024 * qc c + rowA c i) 64) fullShare.right (outF m c)
  | 7 => oPts c (rows (1024 * qc c + rowA (pZ c) i) 64) fullShare (outF m c)

/-- What partner d's unit on c's barrier cell hands c: the rows of the partner's result that c will write. -/
def barPay (c : Dev nD) (d : Fin 3) : sProp 𝕄 :=
  match d with
  | 0 => iprop((∃ f, oPts (pX c) (rows (1024 * pc c + 256 * gq c) 256) fullShare f) ∗ (∃ f, oPts (pX c) (rows (1024 * pc c + 256 * (3 - gq c)) 256) fullShare f))
  | 1 => iprop(∃ f, oPts (pY c) (rows (1024 * qc c + 256 * gq c) 256) fullShare f)
  | 2 => iprop(∃ f, oPts (pZ c) (rows (1024 * qc c + 256 * gq c) 256) fullShare f)

def decode (s : DmaSem sig) : Option (Fin 8 × Fin 4) :=
  if h : 2 ≤ s.val then some (⟨(s.val - 2) / 4, by have : s.val < 34 := s.isLt; omega⟩, ⟨(s.val - 2) % 4, Nat.mod_lt _ (by decide)⟩) else none

theorem decode_dsem (a : Fin 8) (i : Fin 4) : decode (dsem a i) = some (a, i) := by
  unfold decode dsem
  rw [dif_pos (by show 2 ≤ 2 + 4 * a.val + i.val; omega)]
  refine congrArg some (Prod.ext (Fin.ext ?_) (Fin.ext ?_))
  · show (2 + 4 * a.val + i.val - 2) / 4 = a.val; omega
  · show (2 + 4 * a.val + i.val - 2) % 4 = i.val; omega

def Rd : Rounds.Schedule (GSem nD τ sig) (Fin 3) 𝕄 where
  duties g r := if r = 0 ∧ g.1.2 = .tc then
      (match g.2 with
        | .reg s => if s = barS then Finset.univ else ∅
        | .dma s => if 2 ≤ s.val then {0} else ∅)
    else ∅
  amount g _ _ := match g.2 with | .reg _ => 1 | .dma _ => N
  payload g _ d := match g.2 with
    | .reg _ => barPay g.1.1 d
    | .dma s => match decode s with
      | some (a, i) => pay m g.1.1 a i
      | none => iprop(emp)
  amount_pos g _ _ _ := by
    rcases g with ⟨t, s⟩
    cases s with
    | reg s => exact Nat.one_pos
    | dma s => exact N_pos

def payee (c : Dev nD) (a : Fin 8) : Dev nD :=
  match a with
  | 1 => pX c | 3 => pX c | 5 => pY c | 7 => pZ c
  | _ => c

/-- What a device owes, in the order it pays. -/
def dueL (c : Dev nD) : List (CellTallies nD τ sig Unit) :=
  [ tallyAt (barCell (pX c)) () 1, tallyAt (barCell (pY c)) () 1, tallyAt (barCell (pZ c)) () 1,
    tallyAt (dCell (pX c) 1 0) () N, tallyAt (dCell (pX c) 1 1) () N, tallyAt (dCell (pX c) 1 2) () N, tallyAt (dCell (pX c) 1 3) () N,
    tallyAt (dCell (pX c) 3 0) () N, tallyAt (dCell (pX c) 3 1) () N, tallyAt (dCell (pX c) 3 2) () N, tallyAt (dCell (pX c) 3 3) () N,
    tallyAt (dCell (pY c) 5 0) () N, tallyAt (dCell (pZ c) 7 0) () N,
    tallyAt (dCell (pY c) 5 1) () N, tallyAt (dCell (pZ c) 7 1) () N,
    tallyAt (dCell (pY c) 5 2) () N, tallyAt (dCell (pZ c) 7 2) () N,
    tallyAt (dCell (pY c) 5 3) () N, tallyAt (dCell (pZ c) 7 3) () N ]

def Orem (c : Dev nD) (k : ℕ) : CellTallies nD τ sig Unit := ((dueL c).drop k).foldr (fun d acc => acc + d) 0

def O₀ (c : Dev nD) : CellTallies nD τ sig Unit := Orem c 0

def L (g : GSem nD τ sig) : Finset Unit := if g.1.2 = .tc then {()} else ∅

/-- The levels: scratch cells 0, barrier cells 1, receive cells from the first-axis partner 2, forward receive cells 3. -/
def lv (g : GSem nD τ sig) (_ : Unit) : ℕ :=
  match g.2 with
  | .reg _ => 1
  | .dma s => match decode s with
    | some (a, _) => if a = 1 ∨ a = 3 then 2 else if a = 5 ∨ a = 7 then 3 else 0
    | none => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def cidx (a : Fin 8) (i : Fin 4) : Fin 33 := ⟨1 + 4 * a.val + i.val, by omega⟩

def records (K : Dev nD × Fin 33 → ℕ) : sProp 𝕄 :=
  iprop((bigSep Finset.univ fun ck : Dev nD × Fin 33 => cellInv ER (Rd m) (K ck) (kcell ck))
    ∗ bigSep Finset.univ fun ck : Dev nD × Fin 33 => reached ER (kcell ck) 0)

instance records_persistent (K : Dev nD × Fin 33 → ℕ) : BI.Persistent (records m K) := by unfold records; infer_instance

def payToks (c : Dev nD) : sProp 𝕄 :=
  iprop(dutyTok ER (barCell (pX c)) 0 (0 : Fin 3) ∗ dutyTok ER (barCell (pY c)) 0 (1 : Fin 3) ∗ dutyTok ER (barCell (pZ c)) 0 (2 : Fin 3)
    ∗ bigSep Finset.univ fun ai : Fin 8 × Fin 4 => dutyTok ER (dCell (payee c ai.1) ai.1 ai.2) 0 (0 : Fin 3))

def posns (c : Dev nD) : sProp 𝕄 :=
  iprop(atPos ER (barCell c) 0 ∅ 0 ∗ bigSep Finset.univ fun ai : Fin 8 × Fin 4 => atPos ER (dCell c ai.1 ai.2) 0 ∅ 0)

def ghost (K : Dev nD × Fin 33 → ℕ) (c : Dev nD) : sProp 𝕄 := iprop(records m K ∗ posns c ∗ payToks c)

def creds (c : Dev nD) : sProp 𝕄 :=
  iprop(cred (tallyAt (barCell c) () 3)
    ∗ bigSep Finset.univ fun bi : Fin 4 × Fin 4 => cred (tallyAt (dCell c ⟨2 * bi.1.val + 1, by omega⟩ bi.2) () N))

def start (c : Dev nD) : sProp 𝕄 := iprop((∃ K, ghost m K c) ∗ creds c ∗ levAts L lv)

def Φ₀ (c : Dev nD) : sProp 𝕄 := iprop(start m c ∗ ∃ f, bPts c Finset.univ f)
def Φ₁ (c : Dev nD) : sProp 𝕄 := iprop((∃ f, bPts c Finset.univ f) ∗ bigSep Finset.univ fun ai : Fin 8 × Fin 4 => semVal (dCell c ai.1 ai.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.KernelIdealTables.lean ====
import proofs.«900647_g7700000000000648_dist_a2a_v7x_xyz2x4x4_x_m1024_n512_bf16_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD) (a : Fin 8) (i : Fin 4)

theorem duties_bar : (Rd (F := F) m).duties (barCell c) 0 = Finset.univ := by
  dsimp only [Rd]
  show (if (0 : ℕ) = 0 ∧ _ then (if barS = barS then Finset.univ else ∅) else ∅) = _
  rw [if_pos ⟨rfl, rfl⟩, if_pos rfl]
theorem duties_d : (Rd (F := F) m).duties (dCell c a i) 0 = {0} := by
  dsimp only [Rd]
  show (if (0 : ℕ) = 0 ∧ _ then (if 2 ≤ (dsem a i).val then {0} else ∅) else ∅) = _
  rw [if_pos ⟨rfl, rfl⟩, if_pos (by show 2 ≤ 2 + 4 * a.val + i.val; omega)]
theorem duties_later (g : GSem nD τ sig) : ∀ r, 1 ≤ r → (Rd (F := F) m).duties g r = ∅ :=
  fun r hr => by dsimp only [Rd]; rw [if_neg fun h => by have := h.1; omega]
theorem amount_bar (d : Fin 3) : (Rd (F := F) m).amount (barCell c) 0 d = 1 := rfl
theorem amount_d (d : Fin 3) : (Rd (F := F) m).amount (dCell c a i) 0 d = N := rfl
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (Rd (F := F) m).expect (dCell c a i) 0 = N := by
  unfold Schedule.expect Schedule.amountOf; rw [duties_d, Finset.sum_singleton, amount_d]
theorem payload_bar (d : Fin 3) : (Rd (F := F) m).payload (barCell c) 0 d = barPay c d := rfl
theorem payload_d (d : Fin 3) : (Rd (F := F) m).payload (dCell c a i) 0 d = pay m c a i := by
  show (match decode (dsem a i) with | some (a, i) => pay m c a i | none => iprop(emp)) = _
  rw [decode_dsem]

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_d : bigSep ((Rd (F := F) m).duties (dCell c a i) 0 \ ∅) (fun d => (Rd (F := F) m).payload (dCell c a i) 0 d) = pay m c a i := by
  rw [Finset.sdiff_empty, duties_d, bigSep_singleton, payload_d]

instance Rd_payload_storable (g : GSem nD τ sig) (r : ℕ) (d : Fin 3) :
    BI.Storable (upEmb : UEmb _ 𝕄) ((Rd (F := F) m).payload g r d) := by
  rcases g with ⟨t, s⟩
  cases s with
  | reg s =>
    show BI.Storable upEmb (barPay t.1 d)
    unfold barPay
    split <;> infer_instance
  | dma s =>
    show BI.Storable upEmb (match decode s with | some (a, i) => pay m t.1 a i | none => iprop(emp))
    cases decode s with
    | none => show BI.Storable upEmb iprop(emp); infer_instance
    | some ai =>
      show BI.Storable upEmb (pay m t.1 ai.1 ai.2)
      unfold pay
      split <;> infer_instance

end Sched

theorem kcell_bar (c : Dev nD) : kcell (c, (0 : Fin 33)) = barCell c := by
  unfold kcell csem
  exact congrArg (Prod.mk (c : Thread nD τ)) (dif_pos rfl)
theorem kcell_d (c : Dev nD) (a : Fin 8) (i : Fin 4) : kcell (c, cidx a i) = dCell c a i := by
  unfold kcell csem
  refine congrArg (Prod.mk (c : Thread nD τ)) ?_
  rw [dif_neg (by show ¬ (1 + 4 * a.val + i.val = 0); omega)]
  refine congrArg SemLoc.dma (Fin.ext ?_)
  show 1 + (1 + 4 * a.val + i.val) = 2 + 4 * a.val + i.val
  omega
theorem csem_injective : Function.Injective (csem : Fin 33 → SemLoc sig) := by
  intro k k' h
  unfold csem at h
  by_cases hk : k.val = 0 <;> by_cases hk' : k'.val = 0
  · exact Fin.ext (hk.trans hk'.symm)
  · rw [dif_pos hk, dif_neg hk'] at h; cases h
  · rw [dif_neg hk, dif_pos hk'] at h; cases h
  · rw [dif_neg hk, dif_neg hk'] at h
    have h2 : 1 + k.val = 1 + k'.val := congrArg Fin.val (SemLoc.dma.inj h)
    exact Fin.ext (by omega)
theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

theorem inv_at (K : Dev nD × Fin 33 → ℕ) (ck : Dev nD × Fin 33) : records m K ⊢ cellInv ER (Rd m) (K ck) (kcell ck) := by
  have h : (bigSep Finset.univ fun ck : Dev nD × Fin 33 => (cellInv ER (Rd m) (K ck) (kcell ck) : sProp 𝕄)) ⊢ cellInv ER (Rd m) (K ck) (kcell ck) :=
    bigSep_elim (Finset.mem_univ ck)
  unfold records
  iintro ⟨#HI, #HR⟩
  iapply h; iexact HI
theorem reached_at (K : Dev nD × Fin 33 → ℕ) (ck : Dev nD × Fin 33) : records m K ⊢ reached ER (kcell ck) 0 := by
  have h : (bigSep Finset.univ fun ck : Dev nD × Fin 33 => (reached ER (kcell ck) 0 : sProp 𝕄)) ⊢ reached ER (kcell ck) 0 :=
    bigSep_elim (Finset.mem_univ ck)
  unfold records
  iintro ⟨#HI, #HR⟩
  iapply h; iexact HR

theorem inv_bar (K : Dev nD × Fin 33 → ℕ) (d : Dev nD) : records m K ⊢ cellInv ER (Rd m) (K (d, 0)) (barCell d) := by
  have h := inv_at m K (d, (0 : Fin 33))
  rwa [kcell_bar] at h
theorem inv_d (K : Dev nD × Fin 33 → ℕ) (d : Dev nD) (a : Fin 8) (i : Fin 4) : records m K ⊢ cellInv ER (Rd m) (K (d, cidx a i)) (dCell d a i) := by
  have h := inv_at m K (d, cidx a i)
  rwa [kcell_d] at h
theorem reached_bar (K : Dev nD × Fin 33 → ℕ) (d : Dev nD) : records m K ⊢ reached ER (barCell d) 0 := by
  have h := reached_at m K (d, (0 : Fin 33))
  rwa [kcell_bar] at h
theorem reached_d (K : Dev nD × Fin 33 → ℕ) (d : Dev nD) (a : Fin 8) (i : Fin 4) : records m K ⊢ reached ER (dCell d a i) 0 := by
  have h := reached_at m K (d, cidx a i)
  rwa [kcell_d] at h

theorem Orem_succ (c : Dev nD) (k : ℕ) (d : CellTallies nD τ sig Unit) (h : (dueL c)[k]? = some d) : Orem c k = Orem c (k + 1) + d := by
  obtain ⟨hk, hd⟩ := List.getElem?_eq_some_iff.mp h
  unfold Orem
  rw [List.drop_eq_getElem_cons hk, List.foldr_cons, hd]

theorem L_of_ne (g : GSem nD τ sig) (h : g.1.2 ≠ .tc) : L g = ∅ := if_neg h
theorem L_tc (c : Dev nD) (sm : SemLoc sig) : L ((c : Thread nD τ), sm) = {()} := if_pos rfl

theorem Orem_pos (c : Dev nD) (k : ℕ) {g : GSem nD τ sig} {u : Unit} (h : 0 < Orem c k g u) : ∃ d ∈ (dueL c).drop k, 0 < d g u := by
  unfold Orem at h
  generalize (dueL c).drop k = l at h ⊢
  induction l with
  | nil => exact absurd h (Nat.lt_irrefl 0)
  | cons d l ih =>
    rw [List.foldr_cons] at h
    rcases Pipeline.add_pos_cases h with h1 | h1
    · obtain ⟨d', hd', hp⟩ := ih h1
      exact ⟨d', List.mem_cons_of_mem _ hd', hp⟩
    · exact ⟨d, List.mem_cons_self, h1⟩

theorem lv_d (c : Dev nD) (a : Fin 8) (i : Fin 4) : lv (dCell c a i) () = if a = 1 ∨ a = 3 then 2 else if a = 5 ∨ a = 7 then 3 else 0 := by
  show (match decode (dsem a i) with | some (a, _) => (if a = 1 ∨ a = 3 then 2 else if a = 5 ∨ a = 7 then 3 else 0) | none => 0) = _
  rw [decode_dsem]

theorem lv_stage (c : Dev nD) (q : DmaSem sig) (hq : q.val < 2) : lv ((c : Thread nD τ), .dma q) () = 0 := by
  show (match decode q with | some (a, _) => (if a = 1 ∨ a = 3 then 2 else if a = 5 ∨ a = 7 then 3 else 0) | none => 0) = _
  unfold decode
  rw [dif_neg (by omega)]

theorem lv_due0 (c : Dev nD) {d : CellTallies nD τ sig Unit} (hd : d ∈ dueL c) : ∃ g n, d = tallyAt g () n ∧ () ∈ L g ∧ 1 ≤ lv g () := by
  simp only [dueL, List.mem_cons, List.mem_nil_iff, or_false] at hd
  rcases hd with rfl | rfl | rfl | rfl | rfl | rfl | rfl | rfl | rfl | rfl | rfl | rfl | rfl | rfl | rfl | rfl | rfl | rfl | rfl
  all_goals refine ⟨_, _, rfl, by rw [L_tc]; exact Finset.mem_singleton_self _, ?_⟩
  all_goals first | exact Nat.le_refl 1 | (rw [lv_d]; decide)
theorem lv_due3 (c : Dev nD) {d : CellTallies nD τ sig Unit} (hd : d ∈ (dueL c).drop 3) : ∃ g n, d = tallyAt g () n ∧ () ∈ L g ∧ 2 ≤ lv g () := by
  simp only [dueL, List.drop_succ_cons, List.drop_zero, List.mem_cons, List.mem_nil_iff, or_false] at hd
  rcases hd with rfl | rfl | rfl | rfl | rfl | rfl | rfl | rfl | rfl | rfl | rfl | rfl | rfl | rfl | rfl | rfl
  all_goals refine ⟨_, _, rfl, by rw [L_tc]; exact Finset.mem_singleton_self _, ?_⟩
  all_goals (rw [lv_d]; decide)
theorem lv_due11 (c : Dev nD) {d : CellTallies nD τ sig Unit} (hd : d ∈ (dueL c).drop 11) : ∃ g n, d = tallyAt g () n ∧ () ∈ L g ∧ 3 ≤ lv g () := by
  simp only [dueL, List.drop_succ_cons, List.drop_zero, List.mem_cons, List.mem_nil_iff, or_false] at hd
  rcases hd with rfl | rfl | rfl | rfl | rfl | rfl | rfl | rfl
  all_goals refine ⟨_, _, rfl, by rw [L_tc]; exact Finset.mem_singleton_self _, ?_⟩
  all_goals (rw [lv_d]; decide)

/-- The deadlock argument: a wait is allowed below the level of everything still owed. -/
theorem mayWait_of_lv (c : Dev nD) (s : SemLoc sig) (k b : ℕ) (hs : lv ((c : Thread nD τ), s) () < b)
    (hk : ∀ d ∈ (dueL c).drop k, ∃ g n, d = tallyAt g () n ∧ () ∈ L g ∧ b ≤ lv g ()) :
    (levAts L lv : sProp 𝕄) ⊢ MayWait (c : Thread nD τ) s () (Orem c k) :=
  Pipeline.mayWait_of_levAts (by rw [L_tc]; exact Finset.mem_singleton_self _) fun g u hg => by
    obtain ⟨d, hd, hp⟩ := Orem_pos c k hg
    obtain ⟨g', n, rfl, hL, hb⟩ := hk d hd
    obtain ⟨rfl, rfl⟩ := Pipeline.tallyAt_pos hp
    exact ⟨hL, lt_of_lt_of_le hs hb⟩

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_of_lv c (.dma q) 0 1 (by rw [lv_stage c q hq]; exact Nat.one_pos) (fun d hd => lv_due0 c hd)
  · rw [MayWait_zero]; iintro -; iempintro
theorem mayWait_bar (c : Dev nD) : (levAts L lv : sProp 𝕄) ⊢ MayWait (c : Thread nD τ) (.reg barS) () (Orem c 3) :=
  mayWait_of_lv c (.reg barS) 3 2 (show (1 : ℕ) < 2 by decide) (fun d hd => lv_due3 c hd)
theorem mayWait_recv1 (c : Dev nD) (i : Fin 4) : (levAts L lv : sProp 𝕄) ⊢ MayWait (c : Thread nD τ) (.dma (dsem 1 i)) () (Orem c (11 + 2 * i.val)) :=
  mayWait_of_lv c (.dma (dsem 1 i)) (11 + 2 * i.val) 3 (by rw [lv_d]; decide) (fun d hd => lv_due11 c (by
    rw [← List.drop_drop] at hd
    exact List.mem_of_mem_drop hd))

end Cert.KernelIdealProof

end
-- ==== Proof.KernelIdealGhost.lean ====
import proofs.«900647_g7700000000000648_dist_a2a_v7x_xyz2x4x4_x_m1024_n512_bf16_1_alg».proof.Proof.KernelIdealTables

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def allCells : Finset (GSem nD τ sig) := Finset.univ.map ⟨kcell, kcell_injective⟩

def tokOf (cj : Dev nD × Fin 35) : GSem nD τ sig × ℕ × Fin 3 :=
  if h : cj.2.val < 3 then (barCell cj.1, 0, ⟨cj.2.val, h⟩)
  else (dCell cj.1 ⟨(cj.2.val - 3) / 4, by have := cj.2.isLt; omega⟩ ⟨(cj.2.val - 3) % 4, Nat.mod_lt _ (by decide)⟩, 0, 0)

theorem tokOf_injective : Function.Injective (tokOf : Dev nD × Fin 35 → GSem nD τ sig × ℕ × Fin 3) := by
  rintro ⟨c, j⟩ ⟨c', j'⟩ h
  have hc : c = c' := by
    have := congrArg (fun x : GSem nD τ sig × ℕ × Fin 3 => x.1.1.1) h
    unfold tokOf at this
    split at this <;> split at this <;> exact this
  subst hc
  have hs := congrArg (fun x : GSem nD τ sig × ℕ × Fin 3 => x.1.2) h
  have hd := congrArg (fun x : GSem nD τ sig × ℕ × Fin 3 => x.2.2) h
  unfold tokOf at hs hd
  have hj : j = j' := by
    by_cases h1 : j.val < 3 <;> by_cases h2 : j'.val < 3
    · rw [dif_pos h1, dif_pos h2] at hd
      have hd' := congrArg Fin.val hd
      exact Fin.ext hd'
    · rw [dif_pos h1, dif_neg h2] at hs
      exact absurd hs (fun h' => by cases h')
    · rw [dif_neg h1, dif_pos h2] at hs
      exact absurd hs (fun h' => by cases h')
    · rw [dif_neg h1, dif_neg h2] at hs
      have hv : (dsem ⟨(j.val - 3) / 4, by have := j.isLt; omega⟩ ⟨(j.val - 3) % 4, Nat.mod_lt _ (by decide)⟩).val
          = (dsem ⟨(j'.val - 3) / 4, by have := j'.isLt; omega⟩ ⟨(j'.val - 3) % 4, Nat.mod_lt _ (by decide)⟩).val :=
        congrArg Fin.val (SemLoc.dma.inj hs)
      have hv' : 2 + 4 * ((j.val - 3) / 4) + (j.val - 3) % 4 = 2 + 4 * ((j'.val - 3) / 4) + (j'.val - 3) % 4 := hv
      exact Fin.ext (by omega)
  subst hj; rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop(dutyTok ER (barCell c) 0 (0 : Fin 3) ∗ dutyTok ER (barCell c) 0 (1 : Fin 3) ∗ dutyTok ER (barCell c) 0 (2 : Fin 3)
    ∗ bigSep Finset.univ fun ai : Fin 8 × Fin 4 => dutyTok ER (dCell c ai.1 ai.2) 0 (0 : Fin 3))

def G (c : Dev nD) : sProp 𝕄 :=
  iprop((bigSep Finset.univ fun k : Fin 33 => roundState ER (Rd m) (kcell (c, k)) 0)
    ∗ (bigSep Finset.univ fun k : Fin 33 => iprop(atPos ER (kcell (c, k)) 0 ∅ 0 ∗ reached ER (kcell (c, k)) 0)) ∗ toks c)

def G' (c : Dev nD) : sProp 𝕄 := iprop(∃ K, ghost m K c)

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

def e32 : Fin 8 × Fin 4 ≃ Fin 32 := finProdFinEquiv

theorem e32_val (ai : Fin 8 × Fin 4) : (e32 ai).val = ai.2.val + 4 * ai.1.val := rfl

theorem cells33 (c : Dev nD) (Ψ : GSem nD τ sig → sProp 𝕄) :
    (bigSep Finset.univ fun k : Fin 33 => Ψ (kcell (c, k)))
      = iprop(Ψ (barCell c) ∗ bigSep Finset.univ fun ai : Fin 8 × Fin 4 => Ψ (dCell c ai.1 ai.2)) := by
  rw [bigSep_fin_succ, bigSep_univ_equiv e32 (fun k : Fin 32 => Ψ (kcell (c, k.succ))), kcell_bar]
  refine congrArg (fun X => iprop(Ψ (barCell c) ∗ X)) (bigSep_congr fun ai _ => ?_)
  have : (e32 ai).succ = cidx ai.1 ai.2 := Fin.ext (by show (e32 ai).val + 1 = 1 + 4 * ai.1.val + ai.2.val; rw [e32_val]; omega)
  rw [this, kcell_d]

theorem tokOf_bar (c : Dev nD) (d : Fin 3) : tokOf (c, ⟨d.val, by have := d.isLt; omega⟩) = (barCell c, 0, d) := by
  unfold tokOf; rw [dif_pos (show d.val < 3 from d.isLt)]

theorem tokOf_d (c : Dev nD) (ai : Fin 8 × Fin 4) : tokOf (c, (e32 ai).succ.succ.succ) = (dCell c ai.1 ai.2, 0, 0) := by
  have hv : ((e32 ai).succ.succ.succ : Fin 35).val = ai.2.val + 4 * ai.1.val + 3 := by
    show (e32 ai).val + 1 + 1 + 1 = _; rw [e32_val]
  have h1 := ai.1.isLt; have h2 := ai.2.isLt
  unfold tokOf; rw [dif_neg (by rw [hv]; omega)]
  have ha : (⟨(((e32 ai).succ.succ.succ : Fin 35).val - 3) / 4, by rw [hv]; omega⟩ : Fin 8) = ai.1 := Fin.ext (by show _ / 4 = _; rw [hv]; omega)
  have hi : (⟨(((e32 ai).succ.succ.succ : Fin 35).val - 3) % 4, Nat.mod_lt _ (by decide)⟩ : Fin 4) = ai.2 := Fin.ext (by show _ % 4 = _; rw [hv]; omega)
  rw [ha, hi]

theorem toks35 (c : Dev nD) :
    (bigSep Finset.univ fun j : Fin 35 => (dutyTok ER (tokOf (c, j)).1 (tokOf (c, j)).2.1 (tokOf (c, j)).2.2 : sProp 𝕄)) = toks c := by
  rw [bigSep_fin_succ, bigSep_fin_succ, bigSep_fin_succ,
    bigSep_univ_equiv e32 (fun k : Fin 32 => (dutyTok ER (tokOf (c, k.succ.succ.succ)).1 (tokOf (c, k.succ.succ.succ)).2.1 (tokOf (c, k.succ.succ.succ)).2.2 : sProp 𝕄))]
  unfold toks
  rw [bigSep_congr (s := Finset.univ) (fun (ai : Fin 8 × Fin 4) _ => show (dutyTok ER (tokOf (c, (e32 ai).succ.succ.succ)).1 (tokOf (c, (e32 ai).succ.succ.succ)).2.1 (tokOf (c, (e32 ai).succ.succ.succ)).2.2 : sProp 𝕄)
      = dutyTok ER (dCell c ai.1 ai.2) 0 (0 : Fin 3) from by rw [tokOf_d])]
  rw [show tokOf (c, (0 : Fin 35)) = (barCell c, 0, (0 : Fin 3)) from tokOf_bar c 0,
    show tokOf (c, (0 : Fin 34).succ) = (barCell c, 0, (1 : Fin 3)) from tokOf_bar c 1,
    show tokOf (c, (0 : Fin 33).succ.succ) = (barCell c, 0, (2 : Fin 3)) from tokOf_bar c 2]

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 33 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks35 c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_cells m) $$ HX with HG
  imodintro
  isplitl [HP] <;> iassumption

theorem csem_succ (k : Fin 32) : csem k.succ = osem k := by
  show (if h : k.succ.val = 0 then SemLoc.reg barS else SemLoc.dma ⟨1 + k.succ.val, _⟩) = SemLoc.dma ⟨2 + k.val, _⟩
  rw [dif_neg (by show k.val + 1 ≠ 0; omega)]
  exact congrArg SemLoc.dma (Fin.ext (by show 1 + (k.val + 1) = 2 + k.val; omega))

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin_succ, kcell_bar]
  have h : (bigSep Finset.univ fun k : Fin 32 => (semVal (kcell (c, k.succ)) 0 : sProp 𝕄))
      = Pipeline.ownSems0 (Ix := Unit) (Name := ℕ) (U := UU) (Lvl := ℕ) (Val := Elt F) (τ := τ) osem c := by
    unfold Pipeline.ownSems0
    exact bigSep_congr fun k _ => by show semVal ((c : Thread nD τ), csem k.succ) 0 = _; rw [csem_succ]
  rw [h]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def eX : Dev nD ≃ Dev nD := ⟨pX, pX, pX_pX, pX_pX⟩
def eY : Dev nD ≃ Dev nD := ⟨pY, pY, pY_pY, pY_pY⟩
def eZ : Dev nD ≃ Dev nD := ⟨pZ, pZ, pZ_pZ, pZ_pZ⟩

theorem payee_cases (a : Fin 8) : (∀ c : Dev nD, payee c a = c) ∨ (∀ c : Dev nD, payee c a = pX c) ∨ (∀ c : Dev nD, payee c a = pY c) ∨ (∀ c : Dev nD, payee c a = pZ c) := by
  fin_cases a
  · exact Or.inl fun c => rfl
  · exact Or.inr (Or.inl fun c => rfl)
  · exact Or.inl fun c => rfl
  · exact Or.inr (Or.inl fun c => rfl)
  · exact Or.inl fun c => rfl
  · exact Or.inr (Or.inr (Or.inl fun c => rfl))
  · exact Or.inl fun c => rfl
  · exact Or.inr (Or.inr (Or.inr fun c => rfl))

theorem deal_d (ai : Fin 8 × Fin 4) :
    (bigSep Finset.univ fun c : Dev nD => (dutyTok ER (dCell c ai.1 ai.2) 0 (0 : Fin 3) : sProp 𝕄))
      = bigSep Finset.univ fun c : Dev nD => (dutyTok ER (dCell (payee c ai.1) ai.1 ai.2) 0 (0 : Fin 3) : sProp 𝕄) := by
  rcases payee_cases ai.1 with h | h | h | h
  · exact bigSep_congr fun c _ => by rw [h]
  · rw [bigSep_univ_equiv eX (fun c : Dev nD => (dutyTok ER (dCell c ai.1 ai.2) 0 (0 : Fin 3) : sProp 𝕄))]
    exact bigSep_congr fun c _ => by rw [h]; rfl
  · rw [bigSep_univ_equiv eY (fun c : Dev nD => (dutyTok ER (dCell c ai.1 ai.2) 0 (0 : Fin 3) : sProp 𝕄))]
    exact bigSep_congr fun c _ => by rw [h]; rfl
  · rw [bigSep_univ_equiv eZ (fun c : Dev nD => (dutyTok ER (dCell c ai.1 ai.2) 0 (0 : Fin 3) : sProp 𝕄))]
    exact bigSep_congr fun c _ => by rw [h]; rfl

/-- Each duty token goes from the cell's owner to the device that pays it; the partner maps are involutions. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv eX (fun c : Dev nD => (dutyTok ER (barCell c) 0 (0 : Fin 3) : sProp 𝕄)),
    bigSep_univ_equiv eY (fun c : Dev nD => (dutyTok ER (barCell c) 0 (1 : Fin 3) : sProp 𝕄)),
    bigSep_univ_equiv eZ (fun c : Dev nD => (dutyTok ER (barCell c) 0 (2 : Fin 3) : sProp 𝕄)),
    bigSep_univ_comm (fun (c : Dev nD) (ai : Fin 8 × Fin 4) => (dutyTok ER (dCell c ai.1 ai.2) 0 (0 : Fin 3) : sProp 𝕄)),
    bigSep_univ_comm (fun (c : Dev nD) (ai : Fin 8 × Fin 4) => (dutyTok ER (dCell (payee c ai.1) ai.1 ai.2) 0 (0 : Fin 3) : sProp 𝕄)),
    bigSep_congr (s := Finset.univ) (fun (ai : Fin 8 × Fin 4) _ => deal_d (F := F) ai)]
  exact Entails.refl _

theorem ghost_intro (K : Dev nD × Fin 33 → ℕ) (c : Dev nD) : iprop(records m K ∗ (posns c ∗ payToks c)) ⊢ G' m c := by
  unfold G' ghost
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (Rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ iprop(posns c ∗ payToks c) from Entails.of_eq (by unfold posns; rw [cells33 c (fun g => atPos ER g 0 ∅ 0)])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof

end
-- ==== Proof.KernelIdealPieces.lean ====
import proofs.«900647_g7700000000000648_dist_a2a_v7x_xyz2x4x4_x_m1024_n512_bf16_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def chA (i : Fin 4) : Fin 8 := ⟨i.val, by omega⟩
def chB (i : Fin 4) : Fin 8 := ⟨4 + i.val, by omega⟩

local macro "rows_apart" : tactic =>
  `(tactic| (rw [Finset.disjoint_left]; intro j h1 h2; simp only [Finset.mem_union, mem_rows, mem_brows] at h1 h2; omega))

omit [FloatOps F] in
theorem oPts_union (d : Dev nD) {I J : Finset S2048x512.Idx} (q : PosShare TreeShare) (f : (cc0_stg1_0 : Ref sig .tc).ty.Contents (Elt F))
    (h : Disjoint I J) : (oPts d (I ∪ J) q f : sProp 𝕄) = iprop(oPts d I q f ∗ oPts d J q f) := by
  unfold oPts
  have hu : ((((d : Thread nD τ).loc cc0_stg1_0) ↦[I ∪ J]{q} f : sProp 𝕄))
      ⊣⊢ iprop((((d : Thread nD τ).loc cc0_stg1_0) ↦[I]{q} f) ∗ ((d : Thread nD τ).loc cc0_stg1_0) ↦[J]{q} f) := pointsTo_union h
  exact BI.equiv_iff.mp ⟨hu.1, hu.2⟩

omit [FloatOps F] in
theorem bPts_union (c : Dev nD) {I J : Finset S512x512.Idx} (f : (cc0_scratch0 : Ref sig .tc).ty.Contents (Elt F))
    (h : Disjoint I J) : (bPts c (I ∪ J) f : sProp 𝕄) = iprop(bPts c I f ∗ bPts c J f) := by
  unfold bPts
  have hu : ((((c : Thread nD τ).loc cc0_scratch0) ↦[I ∪ J]{fullShare} f : sProp 𝕄))
      ⊣⊢ iprop((((c : Thread nD τ).loc cc0_scratch0) ↦[I]{fullShare} f) ∗ ((c : Thread nD τ).loc cc0_scratch0) ↦[J]{fullShare} f) := pointsTo_union h
  exact BI.equiv_iff.mp ⟨hu.1, hu.2⟩

theorem qc_pX : ∀ c : Dev nD, qc (pX c) = pc c := by decide
theorem qc_pY : ∀ c : Dev nD, qc (pY c) = qc c := by decide
theorem qc_pZ : ∀ c : Dev nD, qc (pZ c) = qc c := by decide

theorem out_split (c : Dev nD) (f : (cc0_stg1_0 : Ref sig .tc).ty.Contents (Elt F)) :
    ((((c : Thread nD τ).loc cc0_stg1_0) ↦{fullShare} f : sProp 𝕄))
      ⊣⊢ iprop(oPts c (rows (1024 * pc c) 1024) fullShare f ∗ oPts c (rows (1024 * qc c + 256 * gq c) 256) fullShare f
        ∗ oPts c (rows (1024 * qc c + 256 * (3 - gq c)) 256) fullShare f ∗ oPts c (rows (1024 * qc c + 256 * gq (pY c)) 256) fullShare f
        ∗ oPts c (rows (1024 * qc c + 256 * gq (pZ c)) 256) fullShare f) := by
  refine BiEntails.of_eq ?_
  show (oPts c Finset.univ fullShare f : sProp 𝕄) = _
  rw [gq_pY, gq_pZ, qc_eq]
  have hg := gq_lt c
  have hp := pc_lt c
  have e : (Finset.univ : Finset S2048x512.Idx) = rows (1024 * pc c) 1024 ∪ (rows (1024 * (1 - pc c) + 256 * gq c) 256
      ∪ (rows (1024 * (1 - pc c) + 256 * (3 - gq c)) 256 ∪ (rows (1024 * (1 - pc c) + 256 * ((gq c + 2) % 4)) 256
      ∪ rows (1024 * (1 - pc c) + 256 * (gq c + 1 - 2 * (gq c % 2))) 256))) := by
    ext j
    have hj : (j 0).val < 2048 := (j 0).isLt
    simp only [Finset.mem_union, mem_rows, Finset.mem_univ, true_iff]
    omega
  rw [congrArg (fun S => (oPts c S fullShare f : sProp 𝕄)) e]
  rw [oPts_union c fullShare f (by rows_apart), oPts_union c fullShare f (by rows_apart), oPts_union c fullShare f (by rows_apart),
    oPts_union c fullShare f (by rows_apart)]

theorem quarter_split (d : Dev nD) (lo : ℕ) (q : PosShare TreeShare) (f : (cc0_stg1_0 : Ref sig .tc).ty.Contents (Elt F)) :
    (oPts d (rows lo 256) q f : sProp 𝕄)
      ⊣⊢ iprop(oPts d (rows lo 64) q f ∗ oPts d (rows (lo + 64) 64) q f ∗ oPts d (rows (lo + 128) 64) q f ∗ oPts d (rows (lo + 192) 64) q f) := by
  refine BiEntails.of_eq ?_
  have e : rows lo 256 = rows lo 64 ∪ (rows (lo + 64) 64 ∪ (rows (lo + 128) 64 ∪ rows (lo + 192) 64)) := by
    ext j
    simp only [Finset.mem_union, mem_rows]
    omega
  rw [e, oPts_union d q f (by rows_apart), oPts_union d q f (by rows_apart), oPts_union d q f (by rows_apart)]

theorem scratch_split (c : Dev nD) (f : (cc0_scratch0 : Ref sig .tc).ty.Contents (Elt F)) :
    (bPts c Finset.univ f : sProp 𝕄)
      ⊣⊢ iprop(bPts c (brows 0 64) f ∗ bPts c (brows 64 64) f ∗ bPts c (brows 128 64) f ∗ bPts c (brows 192 64) f
        ∗ bPts c (brows 256 64) f ∗ bPts c (brows 320 64) f ∗ bPts c (brows 384 64) f ∗ bPts c (brows 448 64) f) := by
  refine BiEntails.of_eq ?_
  have e : (Finset.univ : Finset S512x512.Idx) = brows 0 64 ∪ (brows 64 64 ∪ (brows 128 64 ∪ (brows 192 64
      ∪ (brows 256 64 ∪ (brows 320 64 ∪ (brows 384 64 ∪ brows 448 64)))))) := by
    ext j
    have hj : (j 0).val < 512 := (j 0).isLt
    simp only [Finset.mem_union, mem_brows, Finset.mem_univ, true_iff]
    omega
  rw [congrArg (fun S => (bPts c S f : sProp 𝕄)) e]
  rw [bPts_union c f (by rows_apart), bPts_union c f (by rows_apart), bPts_union c f (by rows_apart), bPts_union c f (by rows_apart),
    bPts_union c f (by rows_apart), bPts_union c f (by rows_apart), bPts_union c f (by rows_apart)]

theorem oPts_halves (d : Dev nD) (S : Finset S2048x512.Idx) (f : (cc0_stg1_0 : Ref sig .tc).ty.Contents (Elt F)) :
    (oPts d S fullShare f : sProp 𝕄) ⊣⊢ iprop(oPts d S fullShare.left f ∗ oPts d S fullShare.right f) := by
  unfold oPts
  exact pointsTo_share (PosShare.mem_left_op_right fullShare)

theorem barPay_X (c : Dev nD) : (barPay (F := F) (pX c) 0 : sProp 𝕄)
    = iprop((∃ f, oPts c (rows (1024 * qc c + 256 * gq c) 256) fullShare f) ∗ (∃ f, oPts c (rows (1024 * qc c + 256 * (3 - gq c)) 256) fullShare f)) := by
  show (iprop((∃ f, oPts (pX (pX c)) (rows (1024 * pc (pX c) + 256 * gq (pX c)) 256) fullShare f)
    ∗ (∃ f, oPts (pX (pX c)) (rows (1024 * pc (pX c) + 256 * (3 - gq (pX c))) 256) fullShare f)) : sProp 𝕄) = _
  rw [pX_pX, pc_pX, gq_pX]
  rfl
theorem barPay_Y (c : Dev nD) : (barPay (F := F) (pY c) 1 : sProp 𝕄) = iprop(∃ f, oPts c (rows (1024 * qc c + 256 * gq (pY c)) 256) fullShare f) := by
  show (iprop(∃ f, oPts (pY (pY c)) (rows (1024 * qc (pY c) + 256 * gq (pY c)) 256) fullShare f) : sProp 𝕄) = _
  rw [pY_pY, qc_pY]
theorem barPay_Z (c : Dev nD) : (barPay (F := F) (pZ c) 2 : sProp 𝕄) = iprop(∃ f, oPts c (rows (1024 * qc c + 256 * gq (pZ c)) 256) fullShare f) := by
  show (iprop(∃ f, oPts (pZ (pZ c)) (rows (1024 * qc (pZ c) + 256 * gq (pZ c)) 256) fullShare f) : sProp 𝕄) = _
  rw [pZ_pZ, qc_pZ]

theorem src1_eq (c : Dev nD) (i : Fin 4) (f : (cc0_scratch0 : Ref sig .tc).ty.Contents (Elt F)) :
    (((bS (chA i)).view.loc (c : Thread nD τ)) ↦[(bS (chA i)).view.set]{fullShare} f : sProp 𝕄) = bPts c (brows (64 * i.val) 64) f := by
  unfold bPts
  show (((c : Thread nD τ).loc cc0_scratch0) ↦[(bS (chA i)).view.set]{fullShare} f : sProp 𝕄) = _
  rw [set_bS]
  rfl
theorem src1b_eq (c : Dev nD) (i : Fin 4) (f : (cc0_scratch0 : Ref sig .tc).ty.Contents (Elt F)) :
    (((bS (chB i)).view.loc (c : Thread nD τ)) ↦[(bS (chB i)).view.set]{fullShare} f : sProp 𝕄) = bPts c (brows (256 + 64 * i.val) 64) f := by
  unfold bPts
  show (((c : Thread nD τ).loc cc0_scratch0) ↦[(bS (chB i)).view.set]{fullShare} f : sProp 𝕄) = _
  rw [set_bS]
  rw [show 64 * (chB i).val = 256 + 64 * i.val from by show 64 * (4 + i.val) = _; omega]
theorem dst1_eq (c : Dev nD) (i : Fin 4) (f : (cc0_stg1_0 : Ref sig .tc).ty.Contents (Elt F)) :
    (((oX c i).view.loc (pX c : Thread nD τ)) ↦[(oX c i).view.set]{fullShare} f : sProp 𝕄) = oPts (pX c) (rows (1024 * pc c + 256 * gq c + 64 * i.val) 64) fullShare f := by
  unfold oPts
  show (((pX c : Thread nD τ).loc cc0_stg1_0) ↦[(oX c i).view.set]{fullShare} f : sProp 𝕄) = _
  rw [set_oX]
  rw [show 1024 * pc c + rowA c i = 1024 * pc c + 256 * gq c + 64 * i.val from by unfold rowA; omega]
theorem dst1b_eq (c : Dev nD) (i : Fin 4) (f : (cc0_stg1_0 : Ref sig .tc).ty.Contents (Elt F)) :
    (((oXb c i).view.loc (pX c : Thread nD τ)) ↦[(oXb c i).view.set]{fullShare} f : sProp 𝕄) = oPts (pX c) (rows (1024 * pc c + 256 * (3 - gq c) + 64 * i.val) 64) fullShare f := by
  unfold oPts
  show (((pX c : Thread nD τ).loc cc0_stg1_0) ↦[(oXb c i).view.set]{fullShare} f : sProp 𝕄) = _
  rw [set_oXb]
  rw [show 1024 * pc c + rowB c i = 1024 * pc c + 256 * (3 - gq c) + 64 * i.val from by unfold rowB; omega]
theorem fw_eq (c d : Dev nD) (i : Fin 4) (q : PosShare TreeShare) (f : (cc0_stg1_0 : Ref sig .tc).ty.Contents (Elt F)) :
    (((oFw c i).view.loc (d : Thread nD τ)) ↦[(oFw c i).view.set]{q} f : sProp 𝕄) = oPts d (rows (1024 * qc c + 256 * gq c + 64 * i.val) 64) q f := by
  unfold oPts
  show (((d : Thread nD τ).loc cc0_stg1_0) ↦[(oFw c i).view.set]{q} f : sProp 𝕄) = _
  rw [set_oFw]
  rw [show 1024 * qc c + rowA c i = 1024 * qc c + 256 * gq c + 64 * i.val from by unfold rowA; omega]

theorem bload_sub (j : Fin 8) (off : Fin 2 → ℕ) (inb) (hoff : off = ![64 * j.val, 0]) :
    bM.view.setOn (Rect.unit (s := S512x512) off S64x512.size inb).toLoadRect.set ⊆ brows (64 * j.val) 64 := by
  subst hoff
  intro k hk
  have hk' : k ∈ (Rect.unit (s := S512x512) ![64 * j.val, 0] S64x512.size inb).set := by
    have h := hk
    unfold View.setOn at h
    rw [show bM.view.emb = Function.Embedding.refl _ from rfl, Finset.map_refl] at h
    exact h
  rw [mem_brows]
  exact (Rect.mem_set_unit.mp hk') (0 : Fin 2)
theorem bstore_sub (j : Fin 8) (off : Fin 2 → ℕ) (inb) (hoff : off = ![64 * j.val, 0]) :
    (bM.access (Rect.unit (s := S512x512) off S64x512.size inb)).setOn Finset.univ ⊆ brows (64 * j.val) 64 := by
  subst hoff
  intro k hk
  rw [View.setOn_univ] at hk
  have e := View.set_slice_whole (cc0_scratch0 : Ref sig .tc) (Rect.unit (s := S512x512) ![64 * j.val, 0] S64x512.size inb)
  have hk' : k ∈ (Rect.unit (s := S512x512) ![64 * j.val, 0] S64x512.size inb).set := e ▸ hk
  rw [mem_brows]
  exact (Rect.mem_set_unit.mp hk') (0 : Fin 2)
theorem oload_sub (lo : ℕ) (off : Fin 2 → ℕ) (inb) (hoff : off = ![lo, 0]) :
    oM.view.setOn (Rect.unit (s := S2048x512) off S1024x512.size inb).toLoadRect.set ⊆ rows lo 1024 := by
  subst hoff
  intro k hk
  have hk' : k ∈ (Rect.unit (s := S2048x512) ![lo, 0] S1024x512.size inb).set := by
    have h := hk
    unfold View.setOn at h
    rw [show oM.view.emb = Function.Embedding.refl _ from rfl, Finset.map_refl] at h
    exact h
  rw [mem_rows]
  exact (Rect.mem_set_unit.mp hk') (0 : Fin 2)
theorem ostore_sub (lo : ℕ) (off : Fin 2 → ℕ) (inb) (hoff : off = ![lo, 0]) :
    (oM.access (Rect.unit (s := S2048x512) off S1024x512.size inb)).setOn Finset.univ ⊆ rows lo 1024 := by
  subst hoff
  intro k hk
  rw [View.setOn_univ] at hk
  have e := View.set_slice_whole (cc0_stg1_0 : Ref sig .tc) (Rect.unit (s := S2048x512) ![lo, 0] S1024x512.size inb)
  have hk' : k ∈ (Rect.unit (s := S2048x512) ![lo, 0] S1024x512.size inb).set := e ▸ hk
  rw [mem_rows]
  exact (Rect.mem_set_unit.mp hk') (0 : Fin 2)

end Cert.KernelIdealProof

end
-- ==== Proof.KernelIdealLandings.lean ====
import proofs.«900647_g7700000000000648_dist_a2a_v7x_xyz2x4x4_x_m1024_n512_bf16_1_alg».proof.Proof.KernelIdealPieces
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem pay1_apply (v : Vec F S64x512 .f32) (y : S64x512.Idx) : k0_pay1 (F := F) v y = cvt (v y) := by
  unfold k0_pay1
  simp only [shapeCast_self]
  rfl
theorem pay17_apply (v : Vec F S1024x512 .f32) (y : S1024x512.Idx) : k0_pay17 (F := F) v y = cvt (v y) := by
  unfold k0_pay17
  simp only [shapeCast_self]
  rfl

theorem xload_chunk (c : Dev nD) (off : Fin 2 → ℕ) (inb) (r0 c0 : ℕ) (hoff : off = ![r0, c0]) (y : S64x512.Idx) :
    (xM.view.readAt (Elt F) (Rect.unit (s := S1024x1024) off S64x512.size inb).toLoadRect (xstg m c)) y = xAt m c (r0 + (y 0).val) (c0 + (y 1).val) := by
  subst hoff
  have h0 : r0 + 64 ≤ 1024 := inb 0
  have h1 : c0 + 512 ≤ 1024 := inb 1
  have hy0 : (y 0).val < 64 := (y 0).isLt
  have hy1 : (y 1).val < 512 := (y 1).isLt
  unfold xAt
  show xstg m c _ = _
  congr 1
  funext a
  apply Fin.ext
  fin_cases a
  · show r0 + 1 * (y 0).val = (r0 + (y 0).val) % 1024
    rw [Nat.mod_eq_of_lt (by omega)]; omega
  · show c0 + 1 * (y 1).val = (c0 + (y 1).val) % 1024
    rw [Nat.mod_eq_of_lt (by omega)]; omega
theorem xload_half (c : Dev nD) (off : Fin 2 → ℕ) (inb) (c0 : ℕ) (hoff : off = ![0, c0]) (y : S1024x512.Idx) :
    (xM.view.readAt (Elt F) (Rect.unit (s := S1024x1024) off S1024x512.size inb).toLoadRect (xstg m c)) y = xAt m c (y 0).val (c0 + (y 1).val) := by
  subst hoff
  have h1 : c0 + 512 ≤ 1024 := inb 1
  have hy0 : (y 0).val < 1024 := (y 0).isLt
  have hy1 : (y 1).val < 512 := (y 1).isLt
  unfold xAt
  show xstg m c _ = _
  congr 1
  funext a
  apply Fin.ext
  fin_cases a
  · show 0 + 1 * (y 0).val = ((y 0).val) % 1024
    rw [Nat.mod_eq_of_lt (by omega)]; omega
  · show c0 + 1 * (y 1).val = (c0 + (y 1).val) % 1024
    rw [Nat.mod_eq_of_lt (by omega)]; omega

theorem oaccess_write_apply {off : Fin 2 → ℕ} {inb} (r : ℕ) (h : off = ![r, 0]) (fd : (cc0_stg1_0 : Ref sig .tc).ty.Contents (Elt F))
    (w : S1024x512.Idx → Elt F .bf16) (k : S2048x512.Idx) (y : S1024x512.Idx) (hy0 : r + (y 0).val = (k 0).val) (hy1 : (y 1).val = (k 1).val) :
    ((oM.access (Rect.unit (s := S2048x512) off S1024x512.size inb)).write (Elt F) fd w Finset.univ) k = w y := by
  subst h
  have he : (oM.access (Rect.unit (s := S2048x512) ![r, 0] S1024x512.size inb)).emb y = k := by
    funext a
    apply Fin.ext
    fin_cases a
    · show r + 1 * (y 0).val = (k 0).val
      omega
    · show 0 + 1 * (y 1).val = (k 1).val
      omega
  have hwr := View.write_emb_of_mem (v := (oM.access (Rect.unit (s := S2048x512) ![r, 0] S1024x512.size inb))) (Val := Elt F) fd w (M := Finset.univ) (x := y) (Finset.mem_univ _)
  rw [he] at hwr
  rw [hwr]
  rfl

theorem baccess_write_apply {off : Fin 2 → ℕ} {inb} (r : ℕ) (h : off = ![r, 0]) (fd : (cc0_scratch0 : Ref sig .tc).ty.Contents (Elt F))
    (w : S64x512.Idx → Elt F .bf16) (k : S512x512.Idx) (y : S64x512.Idx) (hy0 : r + (y 0).val = (k 0).val) (hy1 : (y 1).val = (k 1).val) :
    ((bM.access (Rect.unit (s := S512x512) off S64x512.size inb)).write (Elt F) fd w Finset.univ) k = w y := by
  subst h
  have he : (bM.access (Rect.unit (s := S512x512) ![r, 0] S64x512.size inb)).emb y = k := by
    funext a
    apply Fin.ext
    fin_cases a
    · show r + 1 * (y 0).val = (k 0).val
      omega
    · show 0 + 1 * (y 1).val = (k 1).val
      omega
  have hwr := View.write_emb_of_mem (v := (bM.access (Rect.unit (s := S512x512) ![r, 0] S64x512.size inb))) (Val := Elt F) fd w (M := Finset.univ) (x := y) (Finset.mem_univ _)
  rw [he] at hwr
  rw [hwr]
  rfl

theorem stage_eq (c : Dev nD) (j : Fin 8) (f : (cc0_scratch0 : Ref sig .tc).ty.Contents (Elt F)) (off : Fin 2 → ℕ) (inb) (hoff : off = ![64 * j.val, 0])
    (w : Vec F S64x512 .bf16) (hw : ∀ y : S64x512.Idx, w y = cvt (xAt m c (srow c (64 * j.val) + (y 0).val) (512 * qc c + (y 1).val))) :
    (bPts c (brows (64 * j.val) 64) ((bM.access (Rect.unit (s := S512x512) off S64x512.size inb)).write (Elt F) f w Finset.univ) : sProp 𝕄)
      = bPts c (brows (64 * j.val) 64) (sendF m c) := by
  unfold bPts
  refine pointsTo_congr ?_
  intro k hk
  rw [mem_brows] at hk
  have hk1 : (k 1).val < 512 := (k 1).isLt
  have hj : j.val < 8 := j.isLt
  have hlt : (k 0).val - 64 * j.val < 64 := by omega
  obtain ⟨y, hy0, hy1⟩ : ∃ y : S64x512.Idx, 64 * j.val + (y 0).val = (k 0).val ∧ (y 1).val = (k 1).val :=
    ⟨Shape.pair (⟨(k 0).val - 64 * j.val, hlt⟩ : Fin 64) (⟨(k 1).val, hk1⟩ : Fin 512), by show 64 * j.val + ((k 0).val - 64 * j.val) = (k 0).val; omega, rfl⟩
  rw [baccess_write_apply (64 * j.val) hoff f w k y hy0 hy1, hw y]
  unfold sendF
  show cvt (xAt m c (srow c (64 * j.val) + (y 0).val) (512 * qc c + (y 1).val)) = cvt (xAt m c (srow c (k 0).val) (512 * qc c + (k 1).val))
  rw [hy1, ← hy0]
  congr 2
  have hy : (y 0).val < 64 := (y 0).isLt
  unfold srow
  split <;> split <;> omega

theorem local_eq (c : Dev nD) (f : (cc0_stg1_0 : Ref sig .tc).ty.Contents (Elt F)) (off : Fin 2 → ℕ) (inb) (hoff : off = ![1024 * pc c, 0])
    (w : Vec F S1024x512 .bf16) (hw : ∀ y : S1024x512.Idx, w y = cvt (xAt m c (y 0).val (512 * pc c + (y 1).val))) :
    (oPts c (rows (1024 * pc c) 1024) fullShare ((oM.access (Rect.unit (s := S2048x512) off S1024x512.size inb)).write (Elt F) f w Finset.univ) : sProp 𝕄)
      = oPts c (rows (1024 * pc c) 1024) fullShare (outF m c) := by
  unfold oPts
  refine pointsTo_congr ?_
  intro k hk
  rw [mem_rows] at hk
  have hk1 : (k 1).val < 512 := (k 1).isLt
  have hp := pc_lt c
  have hlt : (k 0).val - 1024 * pc c < 1024 := by omega
  obtain ⟨y, hy0, hy1⟩ : ∃ y : S1024x512.Idx, 1024 * pc c + (y 0).val = (k 0).val ∧ (y 1).val = (k 1).val :=
    ⟨Shape.pair (⟨(k 0).val - 1024 * pc c, hlt⟩ : Fin 1024) (⟨(k 1).val, hk1⟩ : Fin 512), by show 1024 * pc c + ((k 0).val - 1024 * pc c) = (k 0).val; omega, rfl⟩
  rw [oaccess_write_apply (1024 * pc c) hoff f w k y hy0 hy1, hw y]
  unfold outF
  show _ = if (k 0).val / 1024 = pc c then cvt (xAt m c ((k 0).val % 1024) (512 * pc c + (k 1).val)) else _
  have hy : (y 0).val < 1024 := (y 0).isLt
  rw [if_pos (by omega), hy1]
  congr 2
  omega

theorem srcDev_pX_gq : ∀ c : Dev nD, srcDev (pX c) (gq c) = c := by decide
theorem srcDev_pX_gq' : ∀ c : Dev nD, srcDev (pX c) (3 - gq c) = c := by decide
theorem srcDev_pY_gq : ∀ c : Dev nD, srcDev (pY c) (gq c) = pX c := by decide
theorem srcDev_pZ_gq : ∀ c : Dev nD, srcDev (pZ c) (gq c) = pX c := by decide
theorem srcDev_self_gq : ∀ c : Dev nD, srcDev c (gq c) = pX c := by decide

theorem oslice_write_apply {off : Fin 2 → ℕ} {inb} (r : ℕ) (h : off = ![r, 0]) (fd : (cc0_stg1_0 : Ref sig .tc).ty.Contents (Elt F))
    (w : S64x512.Idx → Elt F .bf16) (k : S2048x512.Idx) (y : S64x512.Idx) (hy0 : r + (y 0).val = (k 0).val) (hy1 : (y 1).val = (k 1).val) :
    ((oM.slice (Rect.unit (s := S2048x512) off S64x512.size inb) (fun _ => rfl)).view.write (Elt F) fd w Finset.univ) k = w y := by
  subst h
  have he : (oM.slice (Rect.unit (s := S2048x512) ![r, 0] S64x512.size inb) (fun _ => rfl)).view.emb y = k := by
    funext a
    apply Fin.ext
    fin_cases a
    · show r + 1 * (y 0).val = (k 0).val
      omega
    · show 0 + 1 * (y 1).val = (k 1).val
      omega
  have hwr := View.write_emb_of_mem (v := (oM.slice (Rect.unit (s := S2048x512) ![r, 0] S64x512.size inb) (fun _ => rfl)).view) (Val := Elt F) fd w (M := Finset.univ) (x := y) (Finset.mem_univ _)
  rw [he] at hwr
  rw [hwr]
  rfl

theorem oslice_read_apply {off : Fin 2 → ℕ} {inb} (r : ℕ) (h : off = ![r, 0]) (f : (cc0_stg1_0 : Ref sig .tc).ty.Contents (Elt F))
    (k : S2048x512.Idx) (y : S64x512.Idx) (hy0 : r + (y 0).val = (k 0).val) (hy1 : (y 1).val = (k 1).val) :
    ((oM.slice (Rect.unit (s := S2048x512) off S64x512.size inb) (fun _ => rfl)).view.read (Elt F) f) y = f k := by
  subst h
  have he : (oM.slice (Rect.unit (s := S2048x512) ![r, 0] S64x512.size inb) (fun _ => rfl)).view.emb y = k := by
    funext a
    apply Fin.ext
    fin_cases a
    · show r + 1 * (y 0).val = (k 0).val
      omega
    · show 0 + 1 * (y 1).val = (k 1).val
      omega
  rw [View.read_apply, he]
  rfl

theorem bslice_read_apply (j : Fin 8) (f : (cc0_scratch0 : Ref sig .tc).ty.Contents (Elt F))
    (k : S512x512.Idx) (y : S64x512.Idx) (hy0 : 64 * j.val + (y 0).val = (k 0).val) (hy1 : (y 1).val = (k 1).val) :
    ((bS j).view.read (Elt F) f) y = f k := by
  have he : (bS j).view.emb y = k := by
    funext a
    apply Fin.ext
    fin_cases a
    · show 64 * j.val + 1 * (y 0).val = (k 0).val
      omega
    · show 0 + 1 * (y 1).val = (k 1).val
      omega
  rw [View.read_apply, he]
  rfl

theorem outF_fw (c d : Dev nD) (hpc : pc d = pc c) (hsrc : srcDev d (gq c) = pX c) (i : Fin 4) (k : S2048x512.Idx)
    (hk : k ∈ rows (1024 * qc c + 256 * gq c + 64 * i.val) 64) : outF m c k = outF m d k := by
  rw [mem_rows] at hk
  have hp := pc_lt c
  have hg := gq_lt c
  have hi : i.val < 4 := i.isLt
  have hq : qc c = 1 - pc c := rfl
  have e1 : (k 0).val / 1024 = qc c := by omega
  have e3 : ((k 0).val % 1024) / 256 = gq c := by omega
  unfold outF
  show (if (k 0).val / 1024 = pc c then _ else cvt (xAt m (srcDev c (((k 0).val % 1024) / 256)) ((k 0).val % 1024) (512 * pc c + (k 1).val)))
    = if (k 0).val / 1024 = pc d then _ else cvt (xAt m (srcDev d (((k 0).val % 1024) / 256)) ((k 0).val % 1024) (512 * pc d + (k 1).val))
  rw [if_neg (by omega), if_neg (by rw [hpc]; omega), e3, srcDev_self_gq, hsrc, hpc]

/-- Forwarder and neighbour share p and, on the forwarded rows, the source device: their final contents agree there. -/
theorem landFw (c d : Dev nD) (hpc : pc d = pc c) (hsrc : srcDev d (gq c) = pX c) (i : Fin 4) (fd : Buf (Elt F) ((oFw c i).view.loc (d : Thread nD τ))) :
    (((oFw c i).view.loc (d : Thread nD τ)) ↦[(oFw c i).view.set]{fullShare}
        ((oFw c i).view.write (Elt F) fd ((oFw c i).view.read (Elt F) (outF m c)) Finset.univ) : sProp 𝕄)
      ⊢ oPts d (rows (1024 * qc c + 256 * gq c + 64 * i.val) 64) fullShare (outF m d) := by
  rw [fw_eq c d i fullShare]
  refine Entails.of_eq ?_
  unfold oPts
  refine pointsTo_congr ?_
  intro k hk
  have hk0 := hk
  rw [mem_rows] at hk
  have hk1 : (k 1).val < 512 := (k 1).isLt
  have hlt : (k 0).val - (1024 * qc c + 256 * gq c + 64 * i.val) < 64 := by omega
  obtain ⟨y, hy0, hy1⟩ : ∃ y : S64x512.Idx, (1024 * qc c + 256 * gq c + 64 * i.val) + (y 0).val = (k 0).val ∧ (y 1).val = (k 1).val :=
    ⟨Shape.pair (⟨(k 0).val - (1024 * qc c + 256 * gq c + 64 * i.val), hlt⟩ : Fin 64) (⟨(k 1).val, hk1⟩ : Fin 512),
      by show (1024 * qc c + 256 * gq c + 64 * i.val) + ((k 0).val - (1024 * qc c + 256 * gq c + 64 * i.val)) = (k 0).val; omega, rfl⟩
  have hoff : k0_off19 c (BitVec.ofNat 32 (64 * i.val)) = ![1024 * qc c + 256 * gq c + 64 * i.val, 0] := by
    rw [off19_eq c i]; unfold rowA; rw [Nat.add_assoc]
  rw [oslice_write_apply (1024 * qc c + 256 * gq c + 64 * i.val) hoff fd _ k y hy0 hy1,
    oslice_read_apply (1024 * qc c + 256 * gq c + 64 * i.val) hoff (outF m c) k y hy0 hy1]
  exact outF_fw m c d hpc hsrc i k hk0

theorem land1 (c : Dev nD) (i : Fin 4) (fd : Buf (Elt F) ((oX c i).view.loc (pX c : Thread nD τ))) :
    (((oX c i).view.loc (pX c : Thread nD τ)) ↦[(oX c i).view.set]{fullShare}
        ((oX c i).view.write (Elt F) fd ((bS (chA i)).view.read (Elt F) (sendF m c)) Finset.univ) : sProp 𝕄) ⊢ pay m (pX c) 1 i := by
  rw [dst1_eq c i]
  show _ ⊢ oPts (pX c) (rows (1024 * qc (pX c) + rowA (pX c) i) 64) fullShare (outF m (pX c))
  have hp := pc_lt c
  have hg := gq_lt c
  have hi : i.val < 4 := i.isLt
  have hR : 1024 * qc (pX c) + rowA (pX c) i = 1024 * pc c + 256 * gq c + 64 * i.val := by
    rw [qc_eq, pc_pX]; unfold rowA; rw [gq_pX]; omega
  rw [hR]
  refine Entails.of_eq ?_
  unfold oPts
  refine pointsTo_congr ?_
  intro k hk
  rw [mem_rows] at hk
  have hk1 : (k 1).val < 512 := (k 1).isLt
  have hlt : (k 0).val - (1024 * pc c + 256 * gq c + 64 * i.val) < 64 := by omega
  obtain ⟨y, hy0, hy1⟩ : ∃ y : S64x512.Idx, (1024 * pc c + 256 * gq c + 64 * i.val) + (y 0).val = (k 0).val ∧ (y 1).val = (k 1).val :=
    ⟨Shape.pair (⟨(k 0).val - (1024 * pc c + 256 * gq c + 64 * i.val), hlt⟩ : Fin 64) (⟨(k 1).val, hk1⟩ : Fin 512),
      by show (1024 * pc c + 256 * gq c + 64 * i.val) + ((k 0).val - (1024 * pc c + 256 * gq c + 64 * i.val)) = (k 0).val; omega, rfl⟩
  have hy : (y 0).val < 64 := (y 0).isLt
  have hoff : k0_off3 c (BitVec.ofNat 32 (64 * i.val)) = ![1024 * pc c + 256 * gq c + 64 * i.val, 0] := by
    rw [off3_eq c i]; unfold rowA; rw [Nat.add_assoc]
  rw [oslice_write_apply (1024 * pc c + 256 * gq c + 64 * i.val) hoff fd _ k y hy0 hy1]
  have hk' : 64 * i.val + (y 0).val < 512 := by omega
  rw [bslice_read_apply (chA i) (sendF m c) (Shape.pair (⟨64 * i.val + (y 0).val, hk'⟩ : Fin 512) (⟨(k 1).val, hk1⟩ : Fin 512)) y rfl hy1]
  unfold sendF outF
  show cvt (xAt m c (srow c (64 * i.val + (y 0).val)) (512 * qc c + (k 1).val))
    = if (k 0).val / 1024 = pc (pX c) then _ else cvt (xAt m (srcDev (pX c) (((k 0).val % 1024) / 256)) ((k 0).val % 1024) (512 * pc (pX c) + (k 1).val))
  have e1 : (k 0).val / 1024 = pc c := by omega
  have e3 : ((k 0).val % 1024) / 256 = gq c := by omega
  rw [if_neg (by rw [e1, pc_pX]; omega), e3, srcDev_pX_gq, pc_pX, qc_eq]
  congr 2
  unfold srow
  rw [if_pos (by omega)]
  omega
theorem land1b (c : Dev nD) (i : Fin 4) (fd : Buf (Elt F) ((oXb c i).view.loc (pX c : Thread nD τ))) :
    (((oXb c i).view.loc (pX c : Thread nD τ)) ↦[(oXb c i).view.set]{fullShare}
        ((oXb c i).view.write (Elt F) fd ((bS (chB i)).view.read (Elt F) (sendF m c)) Finset.univ) : sProp 𝕄) ⊢ pay m (pX c) 3 i := by
  rw [dst1b_eq c i]
  show _ ⊢ oPts (pX c) (rows (1024 * qc (pX c) + rowB (pX c) i) 64) fullShare (outF m (pX c))
  have hp := pc_lt c
  have hg := gq_lt c
  have hi : i.val < 4 := i.isLt
  have hR : 1024 * qc (pX c) + rowB (pX c) i = 1024 * pc c + 256 * (3 - gq c) + 64 * i.val := by
    rw [qc_eq, pc_pX]; unfold rowB; rw [gq_pX]; omega
  rw [hR]
  refine Entails.of_eq ?_
  unfold oPts
  refine pointsTo_congr ?_
  intro k hk
  rw [mem_rows] at hk
  have hk1 : (k 1).val < 512 := (k 1).isLt
  have hlt : (k 0).val - (1024 * pc c + 256 * (3 - gq c) + 64 * i.val) < 64 := by omega
  obtain ⟨y, hy0, hy1⟩ : ∃ y : S64x512.Idx, (1024 * pc c + 256 * (3 - gq c) + 64 * i.val) + (y 0).val = (k 0).val ∧ (y 1).val = (k 1).val :=
    ⟨Shape.pair (⟨(k 0).val - (1024 * pc c + 256 * (3 - gq c) + 64 * i.val), hlt⟩ : Fin 64) (⟨(k 1).val, hk1⟩ : Fin 512),
      by show (1024 * pc c + 256 * (3 - gq c) + 64 * i.val) + ((k 0).val - (1024 * pc c + 256 * (3 - gq c) + 64 * i.val)) = (k 0).val; omega, rfl⟩
  have hy : (y 0).val < 64 := (y 0).isLt
  have hoff : k0_off12 c (BitVec.ofNat 32 (64 * i.val)) = ![1024 * pc c + 256 * (3 - gq c) + 64 * i.val, 0] := by
    rw [off12_eq c i]; unfold rowB; rw [Nat.add_assoc]
  rw [oslice_write_apply (1024 * pc c + 256 * (3 - gq c) + 64 * i.val) hoff fd _ k y hy0 hy1]
  have hk' : 64 * (4 + i.val) + (y 0).val < 512 := by omega
  rw [bslice_read_apply (chB i) (sendF m c) (Shape.pair (⟨64 * (4 + i.val) + (y 0).val, hk'⟩ : Fin 512) (⟨(k 1).val, hk1⟩ : Fin 512)) y rfl hy1]
  unfold sendF outF
  show cvt (xAt m c (srow c (64 * (4 + i.val) + (y 0).val)) (512 * qc c + (k 1).val))
    = if (k 0).val / 1024 = pc (pX c) then _ else cvt (xAt m (srcDev (pX c) (((k 0).val % 1024) / 256)) ((k 0).val % 1024) (512 * pc (pX c) + (k 1).val))
  have e1 : (k 0).val / 1024 = pc c := by omega
  have e3 : ((k 0).val % 1024) / 256 = 3 - gq c := by omega
  rw [if_neg (by rw [e1, pc_pX]; omega), e3, srcDev_pX_gq', pc_pX, qc_eq]
  congr 2
  unfold srow
  rw [if_neg (by omega)]
  omega
theorem landY (c : Dev nD) (i : Fin 4) (fd : Buf (Elt F) ((oFw c i).view.loc (pY c : Thread nD τ))) :
    (((oFw c i).view.loc (pY c : Thread nD τ)) ↦[(oFw c i).view.set]{fullShare}
        ((oFw c i).view.write (Elt F) fd ((oFw c i).view.read (Elt F) (outF m c)) Finset.univ) : sProp 𝕄) ⊢ pay m (pY c) 5 i := by
  refine (landFw m c (pY c) (pc_pY c) (srcDev_pY_gq c) i fd).trans (Entails.of_eq ?_)
  show _ = oPts (pY c) (rows (1024 * qc (pY c) + rowA (pY (pY c)) i) 64) fullShare (outF m (pY c))
  rw [pY_pY, qc_eq (pY c), pc_pY, ← qc_eq c]
  unfold rowA
  rw [Nat.add_assoc]
theorem landZ (c : Dev nD) (i : Fin 4) (fd : Buf (Elt F) ((oFw c i).view.loc (pZ c : Thread nD τ))) :
    (((oFw c i).view.loc (pZ c : Thread nD τ)) ↦[(oFw c i).view.set]{fullShare}
        ((oFw c i).view.write (Elt F) fd ((oFw c i).view.read (Elt F) (outF m c)) Finset.univ) : sProp 𝕄) ⊢ pay m (pZ c) 7 i := by
  refine (landFw m c (pZ c) (pc_pZ c) (srcDev_pZ_gq c) i fd).trans (Entails.of_eq ?_)
  show _ = oPts (pZ c) (rows (1024 * qc (pZ c) + rowA (pZ (pZ c)) i) 64) fullShare (outF m (pZ c))
  rw [pZ_pZ, qc_eq (pZ c), pc_pZ, ← qc_eq c]
  unfold rowA
  rw [Nat.add_assoc]

end Cert.KernelIdealProof

end
-- ==== Proof.KernelIdealSteps.lean ====
import proofs.«900647_g7700000000000648_dist_a2a_v7x_xyz2x4x4_x_m1024_n512_bf16_1_alg».proof.Proof.KernelIdealTables
import proofs.«900647_g7700000000000648_dist_a2a_v7x_xyz2x4x4_x_m1024_n512_bf16_1_alg».proof.Proof.KernelIdealLandings

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

local notation "WP" => wp frame (wpE (defs₀ (F := F)) 𝒱₀ _ none) Set.univ

theorem sig_step (c n : Dev nD) (d : Fin 3) {n' : Dev nD} (hn : n' = n) (P : sProp 𝕄) (hP : P ⊢ barPay (F := F) n d)
    (O : CellTallies nD τ sig Unit) {O' : CellTallies nD τ sig Unit} (hO : O' = O + tallyAt (barCell n) () 1) (W : Waits sig Unit)
    {α : Type} {Q : α → sProp 𝕄} {k : PUnit → Prog (TpuEff nD τ sig (Elt F) Λ₀ .tc) α} :
    iprop(records m K ∗ owes (c : Thread nD τ) O' W ∗ dutyTok ER (barCell n) 0 d ∗ P)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS 1) k) Q) := by
  subst hn
  iintro ⟨#Hrec, HO, Htok, HP⟩
  iapply (Rounds.wp_signal 𝒱₀ ER (Rd m) (c : Thread nD τ) none (dst := (n' : Thread nD τ)) (κ := K (n', 0))
      (d := d) (by rw [duties_bar]; exact Finset.mem_univ _) (amount_bar m n' d) () O hO)
  isplitr; · iapply (inv_bar m K n'); iexact Hrec
  isplitl [HO]; · iexact HO
  isplitl [Htok]; · iexact Htok
  isplitl [HP]; · rw [payload_bar]; iapply hP; iexact HP
  iapply (reached_bar m K n'); iexact Hrec

theorem bar_wait (c : Dev nD) (W : Waits sig Unit)
    {α : Type} {Q : α → sProp 𝕄} {k : PUnit → Prog (TpuEff nD τ sig (Elt F) Λ₀ .tc) α} :
    iprop(records m K ∗ levAts L lv ∗ cred (tallyAt (barCell c) () 3) ∗ owes (c : Thread nD τ) (Orem c 3) W ∗ atPos ER (barCell c) 0 ∅ 0)
      ⊢ iprop(((owes (c : Thread nD τ) (Orem c 3) (insert (SemLoc.reg barS, ()) W) ∗ atPos ER (barCell c) 1 ∅ 0
              ∗ ((∃ f, oPts (pX c) (rows (1024 * pc c + 256 * gq c) 256) fullShare f) ∗ ∃ f, oPts (pX c) (rows (1024 * pc c + 256 * (3 - gq c)) 256) fullShare f)
              ∗ (∃ f, oPts (pY c) (rows (1024 * qc c + 256 * gq c) 256) fullShare f) ∗ ∃ f, oPts (pZ c) (rows (1024 * qc c + 256 * gq c) 256) fullShare f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#Hrec, #Hlev, Hc, HO, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := Orem c 3) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

theorem send_gen (c n : Dev nD) (aS aR : Fin 8) (i : Fin 4) {n' : Dev nD} (hn : n' = n)
    {src : Memref sig .tc .vmem S64x512 .bf16} {dst : Memref sig .tc .vmem S64x512 .bf16}
    {sS sR : DmaSem sig} (hsS : sS = dsem aS i) (hsR : sR = dsem aR i)
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    {α : Type} {Q : α → sProp 𝕄} {k : PUnit → Prog (TpuEff nD τ sig (Elt F) Λ₀ .tc) α}
    {q : PosShare TreeShare} (fs : Buf (Elt F) (src.view.loc (c : Thread nD τ))) (fd : Buf (Elt F) (dst.view.loc (n : Thread nD τ)))
    (O : CellTallies nD τ sig Unit) {O' : CellTallies nD τ sig Unit} (hO : O' = O + tallyAt (dCell n aR i) () N) (W : Waits sig Unit)
    (hN : dst.view.dmaCredit = N)
    (hpay₁ : (src.view.loc (c : Thread nD τ) ↦[src.view.set]{q} fs : sProp 𝕄) ⊢ pay m c aS i)
    (hpay₂ : (dst.view.loc (n : Thread nD τ) ↦[dst.view.set]{fullShare} (dst.view.write (Elt F) fd (src.view.read (Elt F) fs) Finset.univ) : sProp 𝕄) ⊢ pay m n aR i) :
    iprop(records m K ∗ (src.view.loc (c : Thread nD τ) ↦[src.view.set]{q} fs) ∗ (dst.view.loc (n : Thread nD τ) ↦[dst.view.set]{fullShare} fd)
        ∗ owes (c : Thread nD τ) O' W ∗ dutyTok ER (dCell c aS i) 0 (0 : Fin 3) ∗ dutyTok ER (dCell n aR i) 0 (0 : Fin 3))
      ⊢ iprop(((cred (tallyAt (dCell c aS i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hn hsS hsR
  iintro ⟨#Hrec, Hs, Hd, HO, Ht1, Ht2⟩
  iapply (Rounds.wp_send_pointsTo 𝒱₀ ER (Rd m) (c : Thread nD τ) none (c' := (n' : Thread nD τ)) (src := src) (dst := dst) (q := q) (fs := fs) (fd := fd)
      (κ₁ := K (c, cidx aS i)) (κ₂ := K (n', cidx aR i)) (r₁ := 0) (r₂ := 0) (d₁ := (0 : Fin 3)) (d₂ := (0 : Fin 3))
      (by rw [duties_d]; exact Finset.mem_singleton_self _) (by rw [duties_d]; exact Finset.mem_singleton_self _)
      () () N ((View.amount_dma _ _).trans hN) (amount_d m c aS i 0) (amount_d m n' aR i 0) O hO (W := W)
      (by rw [payload_d]; exact hpay₁) (by rw [payload_d]; exact hpay₂))
  isplitr; · iapply (inv_d m K c aS i); iexact Hrec
  isplitr; · iapply (inv_d m K n' aR i); iexact Hrec
  isplitl [Hs]; · iexact Hs
  isplitl [Hd]; · iexact Hd
  isplitl [HO]; · iexact HO
  isplitl [Ht1]; · iexact Ht1
  isplitr; · iapply (reached_d m K c aS i); iexact Hrec
  isplitl [Ht2]; · iexact Ht2
  iapply (reached_d m K n' aR i); iexact Hrec

theorem wait_d (c : Dev nD) (a : Fin 8) (i : Fin 4) {s : DmaSem sig} (hs : s = dsem a i)
    {src dst : Memref sig .tc .vmem S64x512 .bf16} {hsrc : src.view.WordExact} {hdst : dst.view.WordExact} (hN : dst.view.dmaCredit = N)
    (O : CellTallies nD τ sig Unit) (W : Waits sig Unit) (hmw : (levAts L lv : sProp 𝕄) ⊢ MayWait (c : Thread nD τ) (.dma (dsem a i)) () O)
    {α : Type} {Q : α → sProp 𝕄} {k : PUnit → Prog (TpuEff nD τ sig (Elt F) Λ₀ .tc) α} :
    iprop(records m K ∗ levAts L lv ∗ cred (tallyAt (dCell c a i) () N) ∗ owes (c : Thread nD τ) O W ∗ atPos ER (dCell c a i) 0 ∅ 0)
      ⊢ iprop(((owes (c : Thread nD τ) O (insert (SemLoc.dma (dsem a i), ()) W) ∗ atPos ER (dCell c a i) 1 ∅ 0 ∗ pay m c a i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#Hrec, #Hlev, Hc, HO, Hat⟩ Hk
  iapply (Rounds.wp_wait_rest_token 𝒱₀ ER (Rd m) (c : Thread nD τ) none (κ := K (c, cidx a i)) (k' := N)
      (fun Kt => (wpE_waitDma2_eq 𝒱₀ (c : Thread nD τ) none Set.univ (src := src) (dst := dst) (hsrc := hsrc) (hdst := hdst) Kt).trans
        (congrArg (fun n => waitSpec (c : Thread nD τ) Set.univ (.dma (dsem a i)) n Kt) hN))
      (Set.mem_univ _) () (O := O) (W := W) (R := 0) (m := 0) (T := ∅)
      (by rw [Nat.zero_add, expect_d])) $$ [Hc HO Hat]
  · isplitr; · iapply (inv_d m K c a i); iexact Hrec
    isplitl [Hc]; · iexact Hc
    isplitl [HO]; · iexact HO
    isplitr; · iapply hmw; iexact Hlev
    iexact Hat
  iintro ⟨HO, Hat, -, Hpay⟩
  ihave Hp := (Entails.of_eq (rest_d m c a i)) $$ Hpay
  iapply Hk
  isplitl [HO]; · iexact HO
  isplitl [Hat]; · iexact Hat
  iexact Hp

theorem close_d (c : Dev nD) (a : Fin 8) (i : Fin 4) :
    iprop(records m K ∗ atPos ER (dCell c a i) 1 ∅ 0) ⊢ (|={Set.univ}=> semVal (dCell c a i) 0 : sProp 𝕄) := by
  iintro ⟨#Hrec, Hat⟩
  iapply (Rounds.cell_close ER (Rd m) (Set.mem_univ (K (c, cidx a i))) (fun h => h) (R := 1) (duties_later m (dCell c a i)))
  isplitr; · iapply (inv_d m K c a i); iexact Hrec
  iexact Hat

end Cert.KernelIdealProof

end
-- ==== Proof.KernelIdealBodyDefs.lean ====
import proofs.«900647_g7700000000000648_dist_a2a_v7x_xyz2x4x4_x_m1024_n512_bf16_1_alg».proof.Proof.KernelIdealSteps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × Fin 33 → ℕ)

def bodyPre (c : Dev nD) : sProp 𝕄 :=
  iprop((ghost m K c ∗ creds c ∗ levAts L lv ∗ ∃ f, bPts c Finset.univ f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outF m c))

end Cert.KernelIdealProof

end
-- ==== Proof.KernelIdealSends.lean ====
import proofs.«900647_g7700000000000648_dist_a2a_v7x_xyz2x4x4_x_m1024_n512_bf16_1_alg».proof.Proof.KernelIdealSteps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

theorem send1 (c : Dev nD) (i : Fin 4) {n' : Dev nD} (hn : n' = pX c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = bS (chA i)) (hd : dst = oX c i) (hsS : sS = dsem 0 i) (hsR : sR = dsem 1 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 64 * i.val) (hrd : rd = 1024 * pc c + 256 * gq c + 64 * i.val) (kk : ℕ) (hkk : kk = 3 + i.val) (W : Waits sig Unit) :
    iprop(records m K ∗ bPts c (brows rs 64) (sendF m c) ∗ oPts (pX c) (rows rd 64) fullShare fd
        ∗ owes (c : Thread nD τ) (Orem c kk) W ∗ dutyTok ER (dCell c 0 i) 0 (0 : Fin 3) ∗ dutyTok ER (dCell (pX c) 1 i) 0 (0 : Fin 3))
      ⊢ iprop(((cred (tallyAt (dCell c 0 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (3 + i.val) = Orem c (3 + i.val + 1) + tallyAt (dCell (pX c) 1 i) () N :=
    Orem_succ c (3 + i.val) _ (by fin_cases i <;> rfl)
  have hpay₁ : (((bS (chA i)).view.loc (c : Thread nD τ)) ↦[(bS (chA i)).view.set]{fullShare} sendF m c : sProp 𝕄) ⊢ pay m c 0 i := by
    rw [src1_eq]; exact Entails.refl _
  have key := send_gen m K c (pX c) 0 1 i hn hsS hsR (src := bS (chA i)) (dst := oX c i) (q := fullShare) (hsc := hsc) (hsrc := hsrc) (hdst := hdst) (hsem := hsem) (Q := Q) (k := k)
    (sendF m c) fd (Orem c (3 + i.val + 1)) hO W rfl hpay₁ (land1 m c i fd)
  rw [src1_eq c i (sendF m c), dst1_eq c i fd] at key
  exact key

theorem send1b (c : Dev nD) (i : Fin 4) {n' : Dev nD} (hn : n' = pX c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = bS (chB i)) (hd : dst = oXb c i) (hsS : sS = dsem 2 i) (hsR : sR = dsem 3 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 256 + 64 * i.val) (hrd : rd = 1024 * pc c + 256 * (3 - gq c) + 64 * i.val) (kk : ℕ) (hkk : kk = 7 + i.val) (W : Waits sig Unit) :
    iprop(records m K ∗ bPts c (brows rs 64) (sendF m c) ∗ oPts (pX c) (rows rd 64) fullShare fd
        ∗ owes (c : Thread nD τ) (Orem c kk) W ∗ dutyTok ER (dCell c 2 i) 0 (0 : Fin 3) ∗ dutyTok ER (dCell (pX c) 3 i) 0 (0 : Fin 3))
      ⊢ iprop(((cred (tallyAt (dCell c 2 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (7 + i.val) = Orem c (7 + i.val + 1) + tallyAt (dCell (pX c) 3 i) () N :=
    Orem_succ c (7 + i.val) _ (by fin_cases i <;> rfl)
  have hpay₁ : (((bS (chB i)).view.loc (c : Thread nD τ)) ↦[(bS (chB i)).view.set]{fullShare} sendF m c : sProp 𝕄) ⊢ pay m c 2 i := by
    rw [src1b_eq]; exact Entails.refl _
  have key := send_gen m K c (pX c) 2 3 i hn hsS hsR (src := bS (chB i)) (dst := oXb c i) (q := fullShare) (hsc := hsc) (hsrc := hsrc) (hdst := hdst) (hsem := hsem) (Q := Q) (k := k)
    (sendF m c) fd (Orem c (7 + i.val + 1)) hO W rfl hpay₁ (land1b m c i fd)
  rw [src1b_eq c i (sendF m c), dst1b_eq c i fd] at key
  exact key

theorem sendY (c : Dev nD) (i : Fin 4) {n' : Dev nD} (hn : n' = pY c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = oFw c i) (hd : dst = oFw c i) (hsS : sS = dsem 4 i) (hsR : sR = dsem 5 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 1024 * qc c + 256 * gq c + 64 * i.val) (hrd : rd = 1024 * qc c + 256 * gq c + 64 * i.val) (kk : ℕ) (hkk : kk = 11 + 2 * i.val) (W : Waits sig Unit) :
    iprop(records m K ∗ oPts c (rows rs 64) fullShare.left (outF m c) ∗ oPts (pY c) (rows rd 64) fullShare fd
        ∗ owes (c : Thread nD τ) (Orem c kk) W ∗ dutyTok ER (dCell c 4 i) 0 (0 : Fin 3) ∗ dutyTok ER (dCell (pY c) 5 i) 0 (0 : Fin 3))
      ⊢ iprop(((cred (tallyAt (dCell c 4 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (11 + 2 * i.val) = Orem c (11 + 2 * i.val + 1) + tallyAt (dCell (pY c) 5 i) () N :=
    Orem_succ c (11 + 2 * i.val) _ (by fin_cases i <;> rfl)
  have hpay₁ : (((oFw c i).view.loc (c : Thread nD τ)) ↦[(oFw c i).view.set]{fullShare.left} outF m c : sProp 𝕄) ⊢ pay m c 4 i := by
    show (((c : Thread nD τ).loc cc0_stg1_0) ↦[(oFw c i).view.set]{fullShare.left} outF m c : sProp 𝕄) ⊢ oPts c (rows (1024 * qc c + rowA c i) 64) fullShare.left (outF m c)
    rw [set_oFw]; exact Entails.refl _
  have key := send_gen m K c (pY c) 4 5 i hn hsS hsR (src := oFw c i) (dst := oFw c i) (q := fullShare.left) (hsc := hsc) (hsrc := hsrc) (hdst := hdst) (hsem := hsem) (Q := Q) (k := k)
    (outF m c) fd (Orem c (11 + 2 * i.val + 1)) hO W rfl hpay₁ (landY m c i fd)
  rw [fw_eq c c i fullShare.left (outF m c), fw_eq c (pY c) i fullShare fd] at key
  exact key

theorem sendZ (c : Dev nD) (i : Fin 4) {n' : Dev nD} (hn : n' = pZ c)
    {src : Memref sig .tc .vmem S64x512 .bf16} {dst : Memref sig .tc .vmem S64x512 .bf16}
    {sS sR : DmaSem sig}
    {hsc : (dst : Memref sig (Dev.tc n' : Thread nD τ).2.kind .vmem S64x512 .bf16).view.ref.isScScratch = false}
    {hsrc : src.view.WordExact} {hdst : dst.view.WordExact}
    {hsem : DmaTarget.Typed .vmem (.dma sR) (.remote (Dev.tc n' : Thread nD τ) dst (.dma sS) hsc)}
    (hs : src = oFw c i) (hd : dst = oFw c i) (hsS : sS = dsem 6 i) (hsR : sR = dsem 7 i)
    {α : Type} {Q : α → sProp 𝕄} {k : PUnit → Prog (TpuEff nD τ sig (Elt F) Λ₀ .tc) α}
    (fd : (cc0_stg1_0 : Ref sig .tc).ty.Contents (Elt F)) (rs rd : ℕ) (hrs : rs = 1024 * qc c + 256 * gq c + 64 * i.val) (hrd : rd = 1024 * qc c + 256 * gq c + 64 * i.val) (kk : ℕ) (hkk : kk = 12 + 2 * i.val) (W : Waits sig Unit) :
    iprop(records m K ∗ oPts c (rows rs 64) fullShare.right (outF m c) ∗ oPts (pZ c) (rows rd 64) fullShare fd
        ∗ owes (c : Thread nD τ) (Orem c kk) W ∗ dutyTok ER (dCell c 6 i) 0 (0 : Fin 3) ∗ dutyTok ER (dCell (pZ c) 7 i) 0 (0 : Fin 3))
      ⊢ iprop(((cred (tallyAt (dCell c 6 i) () N) ∗ owes (c : Thread nD τ) (Orem c (kk + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma sS) hsc) (.dma sR) hsrc hdst hsem) k) Q) := by
  subst hs hd hrs hrd hkk
  have hO : Orem c (12 + 2 * i.val) = Orem c (12 + 2 * i.val + 1) + tallyAt (dCell (pZ c) 7 i) () N :=
    Orem_succ c (12 + 2 * i.val) _ (by fin_cases i <;> rfl)
  have hpay₁ : (((oFw c i).view.loc (c : Thread nD τ)) ↦[(oFw c i).view.set]{fullShare.right} outF m c : sProp 𝕄) ⊢ pay m c 6 i := by
    show (((c : Thread nD τ).loc cc0_stg1_0) ↦[(oFw c i).view.set]{fullShare.right} outF m c : sProp 𝕄) ⊢ oPts c (rows (1024 * qc c + rowA c i) 64) fullShare.right (outF m c)
    rw [set_oFw]; exact Entails.refl _
  have key := send_gen m K c (pZ c) 6 7 i hn hsS hsR (src := oFw c i) (dst := oFw c i) (q := fullShare.right) (hsc := hsc) (hsrc := hsrc) (hdst := hdst) (hsem := hsem) (Q := Q) (k := k)
    (outF m c) fd (Orem c (12 + 2 * i.val + 1)) hO W rfl hpay₁ (landZ m c i fd)
  rw [fw_eq c c i fullShare.right (outF m c), fw_eq c (pZ c) i fullShare fd] at key
  exact key

end Cert.KernelIdealProof

end
-- ==== Proof.KernelIdealLocal.lean ====
import proofs.«900647_g7700000000000648_dist_a2a_v7x_xyz2x4x4_x_m1024_n512_bf16_1_alg».proof.Proof.KernelIdealSteps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem ite_both {β : Type} (P : Prop) [Decidable P] (a b : β) : a = if ¬ P then a else if P then a else b := by
  by_cases h : P <;> simp [h]

/-- A guarded copy of rows of x into chunk j of the scratch, under a condition that holds exactly when P does: where it runs the chunk ends holding what the partner is sent, elsewhere it is untouched. -/
theorem fill_when (c : Dev nD) (j : Fin 8) {cnd : BitVec 1} (P : Prop) [Decidable P] (hc : cnd = if P then 1#1 else 0#1)
    {offx : Fin 2 → ℕ} {inbx : cnd = 1#1 → ∀ a, offx a + S64x512.size a ≤ S1024x1024.size a} (hoffx : P → offx = ![srow c (64 * j.val), 512 * qc c])
    {offb : Fin 2 → ℕ} {inbb} (hoffb : offb = ![64 * j.val, 0])
    {pw : Vec F S64x512 .f32 → FVec F S64x512 .bf16} (hpw : ∀ v y, pw v y = cvt (v y))
    {hl : ∀ h : cnd = 1#1, (Memref.whole cc0_stg0_0 : Memref sig .tc .vmem S1024x1024 .f32).view.LoadsAt (Rect.unit (s := S1024x1024) offx S64x512.size (inbx h)).toLoadRect} {hl' hx hm}
    {α : Type} {Q : α → sProp 𝕄} {J : Prog (TpuEff nD τ sig (Elt F) Λ₀ .tc) α} (f g : (cc0_scratch0 : Ref sig .tc).ty.Contents (Elt F)) (hg : g = if P then sendF m c else f) :
    iprop((((c : Thread nD τ).loc cc0_stg0_0) ↦{fullShare} xstg m c) ∗ bPts c (brows (64 * j.val) 64) f)
      ⊢ iprop((((((c : Thread nD τ).loc cc0_stg0_0) ↦{fullShare} xstg m c) ∗ bPts c (brows (64 * j.val) 64) g) -∗ wp frame (wpE (defs₀ (F := F)) 𝒱₀ (c : Thread nD τ) none) Set.univ J Q)
          -∗ wp frame (wpE (defs₀ (F := F)) 𝒱₀ (c : Thread nD τ) none) Set.univ
              (if h : cnd = 1#1 then
                .op (.load (Memref.whole cc0_stg0_0) (Rect.unit (s := S1024x1024) offx S64x512.size (inbx h)).toLoadRect (hl h)) fun v =>
                .op (.load (Memref.whole cc0_scratch0) (Rect.unit (s := S512x512) offb S64x512.size inbb).toLoadRect hl') fun _ =>
                .op (.store (Memref.whole cc0_scratch0) (Rect.unit (s := S512x512) offb S64x512.size inbb) (pw v) Finset.univ hx hm) fun _ => J
              else J) Q) := by
  subst hg
  by_cases hP : P
  · obtain rfl : cnd = 1#1 := hc.trans (if_pos hP)
    obtain rfl := hoffx hP
    subst hoffb
    rw [dif_pos rfl, if_pos hP]
    have hw : ∀ y : S64x512.Idx, pw (xM.view.readAt (Elt F) (Rect.unit (s := S1024x1024) ![srow c (64 * j.val), 512 * qc c] S64x512.size (inbx rfl)).toLoadRect (xstg m c)) y
        = cvt (xAt m c (srow c (64 * j.val) + (y 0).val) (512 * qc c + (y 1).val)) := by
      intro y
      rw [hpw, xload_chunk m c _ (inbx rfl) (srow c (64 * j.val)) (512 * qc c) rfl y]
    have hfin := stage_eq m c j f ![64 * j.val, 0] inbb rfl _ hw
    unfold bPts at hfin
    unfold bPts
    iintro ⟨Hx, Hb⟩ Hk
    iapply (wp_load 𝒱₀ (c : Thread nD τ) none Set.univ (m := xM) (Finset.subset_univ _)) $$ Hx; iintro Hx
    iapply (wp_load 𝒱₀ (c : Thread nD τ) none Set.univ (m := bM) (bload_sub j _ inbb rfl)) $$ Hb; iintro Hb
    iapply (wp_store 𝒱₀ (c : Thread nD τ) none Set.univ (m := bM) (Mk := Finset.univ) (bstore_sub j _ inbb rfl)) $$ Hb; iintro Hb
    iapply Hk
    isplitl [Hx]; · iexact Hx
    iapply (Entails.of_eq hfin); iexact Hb
  · obtain rfl : cnd = 0#1 := hc.trans (if_neg hP)
    rw [dif_neg (by decide), if_neg hP]
    iintro H Hk; iapply Hk; iexact H

/-- The guarded store of the local half, likewise: where it runs, the device's own half of the result ends at its final contents. -/
theorem local_when (c : Dev nD) {cnd : BitVec 1} (P : Prop) [Decidable P] (hc : cnd = if P then 1#1 else 0#1)
    {offx : Fin 2 → ℕ} {inbx : cnd = 1#1 → ∀ a, offx a + S1024x512.size a ≤ S1024x1024.size a} (hoffx : P → offx = ![0, 512 * pc c])
    {offo : Fin 2 → ℕ} {inbo} (hoffo : P → offo = ![1024 * pc c, 0])
    {pw : Vec F S1024x512 .f32 → FVec F S1024x512 .bf16} (hpw : ∀ v y, pw v y = cvt (v y))
    {hl : ∀ h : cnd = 1#1, (Memref.whole cc0_stg0_0 : Memref sig .tc .vmem S1024x1024 .f32).view.LoadsAt (Rect.unit (s := S1024x1024) offx S1024x512.size (inbx h)).toLoadRect} {hl' hx hm}
    {α : Type} {Q : α → sProp 𝕄} {J : Prog (TpuEff nD τ sig (Elt F) Λ₀ .tc) α} (f g : (cc0_stg1_0 : Ref sig .tc).ty.Contents (Elt F)) (hg : g = if P then outF m c else f) :
    iprop((((c : Thread nD τ).loc cc0_stg0_0) ↦{fullShare} xstg m c) ∗ oPts c (rows (1024 * pc c) 1024) fullShare f)
      ⊢ iprop((((((c : Thread nD τ).loc cc0_stg0_0) ↦{fullShare} xstg m c) ∗ oPts c (rows (1024 * pc c) 1024) fullShare g) -∗ wp frame (wpE (defs₀ (F := F)) 𝒱₀ (c : Thread nD τ) none) Set.univ J Q)
          -∗ wp frame (wpE (defs₀ (F := F)) 𝒱₀ (c : Thread nD τ) none) Set.univ
              (if h : cnd = 1#1 then
                .op (.load (Memref.whole cc0_stg0_0) (Rect.unit (s := S1024x1024) offx S1024x512.size (inbx h)).toLoadRect (hl h)) fun v =>
                .op (.load (Memref.whole cc0_stg1_0) (Rect.unit (s := S2048x512) offo S1024x512.size inbo).toLoadRect hl') fun _ =>
                .op (.store (Memref.whole cc0_stg1_0) (Rect.unit (s := S2048x512) offo S1024x512.size inbo) (pw v) Finset.univ hx hm) fun _ => J
              else J) Q) := by
  subst hg
  by_cases hP : P
  · obtain rfl : cnd = 1#1 := hc.trans (if_pos hP)
    obtain rfl := hoffx hP
    obtain rfl := hoffo hP
    rw [dif_pos rfl, if_pos hP]
    have hw : ∀ y : S1024x512.Idx, pw (xM.view.readAt (Elt F) (Rect.unit (s := S1024x1024) ![0, 512 * pc c] S1024x512.size (inbx rfl)).toLoadRect (xstg m c)) y
        = cvt (xAt m c (y 0).val (512 * pc c + (y 1).val)) := by
      intro y
      rw [hpw, xload_half m c _ (inbx rfl) (512 * pc c) rfl y]
    have hfin := local_eq m c f ![1024 * pc c, 0] inbo rfl _ hw
    unfold oPts at hfin
    unfold oPts
    iintro ⟨Hx, Ho⟩ Hk
    iapply (wp_load 𝒱₀ (c : Thread nD τ) none Set.univ (m := xM) (Finset.subset_univ _)) $$ Hx; iintro Hx
    iapply (wp_load 𝒱₀ (c : Thread nD τ) none Set.univ (m := oM) (oload_sub (1024 * pc c) _ inbo rfl)) $$ Ho; iintro Ho
    iapply (wp_store 𝒱₀ (c : Thread nD τ) none Set.univ (m := oM) (Mk := Finset.univ) (ostore_sub (1024 * pc c) _ inbo rfl)) $$ Ho; iintro Ho
    iapply Hk
    isplitl [Hx]; · iexact Hx
    iapply (Entails.of_eq hfin); iexact Ho
  · obtain rfl : cnd = 0#1 := hc.trans (if_neg hP)
    rw [dif_neg (by decide), if_neg hP]
    iintro H Hk; iapply Hk; iexact H

end Cert.KernelIdealProof

end
-- ==== Proof.KernelIdealChains.lean ====
import proofs.«900647_g7700000000000648_dist_a2a_v7x_xyz2x4x4_x_m1024_n512_bf16_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem bigSep_4x4 (Φ : Fin 4 → Fin 4 → sProp 𝕄) :
    bigSep Finset.univ (fun bi : Fin 4 × Fin 4 => Φ bi.1 bi.2)
      = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3) ∗ (Φ 3 0 ∗ Φ 3 1 ∗ Φ 3 2 ∗ Φ 3 3)) := by
  rw [bigSep_univ_prod (fun bi : Fin 4 × Fin 4 => Φ bi.1 bi.2), bigSep_fin4]
  simp only [bigSep_fin4]

theorem bigSep_8x4 (Φ : Fin 8 → Fin 4 → sProp 𝕄) :
    bigSep Finset.univ (fun ai : Fin 8 × Fin 4 => Φ ai.1 ai.2)
      = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3) ∗ (Φ 3 0 ∗ Φ 3 1 ∗ Φ 3 2 ∗ Φ 3 3)
        ∗ (Φ 4 0 ∗ Φ 4 1 ∗ Φ 4 2 ∗ Φ 4 3) ∗ (Φ 5 0 ∗ Φ 5 1 ∗ Φ 5 2 ∗ Φ 5 3) ∗ (Φ 6 0 ∗ Φ 6 1 ∗ Φ 6 2 ∗ Φ 6 3) ∗ (Φ 7 0 ∗ Φ 7 1 ∗ Φ 7 2 ∗ Φ 7 3)) := by
  rw [bigSep_univ_prod (fun ai : Fin 8 × Fin 4 => Φ ai.1 ai.2), bigSep_fin8]
  simp only [bigSep_fin4]

theorem posns_eq (c : Dev nD) : (posns (F := F) c : sProp 𝕄)
    = iprop(atPos ER (barCell c) 0 ∅ 0 ∗ (
        (atPos ER (dCell c 0 0) 0 ∅ 0 ∗ atPos ER (dCell c 0 1) 0 ∅ 0 ∗ atPos ER (dCell c 0 2) 0 ∅ 0 ∗ atPos ER (dCell c 0 3) 0 ∅ 0)
      ∗ (atPos ER (dCell c 1 0) 0 ∅ 0 ∗ atPos ER (dCell c 1 1) 0 ∅ 0 ∗ atPos ER (dCell c 1 2) 0 ∅ 0 ∗ atPos ER (dCell c 1 3) 0 ∅ 0)
      ∗ (atPos ER (dCell c 2 0) 0 ∅ 0 ∗ atPos ER (dCell c 2 1) 0 ∅ 0 ∗ atPos ER (dCell c 2 2) 0 ∅ 0 ∗ atPos ER (dCell c 2 3) 0 ∅ 0)
      ∗ (atPos ER (dCell c 3 0) 0 ∅ 0 ∗ atPos ER (dCell c 3 1) 0 ∅ 0 ∗ atPos ER (dCell c 3 2) 0 ∅ 0 ∗ atPos ER (dCell c 3 3) 0 ∅ 0)
      ∗ (atPos ER (dCell c 4 0) 0 ∅ 0 ∗ atPos ER (dCell c 4 1) 0 ∅ 0 ∗ atPos ER (dCell c 4 2) 0 ∅ 0 ∗ atPos ER (dCell c 4 3) 0 ∅ 0)
      ∗ (atPos ER (dCell c 5 0) 0 ∅ 0 ∗ atPos ER (dCell c 5 1) 0 ∅ 0 ∗ atPos ER (dCell c 5 2) 0 ∅ 0 ∗ atPos ER (dCell c 5 3) 0 ∅ 0)
      ∗ (atPos ER (dCell c 6 0) 0 ∅ 0 ∗ atPos ER (dCell c 6 1) 0 ∅ 0 ∗ atPos ER (dCell c 6 2) 0 ∅ 0 ∗ atPos ER (dCell c 6 3) 0 ∅ 0)
      ∗ (atPos ER (dCell c 7 0) 0 ∅ 0 ∗ atPos ER (dCell c 7 1) 0 ∅ 0 ∗ atPos ER (dCell c 7 2) 0 ∅ 0 ∗ atPos ER (dCell c 7 3) 0 ∅ 0))) := by
  unfold posns; rw [bigSep_8x4 (fun a i => (atPos ER (dCell c a i) 0 ∅ 0 : sProp 𝕄))]

theorem payToks_eq (c : Dev nD) : (payToks (F := F) c : sProp 𝕄)
    = iprop(dutyTok ER (barCell (pX c)) 0 (0 : Fin 3) ∗ dutyTok ER (barCell (pY c)) 0 (1 : Fin 3) ∗ dutyTok ER (barCell (pZ c)) 0 (2 : Fin 3) ∗ (
        (dutyTok ER (dCell c 0 0) 0 (0 : Fin 3) ∗ dutyTok ER (dCell c 0 1) 0 (0 : Fin 3) ∗ dutyTok ER (dCell c 0 2) 0 (0 : Fin 3) ∗ dutyTok ER (dCell c 0 3) 0 (0 : Fin 3))
      ∗ (dutyTok ER (dCell (pX c) 1 0) 0 (0 : Fin 3) ∗ dutyTok ER (dCell (pX c) 1 1) 0 (0 : Fin 3) ∗ dutyTok ER (dCell (pX c) 1 2) 0 (0 : Fin 3) ∗ dutyTok ER (dCell (pX c) 1 3) 0 (0 : Fin 3))
      ∗ (dutyTok ER (dCell c 2 0) 0 (0 : Fin 3) ∗ dutyTok ER (dCell c 2 1) 0 (0 : Fin 3) ∗ dutyTok ER (dCell c 2 2) 0 (0 : Fin 3) ∗ dutyTok ER (dCell c 2 3) 0 (0 : Fin 3))
      ∗ (dutyTok ER (dCell (pX c) 3 0) 0 (0 : Fin 3) ∗ dutyTok ER (dCell (pX c) 3 1) 0 (0 : Fin 3) ∗ dutyTok ER (dCell (pX c) 3 2) 0 (0 : Fin 3) ∗ dutyTok ER (dCell (pX c) 3 3) 0 (0 : Fin 3))
      ∗ (dutyTok ER (dCell c 4 0) 0 (0 : Fin 3) ∗ dutyTok ER (dCell c 4 1) 0 (0 : Fin 3) ∗ dutyTok ER (dCell c 4 2) 0 (0 : Fin 3) ∗ dutyTok ER (dCell c 4 3) 0 (0 : Fin 3))
      ∗ (dutyTok ER (dCell (pY c) 5 0) 0 (0 : Fin 3) ∗ dutyTok ER (dCell (pY c) 5 1) 0 (0 : Fin 3) ∗ dutyTok ER (dCell (pY c) 5 2) 0 (0 : Fin 3) ∗ dutyTok ER (dCell (pY c) 5 3) 0 (0 : Fin 3))
      ∗ (dutyTok ER (dCell c 6 0) 0 (0 : Fin 3) ∗ dutyTok ER (dCell c 6 1) 0 (0 : Fin 3) ∗ dutyTok ER (dCell c 6 2) 0 (0 : Fin 3) ∗ dutyTok ER (dCell c 6 3) 0 (0 : Fin 3))
      ∗ (dutyTok ER (dCell (pZ c) 7 0) 0 (0 : Fin 3) ∗ dutyTok ER (dCell (pZ c) 7 1) 0 (0 : Fin 3) ∗ dutyTok ER (dCell (pZ c) 7 2) 0 (0 : Fin 3) ∗ dutyTok ER (dCell (pZ c) 7 3) 0 (0 : Fin 3)))) := by
  unfold payToks; rw [bigSep_8x4 (fun a i => (dutyTok ER (dCell (payee c a) a i) 0 (0 : Fin 3) : sProp 𝕄))]; rfl

theorem creds_eq (c : Dev nD) : (creds (F := F) c : sProp 𝕄)
    = iprop(cred (tallyAt (barCell c) () 3) ∗ (
        (cred (tallyAt (dCell c 1 0) () N) ∗ cred (tallyAt (dCell c 1 1) () N) ∗ cred (tallyAt (dCell c 1 2) () N) ∗ cred (tallyAt (dCell c 1 3) () N))
      ∗ (cred (tallyAt (dCell c 3 0) () N) ∗ cred (tallyAt (dCell c 3 1) () N) ∗ cred (tallyAt (dCell c 3 2) () N) ∗ cred (tallyAt (dCell c 3 3) () N))
      ∗ (cred (tallyAt (dCell c 5 0) () N) ∗ cred (tallyAt (dCell c 5 1) () N) ∗ cred (tallyAt (dCell c 5 2) () N) ∗ cred (tallyAt (dCell c 5 3) () N))
      ∗ (cred (tallyAt (dCell c 7 0) () N) ∗ cred (tallyAt (dCell c 7 1) () N) ∗ cred (tallyAt (dCell c 7 2) () N) ∗ cred (tallyAt (dCell c 7 3) () N)))) := by
  unfold creds; rw [bigSep_4x4 (fun b i => (cred (tallyAt (dCell c ⟨2 * b.val + 1, by omega⟩ i) () N) : sProp 𝕄))]; rfl

end Cert.KernelIdealProof

end
-- ==== Proof.KernelIdealConds.lean ====
import proofs.«900647_g7700000000000648_dist_a2a_v7x_xyz2x4x4_x_m1024_n512_bf16_1_alg».proof.Proof.KernelIdealMesh

set_option Elab.async false

namespace Cert.KernelIdealProof

open Cert.KernelIdeal Cert.KernelIdeal.Gen
open Idealize.ShloMosaic Idealize.SL.Sem

theorem cond17_eq : ∀ c : Dev nD, Scalar.cmpi .ne (Scalar.extui (Scalar.cmpi .eq (Scalar.remsi (Scalar.divsi (Dev.word c) 16#32) 2#32) 0#32) : BitVec 32) 0#32 = condP0 c := by decide +kernel
theorem cond18_eq : ∀ c : Dev nD, Scalar.cmpi .ne (Scalar.extui (Scalar.cmpi .eq (Scalar.remsi (Scalar.divsi (Dev.word c) 16#32) 2#32) 1#32) : BitVec 32) 0#32 = condP1 c := by decide +kernel

end Cert.KernelIdealProof
-- ==== Proof.KernelIdealOffs.lean ====
import proofs.«900647_g7700000000000648_dist_a2a_v7x_xyz2x4x4_x_m1024_n512_bf16_1_alg».proof.Proof.KernelIdealConds
import proofs.«900647_g7700000000000648_dist_a2a_v7x_xyz2x4x4_x_m1024_n512_bf16_1_alg».proof.Proof.KernelIdealPieces
import proofs.«900647_g7700000000000648_dist_a2a_v7x_xyz2x4x4_x_m1024_n512_bf16_1_alg».proof.Proof.KernelIdealTables

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem off1_p0 : ∀ c : Dev nD, c.val < 16 → k0_off1 c = ![srow c (64 * (0 : Fin 8).val), 512 * qc c] := by decide +kernel
theorem off2_p1 : ∀ c : Dev nD, ¬ c.val < 16 → k0_off2 c = ![srow c (64 * (0 : Fin 8).val), 512 * qc c] := by decide +kernel
theorem off4_p0 : ∀ c : Dev nD, c.val < 16 → k0_off4 c = ![srow c (64 * (1 : Fin 8).val), 512 * qc c] := by decide +kernel
theorem off5_p1 : ∀ c : Dev nD, ¬ c.val < 16 → k0_off5 c = ![srow c (64 * (1 : Fin 8).val), 512 * qc c] := by decide +kernel
theorem off6_p0 : ∀ c : Dev nD, c.val < 16 → k0_off6 c = ![srow c (64 * (2 : Fin 8).val), 512 * qc c] := by decide +kernel
theorem off7_p1 : ∀ c : Dev nD, ¬ c.val < 16 → k0_off7 c = ![srow c (64 * (2 : Fin 8).val), 512 * qc c] := by decide +kernel
theorem off8_p0 : ∀ c : Dev nD, c.val < 16 → k0_off8 c = ![srow c (64 * (3 : Fin 8).val), 512 * qc c] := by decide +kernel
theorem off9_p1 : ∀ c : Dev nD, ¬ c.val < 16 → k0_off9 c = ![srow c (64 * (3 : Fin 8).val), 512 * qc c] := by decide +kernel
theorem off10_p0 : ∀ c : Dev nD, c.val < 16 → k0_off10 c = ![srow c (64 * (4 : Fin 8).val), 512 * qc c] := by decide +kernel
theorem off11_p1 : ∀ c : Dev nD, ¬ c.val < 16 → k0_off11 c = ![srow c (64 * (4 : Fin 8).val), 512 * qc c] := by decide +kernel
theorem off13_p0 : ∀ c : Dev nD, c.val < 16 → k0_off13 c = ![srow c (64 * (5 : Fin 8).val), 512 * qc c] := by decide +kernel
theorem off14_p1 : ∀ c : Dev nD, ¬ c.val < 16 → k0_off14 c = ![srow c (64 * (5 : Fin 8).val), 512 * qc c] := by decide +kernel
theorem off15_p0 : ∀ c : Dev nD, c.val < 16 → k0_off15 c = ![srow c (64 * (6 : Fin 8).val), 512 * qc c] := by decide +kernel
theorem off16_p1 : ∀ c : Dev nD, ¬ c.val < 16 → k0_off16 c = ![srow c (64 * (6 : Fin 8).val), 512 * qc c] := by decide +kernel
theorem off17_p0 : ∀ c : Dev nD, c.val < 16 → k0_off17 c = ![srow c (64 * (7 : Fin 8).val), 512 * qc c] := by decide +kernel
theorem off18_p1 : ∀ c : Dev nD, ¬ c.val < 16 → k0_off18 c = ![srow c (64 * (7 : Fin 8).val), 512 * qc c] := by decide +kernel

theorem loc_x_p0 : ∀ c : Dev nD, c.val < 16 → (![0, 0] : Fin 2 → ℕ) = ![0, 512 * pc c] := by decide
theorem loc_o_p0 : ∀ c : Dev nD, c.val < 16 → (![0, 0] : Fin 2 → ℕ) = ![1024 * pc c, 0] := by decide
theorem loc_x_p1 : ∀ c : Dev nD, ¬ c.val < 16 → (![0, 512] : Fin 2 → ℕ) = ![0, 512 * pc c] := by decide
theorem loc_o_p1 : ∀ c : Dev nD, ¬ c.val < 16 → (![1024, 0] : Fin 2 → ℕ) = ![1024 * pc c, 0] := by decide

theorem mayWait_done (c : Dev nD) (s : SemLoc sig) : (levAts L lv : sProp 𝕄) ⊢ MayWait (c : Thread nD τ) s () (Orem c 19) := by
  rw [show Orem c 19 = 0 from rfl, MayWait_zero]; iintro -; iempintro

end Cert.KernelIdealProof

end
-- ==== Proof.KernelIdealFinish.lean ====
import proofs.«900647_g7700000000000648_dist_a2a_v7x_xyz2x4x4_x_m1024_n512_bf16_1_alg».proof.Proof.KernelIdealSteps
import proofs.«900647_g7700000000000648_dist_a2a_v7x_xyz2x4x4_x_m1024_n512_bf16_1_alg».proof.Proof.KernelIdealChains

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

theorem cells_close (c : Dev nD) :
    iprop(records m K ∗ bigSep Finset.univ fun ai : Fin 8 × Fin 4 => atPos ER (dCell c ai.1 ai.2) 1 ∅ 0)
      ⊢ (|={Set.univ}=> bigSep Finset.univ fun ai : Fin 8 × Fin 4 => semVal (dCell c ai.1 ai.2) 0 : sProp 𝕄) :=
  (bigSep_with_persistent (R := records m K) (Ψ := fun ai : Fin 8 × Fin 4 => iprop(|={Set.univ}=> semVal (dCell c ai.1 ai.2) 0))
    fun ai _ => close_d m K c ai.1 ai.2).trans (bigSep_fupd _ _)

theorem scratch_join (c : Dev nD) :
    iprop((pay m c 0 0 ∗ pay m c 0 1 ∗ pay m c 0 2 ∗ pay m c 0 3) ∗ (pay m c 2 0 ∗ pay m c 2 1 ∗ pay m c 2 2 ∗ pay m c 2 3)) ⊢ (bPts c Finset.univ (sendF m c) : sProp 𝕄) := by
  refine BI.Entails.trans ?_ (scratch_split c (sendF m c)).2
  show iprop((bPts c (brows 0 64) (sendF m c) ∗ bPts c (brows 64 64) (sendF m c) ∗ bPts c (brows 128 64) (sendF m c) ∗ bPts c (brows 192 64) (sendF m c))
      ∗ (bPts c (brows 256 64) (sendF m c) ∗ bPts c (brows 320 64) (sendF m c) ∗ bPts c (brows 384 64) (sendF m c) ∗ bPts c (brows 448 64) (sendF m c))) ⊢ _
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem quarter_join (d : Dev nD) (lo : ℕ) (q : PosShare TreeShare) (f : (cc0_stg1_0 : Ref sig .tc).ty.Contents (Elt F)) (r : Fin 4 → ℕ)
    (hr : ∀ i : Fin 4, r i = lo + 64 * i.val) :
    iprop(oPts d (rows (r 0) 64) q f ∗ oPts d (rows (r 1) 64) q f ∗ oPts d (rows (r 2) 64) q f ∗ oPts d (rows (r 3) 64) q f)
      ⊢ (oPts d (rows lo 256) q f : sProp 𝕄) := by
  have h0 : r 0 = lo := by rw [hr 0]; show lo + 64 * 0 = lo; omega
  have h1 : r 1 = lo + 64 := by rw [hr 1]; show lo + 64 * 1 = lo + 64; omega
  have h2 : r 2 = lo + 128 := by rw [hr 2]; show lo + 64 * 2 = lo + 128; omega
  have h3 : r 3 = lo + 192 := by rw [hr 3]; show lo + 64 * 3 = lo + 192; omega
  rw [h0, h1, h2, h3]
  exact (quarter_split d lo q f).2

theorem quarter_g (c : Dev nD) :
    iprop((pay m c 4 0 ∗ pay m c 4 1 ∗ pay m c 4 2 ∗ pay m c 4 3) ∗ (pay m c 6 0 ∗ pay m c 6 1 ∗ pay m c 6 2 ∗ pay m c 6 3)) ⊢ (oPts c (rows (1024 * qc c + 256 * gq c) 256) fullShare (outF m c) : sProp 𝕄) := by
  refine BI.Entails.trans ?_ (quarter_join c (1024 * qc c + 256 * gq c) fullShare (outF m c) (fun i => 1024 * qc c + rowA c i)
    (fun i => by show 1024 * qc c + rowA c i = _; unfold rowA; omega))
  show iprop((oPts c (rows (1024 * qc c + rowA c 0) 64) fullShare.left (outF m c) ∗ oPts c (rows (1024 * qc c + rowA c 1) 64) fullShare.left (outF m c)
        ∗ oPts c (rows (1024 * qc c + rowA c 2) 64) fullShare.left (outF m c) ∗ oPts c (rows (1024 * qc c + rowA c 3) 64) fullShare.left (outF m c))
      ∗ (oPts c (rows (1024 * qc c + rowA c 0) 64) fullShare.right (outF m c) ∗ oPts c (rows (1024 * qc c + rowA c 1) 64) fullShare.right (outF m c)
        ∗ oPts c (rows (1024 * qc c + rowA c 2) 64) fullShare.right (outF m c) ∗ oPts c (rows (1024 * qc c + rowA c 3) 64) fullShare.right (outF m c)))
    ⊢ iprop(oPts c (rows (1024 * qc c + rowA c 0) 64) fullShare (outF m c) ∗ oPts c (rows (1024 * qc c + rowA c 1) 64) fullShare (outF m c)
        ∗ oPts c (rows (1024 * qc c + rowA c 2) 64) fullShare (outF m c) ∗ oPts c (rows (1024 * qc c + rowA c 3) 64) fullShare (outF m c))
  iintro ⟨⟨L0, L1, L2, L3⟩, R0, R1, R2, R3⟩
  isplitl [L0 R0]
  · iapply (oPts_halves c (rows (1024 * qc c + rowA c 0) 64) (outF m c)).2
    isplitl [L0]; · iexact L0
    iexact R0
  isplitl [L1 R1]
  · iapply (oPts_halves c (rows (1024 * qc c + rowA c 1) 64) (outF m c)).2
    isplitl [L1]; · iexact L1
    iexact R1
  isplitl [L2 R2]
  · iapply (oPts_halves c (rows (1024 * qc c + rowA c 2) 64) (outF m c)).2
    isplitl [L2]; · iexact L2
    iexact R2
  · iapply (oPts_halves c (rows (1024 * qc c + rowA c 3) 64) (outF m c)).2
    isplitl [L3]; · iexact L3
    iexact R3

theorem quarter_b (c : Dev nD) :
    iprop(pay m c 3 0 ∗ pay m c 3 1 ∗ pay m c 3 2 ∗ pay m c 3 3) ⊢ (oPts c (rows (1024 * qc c + 256 * (3 - gq c)) 256) fullShare (outF m c) : sProp 𝕄) :=
  quarter_join c (1024 * qc c + 256 * (3 - gq c)) fullShare (outF m c) (fun i => 1024 * qc c + rowB c i)
    (fun i => by show 1024 * qc c + rowB c i = _; unfold rowB; omega)

theorem quarter_y (c : Dev nD) :
    iprop(pay m c 5 0 ∗ pay m c 5 1 ∗ pay m c 5 2 ∗ pay m c 5 3) ⊢ (oPts c (rows (1024 * qc c + 256 * gq (pY c)) 256) fullShare (outF m c) : sProp 𝕄) :=
  quarter_join c (1024 * qc c + 256 * gq (pY c)) fullShare (outF m c) (fun i => 1024 * qc c + rowA (pY c) i)
    (fun i => by show 1024 * qc c + rowA (pY c) i = _; unfold rowA; omega)
theorem quarter_z (c : Dev nD) :
    iprop(pay m c 7 0 ∗ pay m c 7 1 ∗ pay m c 7 2 ∗ pay m c 7 3) ⊢ (oPts c (rows (1024 * qc c + 256 * gq (pZ c)) 256) fullShare (outF m c) : sProp 𝕄) :=
  quarter_join c (1024 * qc c + 256 * gq (pZ c)) fullShare (outF m c) (fun i => 1024 * qc c + rowA (pZ c) i)
    (fun i => by show 1024 * qc c + rowA (pZ c) i = _; unfold rowA; omega)

theorem finish (c : Dev nD) :
    iprop(records m K ∗ (bigSep Finset.univ fun ai : Fin 8 × Fin 4 => atPos ER (dCell c ai.1 ai.2) 1 ∅ 0)
        ∗ ((pay m c 0 0 ∗ pay m c 0 1 ∗ pay m c 0 2 ∗ pay m c 0 3) ∗ (pay m c 2 0 ∗ pay m c 2 1 ∗ pay m c 2 2 ∗ pay m c 2 3) ∗ (pay m c 3 0 ∗ pay m c 3 1 ∗ pay m c 3 2 ∗ pay m c 3 3)
          ∗ (pay m c 4 0 ∗ pay m c 4 1 ∗ pay m c 4 2 ∗ pay m c 4 3) ∗ (pay m c 5 0 ∗ pay m c 5 1 ∗ pay m c 5 2 ∗ pay m c 5 3) ∗ (pay m c 6 0 ∗ pay m c 6 1 ∗ pay m c 6 2 ∗ pay m c 6 3) ∗ (pay m c 7 0 ∗ pay m c 7 1 ∗ pay m c 7 2 ∗ pay m c 7 3))
        ∗ oPts c (rows (1024 * pc c) 1024) fullShare (outF m c))
      ⊢ (|={Set.univ}=> iprop(Φ₁ c ∗ ((((c : Thread nD τ).loc cc0_stg1_0) ↦{fullShare} outF m c))) : sProp 𝕄) := by
  iintro ⟨#Hrec, Hat, ⟨G0, G2, G3, G4, G5, G6, G7⟩, Hloc⟩
  imod (cells_close m K c) $$ [Hat] with Hz
  · isplitr; · iexact Hrec
    iexact Hat
  imodintro
  unfold Φ₁
  isplitl [G0 G2 Hz]
  · isplitl [G0 G2]
    · iexists (sendF m c)
      iapply (scratch_join m c)
      isplitl [G0]; · iexact G0
      iexact G2
    · iexact Hz
  · iapply (out_split c (outF m c)).2
    isplitl [Hloc]; · iexact Hloc
    isplitl [G4 G6]
    · iapply (quarter_g m c)
      isplitl [G4]; · iexact G4
      iexact G6
    isplitl [G3]; · iapply (quarter_b m c); iexact G3
    isplitl [G5]; · iapply (quarter_y m c); iexact G5
    iapply (quarter_z m c); iexact G7

end Cert.KernelIdealProof

end
-- ==== Proof.KernelIdealBodyRun.lean ====
/-
One device's body, stepped in program order from what it starts from to what it hands back.
-/
import proofs.«900647_g7700000000000648_dist_a2a_v7x_xyz2x4x4_x_m1024_n512_bf16_1_alg».proof.Proof.KernelIdealBodyDefs
import proofs.«900647_g7700000000000648_dist_a2a_v7x_xyz2x4x4_x_m1024_n512_bf16_1_alg».proof.Proof.KernelIdealSends
import proofs.«900647_g7700000000000648_dist_a2a_v7x_xyz2x4x4_x_m1024_n512_bf16_1_alg».proof.Proof.KernelIdealLocal
import proofs.«900647_g7700000000000648_dist_a2a_v7x_xyz2x4x4_x_m1024_n512_bf16_1_alg».proof.Proof.KernelIdealChains
import proofs.«900647_g7700000000000648_dist_a2a_v7x_xyz2x4x4_x_m1024_n512_bf16_1_alg».proof.Proof.KernelIdealOffs
import proofs.«900647_g7700000000000648_dist_a2a_v7x_xyz2x4x4_x_m1024_n512_bf16_1_alg».proof.Proof.KernelIdealFinish

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

theorem pay_1 (c : Dev nD) (i : Fin 4) : pay m c 1 i = oPts c (rows (1024 * qc c + rowA c i) 64) fullShare (outF m c) := rfl

set_option maxHeartbeats 16000000 in
set_option maxRecDepth 65536 in
/-- One run for every device: the two guarded copies of each local step are taken together, exactly one of them running. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4 cc0_scratch5 cc0_scratch6 cc0_scratch7 cc0_scratch8) Kt := by
  simp only [cc0_body_eq_skeleton]; unfold cc0_body_skel
  simp only [k0_part19_eq_skeleton]; unfold k0_part19_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [cond1_eq, cond2_eq, cond3_eq, cond4_eq, cond5_eq, cond6_eq, cond7_eq, cond8_eq, cond9_eq, cond10_eq, cond11_eq, cond12_eq, cond13_eq, cond14_eq, cond15_eq, cond16_eq, cond17_eq, cond18_eq,
    semSignalWord, semWaitWord, Prog.lift, Prog.bind_op, Prog.bind_ret, Prog.pure_eq_ret, wp_deviceId, dev1_eq, dev2_eq, dev3_eq]
  unfold bodyPre ghost
  rw [posns_eq, payToks_eq, creds_eq]
  iintro ⟨⟨⟨⟨#HR, ⟨HaB, HaG⟩, HtX, HtY, HtZ, HtG⟩, ⟨HcB, HcG⟩, #Hlev, ⟨%fb, Hb⟩⟩, Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = Orem c 0 from rfl]
  icases (out_split c g1).1 $$ Hout with ⟨HoL, HoA, HoB, HoY, HoZ⟩
  iapply (sig_step m K c (pX c) 0 rfl _ (Entails.of_eq (barPay_X c).symm) (Orem c 1) (Orem_succ c 0 _ rfl) W) $$ [HO HtX HoA HoB]
  · iframe # HO HtX
    isplitl [HoA] <;> iexists g1 <;> iassumption
  iintro HO
  iapply (sig_step m K c (pY c) 1 rfl _ (Entails.of_eq (barPay_Y c).symm) (Orem c 2) (Orem_succ c 1 _ rfl) W) $$ [HO HtY HoY]
  · iframe # HO HtY
    iexists g1; iexact HoY
  iintro HO
  iapply (sig_step m K c (pZ c) 2 rfl _ (Entails.of_eq (barPay_Z c).symm) (Orem c 3) (Orem_succ c 2 _ rfl) W) $$ [HO HtZ HoZ]
  · iframe # HO HtZ
    iexists g1; iexact HoZ
  iintro HO
  iapply (bar_wait m K c W) $$ [HcB HO HaB]
  · iframe # ∗
  iintro ⟨HO, HaB, ⟨⟨%fA, HLA⟩, ⟨%fB, HLB⟩⟩, ⟨%fY, HLY⟩, ⟨%fZ, HLZ⟩⟩
  icases (scratch_split c fb).1 $$ Hb with ⟨Hb0, Hb1, Hb2, Hb3, Hb4, Hb5, Hb6, Hb7⟩
  icases (quarter_split (pX c) _ fullShare fA).1 $$ HLA with ⟨HLA0, HLA1, HLA2, HLA3⟩
  icases HtG with ⟨⟨Ht00, Ht01, Ht02, Ht03⟩, ⟨Ht10, Ht11, Ht12, Ht13⟩, HtG⟩
  rw [wp_bind]
  rw [wp_bind]
  iapply (fill_when m c 0 (c.val < 16) rfl (off1_p0 c) rfl pay1_apply fb _ rfl) $$ [Hx Hb0]
  · iframe
  iintro ⟨Hx, Hb0⟩
  iapply (fill_when m c 0 (¬ c.val < 16) rfl (off2_p1 c) rfl pay1_apply _ _ (ite_both _ _ fb)) $$ [Hx Hb0]
  · iframe
  iintro ⟨Hx, Hb0⟩
  rw [wp_ret]; imodintro
  iapply (send1 m K c 0 (dev4_eq c) rfl rfl (by decide) (by decide) fA _ _ rfl rfl 3 rfl _) $$ [Hb0 HLA0 HO Ht00 Ht10]
  · iframe # ∗
  iintro ⟨Hc00, HO⟩
  rw [wp_bind]
  iapply (fill_when m c 1 (c.val < 16) rfl (off4_p0 c) rfl pay1_apply fb _ rfl) $$ [Hx Hb1]
  · iframe
  iintro ⟨Hx, Hb1⟩
  iapply (fill_when m c 1 (¬ c.val < 16) rfl (off5_p1 c) rfl pay1_apply _ _ (ite_both _ _ fb)) $$ [Hx Hb1]
  · iframe
  iintro ⟨Hx, Hb1⟩
  rw [wp_ret]; imodintro
  iapply (send1 m K c 1 (dev5_eq c) rfl rfl (by decide) (by decide) fA _ _ rfl rfl 4 rfl _) $$ [Hb1 HLA1 HO Ht01 Ht11]
  · iframe # ∗
  iintro ⟨Hc01, HO⟩
  rw [wp_bind]
  iapply (fill_when m c 2 (c.val < 16) rfl (off6_p0 c) rfl pay1_apply fb _ rfl) $$ [Hx Hb2]
  · iframe
  iintro ⟨Hx, Hb2⟩
  iapply (fill_when m c 2 (¬ c.val < 16) rfl (off7_p1 c) rfl pay1_apply _ _ (ite_both _ _ fb)) $$ [Hx Hb2]
  · iframe
  iintro ⟨Hx, Hb2⟩
  iapply (send1 m K c 2 (dev6_eq c) rfl rfl (by decide) (by decide) fA _ _ rfl rfl 5 rfl _) $$ [Hb2 HLA2 HO Ht02 Ht12]
  · iframe # ∗
  iintro ⟨Hc02, HO⟩
  iapply (fill_when m c 3 (c.val < 16) rfl (off8_p0 c) rfl pay1_apply fb _ rfl) $$ [Hx Hb3]
  · iframe
  iintro ⟨Hx, Hb3⟩
  iapply (fill_when m c 3 (¬ c.val < 16) rfl (off9_p1 c) rfl pay1_apply _ _ (ite_both _ _ fb)) $$ [Hx Hb3]
  · iframe
  iintro ⟨Hx, Hb3⟩
  rw [wp_ret]; imodintro
  iapply (send1 m K c 3 (dev7_eq c) rfl rfl (by decide) (by decide) fA _ _ rfl rfl 6 rfl _) $$ [Hb3 HLA3 HO Ht03 Ht13]
  · iframe # ∗
  iintro ⟨Hc03, HO⟩
  icases (quarter_split (pX c) _ fullShare fB).1 $$ HLB with ⟨HLB0, HLB1, HLB2, HLB3⟩
  icases HtG with ⟨⟨Ht20, Ht21, Ht22, Ht23⟩, ⟨Ht30, Ht31, Ht32, Ht33⟩, HtG⟩
  rw [wp_bind]
  iapply (fill_when m c 4 (c.val < 16) rfl (off10_p0 c) rfl pay1_apply fb _ rfl) $$ [Hx Hb4]
  · iframe
  iintro ⟨Hx, Hb4⟩
  iapply (fill_when m c 4 (¬ c.val < 16) rfl (off11_p1 c) rfl pay1_apply _ _ (ite_both _ _ fb)) $$ [Hx Hb4]
  · iframe
  iintro ⟨Hx, Hb4⟩
  rw [wp_ret]; imodintro
  iapply (send1b m K c 0 (dev8_eq c) rfl rfl (by decide) (by decide) fB _ _ rfl rfl 7 rfl _) $$ [Hb4 HLB0 HO Ht20 Ht30]
  · iframe # ∗
  iintro ⟨Hc20, HO⟩
  rw [wp_bind]
  iapply (fill_when m c 5 (c.val < 16) rfl (off13_p0 c) rfl pay1_apply fb _ rfl) $$ [Hx Hb5]
  · iframe
  iintro ⟨Hx, Hb5⟩
  iapply (fill_when m c 5 (¬ c.val < 16) rfl (off14_p1 c) rfl pay1_apply _ _ (ite_both _ _ fb)) $$ [Hx Hb5]
  · iframe
  iintro ⟨Hx, Hb5⟩
  iapply (send1b m K c 1 (dev9_eq c) rfl rfl (by decide) (by decide) fB _ _ rfl rfl 8 rfl _) $$ [Hb5 HLB1 HO Ht21 Ht31]
  · iframe # ∗
  iintro ⟨Hc21, HO⟩
  iapply (fill_when m c 6 (c.val < 16) rfl (off15_p0 c) rfl pay1_apply fb _ rfl) $$ [Hx Hb6]
  · iframe
  iintro ⟨Hx, Hb6⟩
  rw [wp_ret]; imodintro
  rw [wp_bind]
  iapply (fill_when m c 6 (¬ c.val < 16) rfl (off16_p1 c) rfl pay1_apply _ _ (ite_both _ _ fb)) $$ [Hx Hb6]
  · iframe
  iintro ⟨Hx, Hb6⟩
  iapply (send1b m K c 2 (dev10_eq c) rfl rfl (by decide) (by decide) fB _ _ rfl rfl 9 rfl _) $$ [Hb6 HLB2 HO Ht22 Ht32]
  · iframe # ∗
  iintro ⟨Hc22, HO⟩
  iapply (fill_when m c 7 (c.val < 16) rfl (off17_p0 c) rfl pay1_apply fb _ rfl) $$ [Hx Hb7]
  · iframe
  iintro ⟨Hx, Hb7⟩
  iapply (fill_when m c 7 (¬ c.val < 16) rfl (off18_p1 c) rfl pay1_apply _ _ (ite_both _ _ fb)) $$ [Hx Hb7]
  · iframe
  iintro ⟨Hx, Hb7⟩
  rw [wp_ret]; imodintro
  iapply (send1b m K c 3 (dev11_eq c) rfl rfl (by decide) (by decide) fB _ _ rfl rfl 10 rfl _) $$ [Hb7 HLB3 HO Ht23 Ht33]
  · iframe # ∗
  iintro ⟨Hc23, HO⟩
  rw [wp_bind]
  iapply (local_when m c (c.val < 16) rfl (loc_x_p0 c) (loc_o_p0 c) pay17_apply g1 _ rfl) $$ [Hx HoL]
  · iframe
  iintro ⟨Hx, HoL⟩
  iapply (local_when m c (¬ c.val < 16) rfl (loc_x_p1 c) (loc_o_p1 c) pay17_apply _ _ (ite_both _ _ g1)) $$ [Hx HoL]
  · iframe
  iintro ⟨Hx, HoL⟩
  icases (quarter_split (pY c) _ fullShare fY).1 $$ HLY with ⟨HLY0, HLY1, HLY2, HLY3⟩
  icases (quarter_split (pZ c) _ fullShare fZ).1 $$ HLZ with ⟨HLZ0, HLZ1, HLZ2, HLZ3⟩
  icases HtG with ⟨⟨Ht40, Ht41, Ht42, Ht43⟩, ⟨Ht50, Ht51, Ht52, Ht53⟩, ⟨Ht60, Ht61, Ht62, Ht63⟩, ⟨Ht70, Ht71, Ht72, Ht73⟩⟩
  icases HaG with ⟨Ha0, ⟨Ha10, Ha11, Ha12, Ha13⟩, Ha2, ⟨Ha30, Ha31, Ha32, Ha33⟩, HaG⟩
  icases HcG with ⟨⟨Hc10, Hc11, Hc12, Hc13⟩, ⟨Hc30, Hc31, Hc32, Hc33⟩, HcG⟩
  iapply (wait_d m K c 1 0 (dst := oX c 0) (by decide) (by rfl) (Orem c 11) _ (mayWait_recv1 c 0)) $$ [Hc10 HO Ha10]
  · iframe # ∗
  iintro ⟨HO, Ha10, Hp⟩
  rw [wp_ret]; imodintro
  ihave Hp := (Entails.of_eq (pay_1 m c 0)) $$ Hp
  icases (oPts_halves c _ _).1 $$ Hp with ⟨HhL, HhR⟩
  iapply (sendY m K c 0 (dev12_eq c) rfl rfl (by decide) (by decide) fY (1024 * qc c + rowA c 0) _ (by unfold rowA; simp <;> omega) rfl 11 rfl _) $$ [HhL HLY0 HO Ht40 Ht50]
  · iframe # ∗
  iintro ⟨Hc40, HO⟩
  iapply (sendZ m K c 0 (dev13_eq c) rfl rfl (by decide) (by decide) fZ (1024 * qc c + rowA c 0) _ (by unfold rowA; simp <;> omega) rfl 12 rfl _) $$ [HhR HLZ0 HO Ht60 Ht70]
  · iframe # ∗
  iintro ⟨Hc60, HO⟩
  iapply (wait_d m K c 1 1 (dst := oX c 1) (by decide) (by rfl) (Orem c 13) _ (mayWait_recv1 c 1)) $$ [Hc11 HO Ha11]
  · iframe # ∗
  iintro ⟨HO, Ha11, Hp⟩
  ihave Hp := (Entails.of_eq (pay_1 m c 1)) $$ Hp
  icases (oPts_halves c _ _).1 $$ Hp with ⟨HhL, HhR⟩
  iapply (sendY m K c 1 (dev14_eq c) rfl rfl (by decide) (by decide) fY (1024 * qc c + rowA c 1) _ (by unfold rowA; simp <;> omega) rfl 13 rfl _) $$ [HhL HLY1 HO Ht41 Ht51]
  · iframe # ∗
  iintro ⟨Hc41, HO⟩
  iapply (sendZ m K c 1 (dev15_eq c) rfl rfl (by decide) (by decide) fZ (1024 * qc c + rowA c 1) _ (by unfold rowA; simp <;> omega) rfl 14 rfl _) $$ [HhR HLZ1 HO Ht61 Ht71]
  · iframe # ∗
  iintro ⟨Hc61, HO⟩
  iapply (wait_d m K c 1 2 (dst := oX c 2) (by decide) (by rfl) (Orem c 15) _ (mayWait_recv1 c 2)) $$ [Hc12 HO Ha12]
  · iframe # ∗
  iintro ⟨HO, Ha12, Hp⟩
  ihave Hp := (Entails.of_eq (pay_1 m c 2)) $$ Hp
  icases (oPts_halves c _ _).1 $$ Hp with ⟨HhL, HhR⟩
  iapply (sendY m K c 2 (dev16_eq c) rfl rfl (by decide) (by decide) fY (1024 * qc c + rowA c 2) _ (by unfold rowA; simp <;> omega) rfl 15 rfl _) $$ [HhL HLY2 HO Ht42 Ht52]
  · iframe # ∗
  iintro ⟨Hc42, HO⟩
  iapply (sendZ m K c 2 (dev17_eq c) rfl rfl (by decide) (by decide) fZ (1024 * qc c + rowA c 2) _ (by unfold rowA; simp <;> omega) rfl 16 rfl _) $$ [HhR HLZ2 HO Ht62 Ht72]
  · iframe # ∗
  iintro ⟨Hc62, HO⟩
  iapply (wait_d m K c 1 3 (dst := oX c 3) (by decide) (by rfl) (Orem c 17) _ (mayWait_recv1 c 3)) $$ [Hc13 HO Ha13]
  · iframe # ∗
  iintro ⟨HO, Ha13, Hp⟩
  ihave Hp := (Entails.of_eq (pay_1 m c 3)) $$ Hp
  icases (oPts_halves c _ _).1 $$ Hp with ⟨HhL, HhR⟩
  iapply (sendY m K c 3 (dev18_eq c) rfl rfl (by decide) (by decide) fY (1024 * qc c + rowA c 3) _ (by unfold rowA; simp <;> omega) rfl 17 rfl _) $$ [HhL HLY3 HO Ht43 Ht53]
  · iframe # ∗
  iintro ⟨Hc43, HO⟩
  iapply (sendZ m K c 3 (dev19_eq c) rfl rfl (by decide) (by decide) fZ (1024 * qc c + rowA c 3) _ (by unfold rowA; simp <;> omega) rfl 18 rfl _) $$ [HhR HLZ3 HO Ht63 Ht73]
  · iframe # ∗
  iintro ⟨Hc63, HO⟩
  iapply (wait_d m K c 3 0 (dst := oXb c 0) (by decide) (by rfl) (Orem c 19) _ (mayWait_done c _)) $$ [Hc30 HO Ha30]
  · iframe # ∗
  iintro ⟨HO, Ha30, Hp30⟩
  iapply (wait_d m K c 3 1 (dst := oXb c 1) (by decide) (by rfl) (Orem c 19) _ (mayWait_done c _)) $$ [Hc31 HO Ha31]
  · iframe # ∗
  iintro ⟨HO, Ha31, Hp31⟩
  iapply (wait_d m K c 3 2 (dst := oXb c 2) (by decide) (by rfl) (Orem c 19) _ (mayWait_done c _)) $$ [Hc32 HO Ha32]
  · iframe # ∗
  iintro ⟨HO, Ha32, Hp32⟩
  iapply (wait_d m K c 3 3 (dst := oXb c 3) (by decide) (by rfl) (Orem c 19) _ (mayWait_done c _)) $$ [Hc33 HO Ha33]
  · iframe # ∗
  iintro ⟨HO, Ha33, Hp33⟩
  icases Ha0 with ⟨Ha00, Ha01, Ha02, Ha03⟩
  icases Ha2 with ⟨Ha20, Ha21, Ha22, Ha23⟩
  iapply (wait_d m K c 0 0 (dst := bS (chA 0)) (by decide) (by rfl) (Orem c 19) _ (mayWait_done c _)) $$ [Hc00 HO Ha00]
  · iframe # ∗
  iintro ⟨HO, Ha00, Hp00⟩
  iapply (wait_d m K c 2 0 (dst := bS (chB 0)) (by decide) (by rfl) (Orem c 19) _ (mayWait_done c _)) $$ [Hc20 HO Ha20]
  · iframe # ∗
  iintro ⟨HO, Ha20, Hp20⟩
  iapply (wait_d m K c 0 1 (dst := bS (chA 1)) (by decide) (by rfl) (Orem c 19) _ (mayWait_done c _)) $$ [Hc01 HO Ha01]
  · iframe # ∗
  iintro ⟨HO, Ha01, Hp01⟩
  iapply (wait_d m K c 2 1 (dst := bS (chB 1)) (by decide) (by rfl) (Orem c 19) _ (mayWait_done c _)) $$ [Hc21 HO Ha21]
  · iframe # ∗
  iintro ⟨HO, Ha21, Hp21⟩
  iapply (wait_d m K c 0 2 (dst := bS (chA 2)) (by decide) (by rfl) (Orem c 19) _ (mayWait_done c _)) $$ [Hc02 HO Ha02]
  · iframe # ∗
  iintro ⟨HO, Ha02, Hp02⟩
  iapply (wait_d m K c 2 2 (dst := bS (chB 2)) (by decide) (by rfl) (Orem c 19) _ (mayWait_done c _)) $$ [Hc22 HO Ha22]
  · iframe # ∗
  iintro ⟨HO, Ha22, Hp22⟩
  iapply (wait_d m K c 0 3 (dst := bS (chA 3)) (by decide) (by rfl) (Orem c 19) _ (mayWait_done c _)) $$ [Hc03 HO Ha03]
  · iframe # ∗
  iintro ⟨HO, Ha03, Hp03⟩
  iapply (wait_d m K c 2 3 (dst := bS (chB 3)) (by decide) (by rfl) (Orem c 19) _ (mayWait_done c _)) $$ [Hc23 HO Ha23]
  · iframe # ∗
  iintro ⟨HO, Ha23, Hp23⟩
  icases HaG with ⟨⟨Ha40, Ha41, Ha42, Ha43⟩, ⟨Ha50, Ha51, Ha52, Ha53⟩, ⟨Ha60, Ha61, Ha62, Ha63⟩, ⟨Ha70, Ha71, Ha72, Ha73⟩⟩
  icases HcG with ⟨⟨Hc50, Hc51, Hc52, Hc53⟩, ⟨Hc70, Hc71, Hc72, Hc73⟩⟩
  iapply (wait_d m K c 4 0 (dst := oFw c 0) (by decide) (by rfl) (Orem c 19) _ (mayWait_done c _)) $$ [Hc40 HO Ha40]
  · iframe # ∗
  iintro ⟨HO, Ha40, Hp40⟩
  iapply (wait_d m K c 5 0 (dst := oFw c 0) (by decide) (by rfl) (Orem c 19) _ (mayWait_done c _)) $$ [Hc50 HO Ha50]
  · iframe # ∗
  iintro ⟨HO, Ha50, Hp50⟩
  iapply (wait_d m K c 6 0 (dst := oFw c 0) (by decide) (by rfl) (Orem c 19) _ (mayWait_done c _)) $$ [Hc60 HO Ha60]
  · iframe # ∗
  iintro ⟨HO, Ha60, Hp60⟩
  iapply (wait_d m K c 7 0 (dst := oFw c 0) (by decide) (by rfl) (Orem c 19) _ (mayWait_done c _)) $$ [Hc70 HO Ha70]
  · iframe # ∗
  iintro ⟨HO, Ha70, Hp70⟩
  iapply (wait_d m K c 4 1 (dst := oFw c 1) (by decide) (by rfl) (Orem c 19) _ (mayWait_done c _)) $$ [Hc41 HO Ha41]
  · iframe # ∗
  iintro ⟨HO, Ha41, Hp41⟩
  iapply (wait_d m K c 5 1 (dst := oFw c 1) (by decide) (by rfl) (Orem c 19) _ (mayWait_done c _)) $$ [Hc51 HO Ha51]
  · iframe # ∗
  iintro ⟨HO, Ha51, Hp51⟩
  iapply (wait_d m K c 6 1 (dst := oFw c 1) (by decide) (by rfl) (Orem c 19) _ (mayWait_done c _)) $$ [Hc61 HO Ha61]
  · iframe # ∗
  iintro ⟨HO, Ha61, Hp61⟩
  iapply (wait_d m K c 7 1 (dst := oFw c 1) (by decide) (by rfl) (Orem c 19) _ (mayWait_done c _)) $$ [Hc71 HO Ha71]
  · iframe # ∗
  iintro ⟨HO, Ha71, Hp71⟩
  iapply (wait_d m K c 4 2 (dst := oFw c 2) (by decide) (by rfl) (Orem c 19) _ (mayWait_done c _)) $$ [Hc42 HO Ha42]
  · iframe # ∗
  iintro ⟨HO, Ha42, Hp42⟩
  iapply (wait_d m K c 5 2 (dst := oFw c 2) (by decide) (by rfl) (Orem c 19) _ (mayWait_done c _)) $$ [Hc52 HO Ha52]
  · iframe # ∗
  iintro ⟨HO, Ha52, Hp52⟩
  iapply (wait_d m K c 6 2 (dst := oFw c 2) (by decide) (by rfl) (Orem c 19) _ (mayWait_done c _)) $$ [Hc62 HO Ha62]
  · iframe # ∗
  iintro ⟨HO, Ha62, Hp62⟩
  iapply (wait_d m K c 7 2 (dst := oFw c 2) (by decide) (by rfl) (Orem c 19) _ (mayWait_done c _)) $$ [Hc72 HO Ha72]
  · iframe # ∗
  iintro ⟨HO, Ha72, Hp72⟩
  iapply (wait_d m K c 4 3 (dst := oFw c 3) (by decide) (by rfl) (Orem c 19) _ (mayWait_done c _)) $$ [Hc43 HO Ha43]
  · iframe # ∗
  iintro ⟨HO, Ha43, Hp43⟩
  iapply (wait_d m K c 5 3 (dst := oFw c 3) (by decide) (by rfl) (Orem c 19) _ (mayWait_done c _)) $$ [Hc53 HO Ha53]
  · iframe # ∗
  iintro ⟨HO, Ha53, Hp53⟩
  iapply (wait_d m K c 6 3 (dst := oFw c 3) (by decide) (by rfl) (Orem c 19) _ (mayWait_done c _)) $$ [Hc63 HO Ha63]
  · iframe # ∗
  iintro ⟨HO, Ha63, Hp63⟩
  rw [wp_ret]; imodintro
  iapply (wait_d m K c 7 3 (dst := oFw c 3) (by decide) (by rfl) (Orem c 19) _ (mayWait_done c _)) $$ [Hc73 HO Ha73]
  · iframe # ∗
  iintro ⟨HO, Ha73, Hp73⟩
  imod (finish m K c) $$ [-Hk Hx HO HaB] with ⟨HΦ, Hout⟩
  · rw [bigSep_8x4 (fun a i => atPos ER (dCell c a i) 1 ∅ 0)]
    iframe # ∗
  rw [wp_ret]; imodintro
  iapply Hk
  unfold bodyPost Dat.owesAt Pipeline.owesWithin
  rw [show (dats m ρ 0 c).owed t₀.succ = 0 from rfl]
  iframe HΦ
  isplitl [HO]
  · iexists _
    isplitr
    rotate_left
    · iexact HO
    · ipureintro; exact fun _ _ => Or.inl trivial
  isplitl [Hx] <;> (iexists _; isplitr; · (ipureintro; rfl)) <;> iassumption

/-- info: 'Cert.KernelIdealProof.sound_body' depends on axioms: [propext, Classical.choice, Quot.sound] -/
#guard_msgs in #print axioms sound_body

end Cert.KernelIdealProof

end
-- ==== Proof.KernelIdealBody.lean ====
import proofs.«900647_g7700000000000648_dist_a2a_v7x_xyz2x4x4_x_m1024_n512_bf16_1_alg».proof.Proof.KernelIdealBodyRun

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6 cc0_scratch7 cc0_scratch8)
    (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.KernelIdealProof

end
-- ==== Proof.KernelIdealLaunch.lean ====
import proofs.«900647_g7700000000000648_dist_a2a_v7x_xyz2x4x4_x_m1024_n512_bf16_1_alg».proof.Proof.KernelIdealGhost
import proofs.«900647_g7700000000000648_dist_a2a_v7x_xyz2x4x4_x_m1024_n512_bf16_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

omit [FloatOps F] in
theorem bPts_univ (c : Dev nD) (f : Buf (Elt F) ((c : Thread nD τ).loc cc0_scratch0)) :
    bPts c Finset.univ f = (((c : Thread nD τ).loc cc0_scratch0) ↦{fullShare} f : sProp 𝕄) := rfl

omit [FloatOps F] in
theorem launchCred_step (O : Dev nD → CellTallies nD τ sig Unit) (sm : SemLoc sig) (f : Dev nD → Dev nD) (hf : ∀ c, f (f c) = c) (n : ℕ) (c : Dev nD) :
    (Pipeline.launchCred (fun d => O d + tallyAt (((f d) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f f hf hf () n c)

omit [FloatOps F] in
theorem cred_three (g : GSem nD τ sig) :
    (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) by rw [tallyAt_add, tallyAt_add]]
  exact (sep_mono_right (cred_add _ _).2).trans (cred_add _ _).2

omit [FloatOps F] in
theorem O₀_eq : (O₀ : Dev nD → CellTallies nD τ sig Unit) = fun d =>
    0 + tallyAt (dCell (pZ d) 7 3) () N
    + tallyAt (dCell (pY d) 5 3) () N
    + tallyAt (dCell (pZ d) 7 2) () N
    + tallyAt (dCell (pY d) 5 2) () N
    + tallyAt (dCell (pZ d) 7 1) () N
    + tallyAt (dCell (pY d) 5 1) () N
    + tallyAt (dCell (pZ d) 7 0) () N
    + tallyAt (dCell (pY d) 5 0) () N
    + tallyAt (dCell (pX d) 3 3) () N
    + tallyAt (dCell (pX d) 3 2) () N
    + tallyAt (dCell (pX d) 3 1) () N
    + tallyAt (dCell (pX d) 3 0) () N
    + tallyAt (dCell (pX d) 1 3) () N
    + tallyAt (dCell (pX d) 1 2) () N
    + tallyAt (dCell (pX d) 1 1) () N
    + tallyAt (dCell (pX d) 1 0) () N
    + tallyAt (barCell (pZ d)) () 1
    + tallyAt (barCell (pY d)) () 1
    + tallyAt (barCell (pX d)) () 1 := rfl

theorem creds_intro (c : Dev nD) : (Pipeline.launchCred O₀ c : sProp 𝕄) ⊢ creds c := by
  rw [O₀_eq, creds_eq]
  iintro H
  icases (launchCred_step (F := F) _ (.reg barS) pX pX_pX 1 c) $$ H with ⟨H, B0⟩
  icases (launchCred_step (F := F) _ (.reg barS) pY pY_pY 1 c) $$ H with ⟨H, B1⟩
  icases (launchCred_step (F := F) _ (.reg barS) pZ pZ_pZ 1 c) $$ H with ⟨H, B2⟩
  icases (launchCred_step (F := F) _ (.dma (dsem 1 0)) pX pX_pX N c) $$ H with ⟨H, R10⟩
  icases (launchCred_step (F := F) _ (.dma (dsem 1 1)) pX pX_pX N c) $$ H with ⟨H, R11⟩
  icases (launchCred_step (F := F) _ (.dma (dsem 1 2)) pX pX_pX N c) $$ H with ⟨H, R12⟩
  icases (launchCred_step (F := F) _ (.dma (dsem 1 3)) pX pX_pX N c) $$ H with ⟨H, R13⟩
  icases (launchCred_step (F := F) _ (.dma (dsem 3 0)) pX pX_pX N c) $$ H with ⟨H, R30⟩
  icases (launchCred_step (F := F) _ (.dma (dsem 3 1)) pX pX_pX N c) $$ H with ⟨H, R31⟩
  icases (launchCred_step (F := F) _ (.dma (dsem 3 2)) pX pX_pX N c) $$ H with ⟨H, R32⟩
  icases (launchCred_step (F := F) _ (.dma (dsem 3 3)) pX pX_pX N c) $$ H with ⟨H, R33⟩
  icases (launchCred_step (F := F) _ (.dma (dsem 5 0)) pY pY_pY N c) $$ H with ⟨H, R50⟩
  icases (launchCred_step (F := F) _ (.dma (dsem 7 0)) pZ pZ_pZ N c) $$ H with ⟨H, R70⟩
  icases (launchCred_step (F := F) _ (.dma (dsem 5 1)) pY pY_pY N c) $$ H with ⟨H, R51⟩
  icases (launchCred_step (F := F) _ (.dma (dsem 7 1)) pZ pZ_pZ N c) $$ H with ⟨H, R71⟩
  icases (launchCred_step (F := F) _ (.dma (dsem 5 2)) pY pY_pY N c) $$ H with ⟨H, R52⟩
  icases (launchCred_step (F := F) _ (.dma (dsem 7 2)) pZ pZ_pZ N c) $$ H with ⟨H, R72⟩
  icases (launchCred_step (F := F) _ (.dma (dsem 5 3)) pY pY_pY N c) $$ H with ⟨H, R53⟩
  icases (launchCred_step (F := F) _ (.dma (dsem 7 3)) pZ pZ_pZ N c) $$ H with ⟨H, R73⟩
  iclear H
  isplitl [B0 B1 B2]
  · iapply (cred_three (F := F) (barCell c)); iframe
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [bPts_univ]; iexact Hr

omit [FloatOps F] in
theorem osem_at (a : Fin 8) (i : Fin 4) : osem ((finProdFinEquiv : Fin 8 × Fin 4 ≃ Fin 32) (a, i)) = .dma (dsem a i) := by
  refine congrArg SemLoc.dma (Fin.ext ?_)
  show 2 + ((finProdFinEquiv : Fin 8 × Fin 4 ≃ Fin 32) (a, i)).val = 2 + 4 * a.val + i.val
  rw [finProdFinEquiv_apply_val]
  show 2 + (i.val + 4 * a.val) = 2 + 4 * a.val + i.val
  omega

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun ai : Fin 8 × Fin 4 => semVal (dCell c ai.1 ai.2) 0 := by
  unfold Pipeline.ownSems0
  rw [BI.bigSep_univ_equiv (finProdFinEquiv : Fin 8 × Fin 4 ≃ Fin 32)]
  refine bigSep_congr fun ai _ => ?_
  rcases ai with ⟨a, i⟩
  rw [osem_at]

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, Hz⟩
  isplitr; · iempintro
  isplitl [Hz]; · iexact Hz
  iexists f; rw [← bPts_univ]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

theorem finalA_x (c : Dev nD) : finalA m ρ c (0 : Fin 2) = m (win0_0.arr.view.loc (c : Thread nD τ)) :=
  (dats (F := F) m ρ 0 c).arrAt_in (0 : Fin 2) rfl _

theorem finalA_out (c : Dev nD) : finalA m ρ c (1 : Fin 2) = outF m c := by
  have h := (dats (F := F) m ρ 0 c).arrAt_succ (1 : Fin 2) t₀
  rw [flush0_1, if_pos rfl] at h
  have h2 : finalA m ρ c (1 : Fin 2) = (dats m ρ 0 c).arrAt (1 : Fin 2) (t₀.val + 1) := rfl
  rw [h2, h]
  have hr := View.read_write_univ (v := ((cfg0.win 1).blk t₀).view) ((dats m ρ 0 c).arrAt 1 ↑t₀) ((dats m ρ 0 c).flushed 1 t₀)
  refine Eq.trans (Eq.symm ?_) hr
  exact Memref.read_access_unit_zero (Elt F) (main_v1 : Ref sig .tc) (funext fun a => Nat.zero_mul _) _ _

set_option maxRecDepth 8000 in
theorem run_main : θ_run defs (onTc (τ := τ) (main (F := F))) ⟨m, fun _ => 0, ρ⟩ (fun r => ∀ c : Dev nD,
    r.2.mem ((c.tc : Thread nD τ).loc main_v1) = outF m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := fund_all m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 1).trans (finalA_out m ρ c), ((h c).1 0).trans (finalA_x m ρ c)⟩)

/-- info: 'Cert.KernelIdealProof.run_main' depends on axioms: [propext, Classical.choice, Quot.sound] -/
#guard_msgs in #print axioms run_main

end Cert.KernelIdealProof

end
-- ==== Proof.KernelIdealValue.lean ====
import proofs.«900647_g7700000000000648_dist_a2a_v7x_xyz2x4x4_x_m1024_n512_bf16_1_alg».proof.Proof.KernelIdealRegions
import proofs.«900647_g7700000000000648_dist_a2a_v7x_xyz2x4x4_x_m1024_n512_bf16_1_alg».proof.Proof.Gen.ReferenceIdeal.Run
import proofs.«900647_g7700000000000648_dist_a2a_v7x_xyz2x4x4_x_m1024_n512_bf16_1_alg».proof.Proof.Gen.ReferenceIdeal.Read
import proofs.«900647_g7700000000000648_dist_a2a_v7x_xyz2x4x4_x_m1024_n512_bf16_1_alg».proof.Proof.Gen.Pre_finite_inputs_Kernel
import proofs.«900647_g7700000000000648_dist_a2a_v7x_xyz2x4x4_x_m1024_n512_bf16_1_alg».proof.Proof.Gen.Pre_finite_inputs_ReferenceIdeal
import proofs.«900647_g7700000000000648_dist_a2a_v7x_xyz2x4x4_x_m1024_n512_bf16_1_alg».proof.Defs
import Idealize.ShloMosaic.Lib.Layout
import Idealize.ShloMosaic.Lib.ValueIdx
import Idealize.ShloMosaic.Lib.Pipeline.Value
import Idealize.ShloMosaic.PureOps.Ideal.Laws

noncomputable section

namespace Cert.KernelIdealProof.Value

open Cert.KernelIdeal Cert.KernelIdeal.Gen Cert.KernelIdealProof
open Idealize.ShloMosaic Idealize.ShloMosaic.TcCoe
open Idealize.SL Idealize.SL.Sem

theorem xstg_apply (m : (ℓ : Loc nD τ sig) → Buf (Elt Ideal) ℓ) (c : Dev nD) (i : S1024x1024.Idx) :
    xstg (F := Ideal) m c i = (m ((c.tc : Thread nD τ).loc main_arg0) : S1024x1024.Idx → Elt Ideal .f32) i := by
  show _root_.cast rfl (m ((c.tc : Thread nD τ).loc main_arg0) ((win0_0.rect (0 : Fin 1)).emb i)) = _
  have : (win0_0.rect (0 : Fin 1)).emb i = i := by
    funext a; apply Fin.ext; rw [Rect.emb_apply]
    show 0 * _ + 1 * (i a).val = (i a).val
    omega
  rw [this]; rfl

theorem pc_srcDev (c : Dev nD) (k : Nat) : pc (srcDev c k) = 1 - pc c := by
  unfold srcDev
  split
  · exact pc_pX c
  · split
    · rw [pc_pX, pc_pY]
    · rw [pc_pX, pc_pZ]

theorem meshRow : ∀ c : Dev nD, ((Layout.meshBlock [2, 4, 4] ![[0], []] c) 0).val = pc c := by decide
theorem meshRow1 : ∀ c : Dev nD, ((Layout.meshBlock [2, 4, 4] ![[0], []] c) 1).val = 0 := by decide
theorem meshCol : ∀ c : Dev nD, ((Layout.meshBlock [2, 4, 4] ![[], [0]] c) 1).val = pc c := by decide
theorem meshCol0 : ∀ c : Dev nD, ((Layout.meshBlock [2, 4, 4] ![[], [0]] c) 0).val = 0 := by decide

theorem xAt_block (m : (ℓ : Loc nD τ sig) → Buf (Elt Ideal) ℓ)
    (X : Cert.ReferenceIdeal.S2048x1024.Idx → Elt Ideal .f32)
    (hX : ∀ c : Dev nD, m ((c.tc : Thread nD τ).loc main_arg0) = Layout.blockN ⟨2, ![1024, 1024]⟩ ⟨2, ![2048, 1024]⟩ (Layout.meshBlock [2, 4, 4] ![[0], []] c) X)
    (d : Dev nD) (r col : Nat) (hr : r < 1024) (hc : col < 1024) :
    xAt (F := Ideal) m d r col = X (Shape.pair (⟨1024 * pc d + r, by have := pc_lt d; show _ < 2048; omega⟩ : Fin 2048) (⟨col, hc⟩ : Fin 1024)) := by
  unfold xAt
  rw [xstg_apply, hX d, Layout.blockN_apply]
  congr 1
  funext b
  apply Fin.ext
  rw [Layout.TilesN.idx_val]
  revert b
  rw [Fin.forall_fin_two]
  refine ⟨?_, ?_⟩
  · show ((Layout.meshBlock [2, 4, 4] ![[0], []] d) 0).val * 1024 + r % 1024 = 1024 * pc d + r
    rw [meshRow, Nat.mod_eq_of_lt hr]; omega
  · show ((Layout.meshBlock [2, 4, 4] ![[0], []] d) 1).val * 1024 + col % 1024 = col
    rw [meshRow1, Nat.mod_eq_of_lt hc]; omega

/-- Block p of x is rows 1024 p … of the whole x, so row R of every result is row R of the whole x. -/
theorem outF_block (m : (ℓ : Loc nD τ sig) → Buf (Elt Ideal) ℓ)
    (X : Cert.ReferenceIdeal.S2048x1024.Idx → Elt Ideal .f32)
    (hX : ∀ c : Dev nD, m ((c.tc : Thread nD τ).loc main_arg0) = Layout.blockN ⟨2, ![1024, 1024]⟩ ⟨2, ![2048, 1024]⟩ (Layout.meshBlock [2, 4, 4] ![[0], []] c) X)
    (c : Dev nD) :
    (outF (F := Ideal) m c : S2048x512.Idx → Elt Ideal .bf16)
      = Layout.blockN ⟨2, ![2048, 512]⟩ ⟨2, ![2048, 1024]⟩ (Layout.meshBlock [2, 4, 4] ![[], [0]] c)
          (truncf (F := Ideal) (s := Cert.ReferenceIdeal.S2048x1024) (φ := .f32) .bf16 X Cert.ReferenceIdeal.Gen.bitsLt_bf16_f32) := by
  funext j
  have hj0 : (j 0).val < 2048 := (j 0).isLt
  have hj1 : (j 1).val < 512 := (j 1).isLt
  have hp := pc_lt c
  rw [Layout.blockN_apply]
  show outF (F := Ideal) m c j = X _
  have key : ∀ d : Dev nD, 1024 * pc d + (j 0).val % 1024 = (j 0).val →
      cvt (F := Ideal) (xAt (F := Ideal) m d ((j 0).val % 1024) (512 * pc c + (j 1).val))
        = X (Layout.TilesN.idx (S := ⟨2, ![2048, 512]⟩) (T := ⟨2, ![2048, 1024]⟩) (by decide) (Layout.meshBlock [2, 4, 4] ![[], [0]] c) j) := by
    intro d hd
    rw [xAt_block m X hX d _ _ (Nat.mod_lt _ (by decide)) (by omega)]
    show X _ = X _
    congr 1
    funext b
    apply Fin.ext
    rw [Layout.TilesN.idx_val]
    revert b
    rw [Fin.forall_fin_two]
    refine ⟨?_, ?_⟩
    · show 1024 * pc d + (j 0).val % 1024 = ((Layout.meshBlock [2, 4, 4] ![[], [0]] c) 0).val * 2048 + (j 0).val
      rw [meshCol0]; omega
    · show 512 * pc c + (j 1).val = ((Layout.meshBlock [2, 4, 4] ![[], [0]] c) 1).val * 512 + (j 1).val
      rw [meshCol]; omega
  unfold outF
  split
  · next h => exact key c (by omega)
  · next h =>
    refine key _ ?_
    rw [pc_srcDev]
    omega

theorem ref_frame : Cert.frame_ReferenceIdeal (hReferenceIdeal := Cert.ReferenceIdeal.Gen.facts)
    (hPre_finite_inputs_ReferenceIdeal := Cert.Pre_finite_inputs_ReferenceIdeal.Gen.facts) := by
  intro m' g' _
  exact (θ_run _ _ _).mono (fun _ h c => (h c).2) (Cert.ReferenceIdeal.Value.run (F := Ideal) m' g')

theorem ref_value (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = truncf (F := Ideal) (s := Cert.ReferenceIdeal.S2048x1024) (φ := .f32) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run _ _ _).mono (fun _ h => h 0) (Cert.ReferenceIdeal.Value.run (F := Ideal) m' g')

theorem algebraic_of_run
    (hrun : ∀ (m : (ℓ : Loc nD τ sig) → Buf (Elt Ideal) ℓ) (ρ : Dev nD → PrngReg),
      θ_run (Cert.KernelIdeal.defs (F := Ideal)) (onTc (τ := τ) (Cert.KernelIdeal.main (F := Ideal))) ⟨m, fun _ => 0, ρ⟩
        (fun r => ∀ c : Dev nD, r.2.mem ((c.tc : Thread nD τ).loc main_v1) = (outF (F := Ideal) m c)
          ∧ r.2.mem ((c.tc : Thread nD τ).loc main_arg0) = m ((c.tc : Thread nD τ).loc main_arg0))) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m g m' g' _ hX
  refine ⟨truncf (F := Ideal) (s := Cert.ReferenceIdeal.S2048x1024) (φ := .f32) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32, ?_, ref_value m' g'⟩
  exact (θ_run _ _ _).mono (fun r h c => ⟨(h c).1.trans (outF_block m _ hX c), (h c).2⟩) (hrun m g)

end Cert.KernelIdealProof.Value

end
-- ==== Proof.lean ====
/-
The kernel only moves data: every device ends with its column half of the whole x, and the reference returns x.
Both printed kernels have one run (terminating, the result named, x unchanged); the frames drop the result, the value claim reads it.
-/
import proofs.«900647_g7700000000000648_dist_a2a_v7x_xyz2x4x4_x_m1024_n512_bf16_1_alg».proof.Defs
import proofs.«900647_g7700000000000648_dist_a2a_v7x_xyz2x4x4_x_m1024_n512_bf16_1_alg».proof.Proof.Gen.Kernel
import proofs.«900647_g7700000000000648_dist_a2a_v7x_xyz2x4x4_x_m1024_n512_bf16_1_alg».proof.Proof.Gen.KernelIdeal
import proofs.«900647_g7700000000000648_dist_a2a_v7x_xyz2x4x4_x_m1024_n512_bf16_1_alg».proof.Proof.Gen.ReferenceIdeal
import proofs.«900647_g7700000000000648_dist_a2a_v7x_xyz2x4x4_x_m1024_n512_bf16_1_alg».proof.Proof.Gen.Pre_finite_inputs_Kernel
import proofs.«900647_g7700000000000648_dist_a2a_v7x_xyz2x4x4_x_m1024_n512_bf16_1_alg».proof.Proof.Gen.Pre_finite_inputs_ReferenceIdeal
import proofs.«900647_g7700000000000648_dist_a2a_v7x_xyz2x4x4_x_m1024_n512_bf16_1_alg».proof.Proof.KernelLaunch
import proofs.«900647_g7700000000000648_dist_a2a_v7x_xyz2x4x4_x_m1024_n512_bf16_1_alg».proof.Proof.KernelIdealLaunch
import proofs.«900647_g7700000000000648_dist_a2a_v7x_xyz2x4x4_x_m1024_n512_bf16_1_alg».proof.Proof.KernelIdealValue

noncomputable section

namespace Cert.Proof

open Idealize.ShloMosaic Idealize.SL.Sem

theorem frameKernel : Cert.frame_Kernel (hKernel := Cert.Kernel.Gen.facts) (hPre_finite_inputs_Kernel := Cert.Pre_finite_inputs_Kernel.Gen.facts) :=
  fun m g _ => (θ_run _ _ _).mono (fun _ h c => (h c).2) (Cert.KernelProof.run_main (F := Bits) m g)

theorem frameKernelIdeal : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdealProof.run_main (F := Ideal) m g)

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frameKernel, frameKernelIdeal, Cert.KernelIdealProof.Value.ref_frame, trivial,
    Cert.KernelIdealProof.Value.algebraic_of_run (fun m ρ => Cert.KernelIdealProof.run_main (F := Ideal) m ρ)⟩

end Cert.Proof

end
